-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S1600000x64 : Shape := ⟨2, ![1600000, 64]⟩
abbrev S1x16 : Shape := ⟨2, ![1, 16]⟩
abbrev S100000 : Shape := ⟨1, ![100000]⟩
abbrev S67x64 : Shape := ⟨2, ![67, 64]⟩
abbrev S64 : Shape := ⟨1, ![64]⟩
abbrev S64x64 : Shape := ⟨2, ![64, 64]⟩
abbrev S_ : Shape := ⟨0, ![]⟩
abbrev S1x1600000 : Shape := ⟨2, ![1, 1600000]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1x16 : S_.BroadcastsInDim S1x16 (![] : Fin 0 → Fin S1x16.rank)
  reducesTo_S1x16_S_d0_1 : S1x16.ReducesTo [0, 1] S_
  bcast_S_S67x64 : S_.BroadcastsInDim S67x64 (![] : Fin 0 → Fin S67x64.rank)
  reducesTo_S67x64_S_d0_1 : S67x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part4 {F : FTy → Type} [FloatOps F] (main_arg1 : IVec S2x1600000 32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_c_28 : IVec S_ 32 := constantI S_ 32 4294867296#32
  let main_v75 : IVec S1x1600000 32 := broadcastInDim S1x1600000 ![] bcast_S_S1x1600000 main_c_28
  let main_v76 : IVec S1x1600000 1 := cmpi .sge main_v74 main_v75
  let main_c_29 : IVec S_ 1 := constantI S_ 1 1#1
  let main_v77 : IVec S_ 1 := (fun x v => Host.reduce IntOp.andi x v reducesTo_S1x1600000_S_d0_1 h_S_) main_v76 main_c_29
  let main_v78 : IVec S_ 1 := andi main_v73 main_v77
  let main_v79 : IVec S1x1600000 32 := (extractStridedSlice S1x1600000 ![0, 0] · slices_S2x1600000_S1x1600000_0_0) main_arg1
  let main_c_30 : IVec S_ 32 := constantI S_ 32 100000#32
  let main_v80 : IVec S1x1600000 32 := broadcastInDim S1x1600000 ![] bcast_S_S1x1600000 main_c_30
  let main_v81 : IVec S1x1600000 1 := cmpi .slt main_v79 main_v80
  let main_c_31 : IVec S_ 1 := constantI S_ 1 1#1
  let main_v82 : IVec S_ 1 := (fun x v => Host.reduce IntOp.andi x v reducesTo_S1x1600000_S_d0_1 h_S_) main_v81 main_c_31
  let main_v83 : IVec S_ 1 := andi main_v78 main_v82
  main_v83

def fn_part3 {F : FTy → Type} [FloatOps F] (main_arg1 : IVec S2x1600000 32) (main_arg13 : FVec F S64 .f32) (main_arg14 : FVec F S64 .f32) (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg16 main_v63 main_v67

def fn_part2 {F : FTy → Type} [FloatOps F] (main_arg1 : IVec S2x1600000 32) (main_arg9 : FVec F S64x64 .f32) (main_arg10 : FVec F S64 .f32) (main_arg11 : FVec F S67x64 .f32) (main_arg12 : FVec F S64 .f32) (main_arg13 : FVec F S64 .f32) (main_arg14 : FVec F S64 .f32) (main_arg15 : FVec F S64x64 .f32) (main_arg16 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S67x64 .f32 := Host.absf main_arg11
  let main_cst_16 : FVec F S_ .f32 := constant S_ .f32 0x7F800000#32
  let main_v45 : FVec F S67x64 .f32 := broadcastInDim S67x64 ![] bcast_S_S67x64 main_cst_16
  let main_v46 : IVec S67x64 1 := cmpf .olt main_v44 main_v45
  let main_c_17 : IVec S_ 1 := constantI S_ 1 1#1
  let main_v47 : IVec S_ 1 := (fun x v => Host.reduce IntOp.andi x v reducesTo_S67x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_v48 main_v49 main_v50

def fn_part1 {F : FTy → Type} [FloatOps F] (main_arg1 : IVec S2x1600000 32) (main_arg6 : FVec F S64 .f32) (main_arg7 : FVec F S64 .f32) (main_arg8 : FVec F S64 .f32) (main_arg9 : FVec F S64x64 .f32) (main_arg10 : FVec F S64 .f32) (main_arg11 : FVec F S67x64 .f32) (main_arg12 : FVec F S64 .f32) (main_arg13 : FVec F S64 .f32) (main_arg14 : FVec F S64 .f32) (main_arg15 : FVec F S64x64 .f32) (main_arg16 : FVec F S64 .f32) (main_v13 : IVec S_ 1) (main_v16 : IVec S67x64 1) : IVec S_ 1 :=
  let main_c_5 : IVec S_ 1 := constantI S_ 1 1#1
  let main_v17 : IVec S_ 1 := (fun x v => Host.reduce IntOp.andi x v reducesTo_S67x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S100000x3 .f32) (main_arg1 : IVec S2x1600000 32) (main_arg2 : FVec F S1600000x64 .f32) (main_arg3 : FVec F S1x16 .f32) (main_arg4 : IVec S100000 32) (main_arg5 : FVec F S67x64 .f32) (main_arg6 : FVec F S64 .f32) (main_arg7 : FVec F S64 .f32) (main_arg8 : FVec F S64 .f32) (main_arg9 : FVec F S64x64 .f32) (main_arg10 : FVec F S64 .f32) (main_arg11 : FVec F S67x64 .f32) (main_arg12 : FVec F S64 .f32) (main_arg13 : FVec F S64 .f32) (main_arg14 : FVec F S64 .f32) (main_arg15 : FVec F S64x64 .f32) (main_arg16 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S67x64 .f32 := Host.absf main_arg5
  let main_cst_4 : FVec F S_ .f32 := constant S_ .f32 0x7F800000#32
  let main_v15 : FVec F S67x64 .f32 := broadcastInDim S67x64 ![] bcast_S_S67x64 main_cst_4
  let main_v16 : IVec S67x64 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S100000x3 : Shape := ⟨2, ![100000, 3]⟩
abbrev S2x1600000 : Shape := ⟨2, ![2, 1600000]⟩
abbrev S1600000x64 : Shape := ⟨2, ![1600000, 64]⟩
abbrev S1x16 : Shape := ⟨2, ![1, 16]⟩
abbrev S100000 : Shape := ⟨1, ![100000]⟩
abbrev S67x64 : Shape := ⟨2, ![67, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x3 : Shape := ⟨2, ![1600000, 3]⟩
abbrev S3x64 : Shape := ⟨2, ![3, 64]⟩
abbrev S1x64 : Shape := ⟨2, ![1, 64]⟩
abbrev S8000x3 : Shape := ⟨2, ![8000, 3]⟩
abbrev S8000x64 : Shape := ⟨2, ![8000, 64]⟩
abbrev S100000x64 : Shape := ⟨2, ![100000, 64]⟩
abbrev S100000x1 : Shape := ⟨2, ![100000, 1]⟩
abbrev S10000x3 : Shape := ⟨2, ![10000, 3]⟩
abbrev S10000x64 : Shape := ⟨2, ![10000, 64]⟩

abbrev nBuf : Space → Nat
  | .hbm => 114
  | .vmem => 42
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S1600000x64, .f32⟩
  | .hbm, ⟨3, _⟩ => ⟨S1x16, .f32⟩
  | .hbm, ⟨4, _⟩ => ⟨S100000, .i32⟩
  | .hbm, ⟨5, _⟩ => ⟨S67x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S67x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x3, .f32⟩
  | .hbm, ⟨40, _⟩ => ⟨S1600000x3, .i1⟩
  | .hbm, ⟨41, _⟩ => ⟨S_, .f32⟩
  | .hbm, ⟨42, _⟩ => ⟨S1600000x3, .f32⟩
  | .hbm, ⟨43, _⟩ => ⟨S1600000x3, .f32⟩
  | .hbm, ⟨44, _⟩ => ⟨S3x64, .f32⟩
  | .hbm, ⟨45, _⟩ => ⟨S64x64, .f32⟩
  | .hbm, ⟨46, _⟩ => ⟨S3x64, .f32⟩
  | .hbm, ⟨47, _⟩ => ⟨S64x64, .f32⟩
  | .hbm, ⟨48, _⟩ => ⟨S1x64, .f32⟩
  | .hbm, ⟨49, _⟩ => ⟨S1600000x64, .f32⟩
  | .hbm, ⟨50, _⟩ => ⟨S1x64, .f32⟩
  | .hbm, ⟨51, _⟩ => ⟨S1x64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S_, .f32⟩
  | .hbm, ⟨78, _⟩ => ⟨S1600000, .f32⟩
  | .hbm, ⟨79, _⟩ => ⟨S_, .f32⟩
  | .hbm, ⟨80, _⟩ => ⟨S100000, .f32⟩
  | .hbm, ⟨81, _⟩ => ⟨S1600000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S1x64, .f32⟩
  | .hbm, ⟨92, _⟩ => ⟨S1x64, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S100000x64, .f32⟩
  | .local _ .vmem, ⟨0, _⟩ => ⟨S8000x3, .f32⟩
  | .local _ .vmem, ⟨1, _⟩ => ⟨S8000x3, .f32⟩
  | .local _ .vmem, ⟨2, _⟩ => ⟨S8000x64, .f32⟩
  | .local _ .vmem, ⟨3, _⟩ => ⟨S8000x64, .f32⟩
  | .local _ .vmem, ⟨4, _⟩ => ⟨S3x64, .f32⟩
  | .local _ .vmem, ⟨5, _⟩ => ⟨S64x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S8000x64, .f32⟩
  | .local _ .vmem, ⟨14, _⟩ => ⟨S8000x64, .f32⟩
  | .local _ .vmem, ⟨15, _⟩ => ⟨S1x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S8000x64, .f32⟩
  | .local _ .vmem, ⟨20, _⟩ => ⟨S8000x64, .f32⟩
  | .local _ .vmem, ⟨21, _⟩ => ⟨S10000x3, .f32⟩
  | .local _ .vmem, ⟨22, _⟩ => ⟨S10000x3, .f32⟩
  | .local _ .vmem, ⟨23, _⟩ => ⟨S10000x64, .f32⟩
  | .local _ .vmem, ⟨24, _⟩ => ⟨S10000x64, .f32⟩
  | .local _ .vmem, ⟨25, _⟩ => ⟨S3x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10_0 : Ref sig .tc := ⟨.hbm, 49, rfl⟩
abbrev main_v10_1 : Ref sig .tc := ⟨.hbm, 50, rfl⟩
abbrev main_v10_2 : Ref sig .tc := ⟨.hbm, 51, rfl⟩
abbrev main_v11 : Ref sig .tc := ⟨.hbm, 52, rfl⟩
abbrev main_cst : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst_0 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_1 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_3 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_5 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42_0 : Ref sig .tc := ⟨.hbm, 90, rfl⟩
abbrev main_v42_1 : Ref sig .tc := ⟨.hbm, 91, rfl⟩
abbrev main_v42_2 : Ref sig .tc := ⟨.hbm, 92, rfl⟩
abbrev main_v43 : Ref sig .tc := ⟨.hbm, 93, rfl⟩
abbrev main_cst_6 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_7 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_8 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x3_0 : S1600000.BroadcastsInDim S1600000x3 (![0] : Fin 1 → Fin S1600000x3.rank)
  bcast_S_S1600000x3 : S_.BroadcastsInDim S1600000x3 (![] : Fin 0 → Fin S1600000x3.rank)
  slices_S67x64_S3x64_0_0 : S67x64.Slices ![0, 0] S3x64
  slices_S67x64_S64x64_3_0 : S67x64.Slices ![3, 0] S64x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8000x64 : S1x64.Broadcasts S8000x64
  reduces_S8000x64_S64 : S8000x64.Reduces [0] S64
  shapeCasts_S1x64_S64 : S1x64.ShapeCasts S64
  bcast_S_S64 : S_.BroadcastsInDim S64 (![] : Fin 0 → Fin S64.rank)
  shapeCasts_S8000x64_S8000x64 : S8000x64.ShapeCasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x3_S10000x3_0_0 : ∀ a, (![0, 0] : Fin 2 → Nat) a + S10000x3.size a ≤ S10000x3.size a
  h_S10000x3 : 0 < S10000x3.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S64 : S10000x64.Reduces [0] S64
  gather_S100000x3_S1600000x1_S1600000x3_1_0_n_n_0_1_13_wf : GatherDims.WF S100000x3 S1600000x1 S1600000x3 [1] [0] [] [0] [] 1 ![1, 3]
  dot_S8000x3_S3x64_S8000x64_1_0_0_1_n_n_wf : DotDims.WF S8000x3 S3x64 S8000x64 [1] [0] [0] [1] [] []
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x3_S3x64_S10000x64_1_0_0_1_n_n_wf : DotDims.WF S10000x3 S3x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1600000x3.size a
  hwx0_0 : ∀ i : grid0.Coords, EltTy.bits .f32 = 32 ∨ (Rect.block (s := S1600000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1600000x64.size a
  hwx1_5 : ∀ i : grid1.Coords, EltTy.bits .f32 = 32 ∨ (Rect.block (s := S1600000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x3.size a ≤ S100000x3.size a
  hwx2_0 : ∀ i : grid2.Coords, EltTy.bits .f32 = 32 ∨ (Rect.block (s := S100000x3) S10000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64.size a ≤ S3x64.size a
  hwx2_2 : ∀ i : grid2.Coords, EltTy.bits .f32 = 32 ∨ (Rect.block (s := S3x64) S3x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v4) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S8000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10_0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S10000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S3x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S1600000x64 : Shape := ⟨2, ![1600000, 64]⟩
abbrev S1x16 : Shape := ⟨2, ![1, 16]⟩
abbrev S100000 : Shape := ⟨1, ![100000]⟩
abbrev S67x64 : Shape := ⟨2, ![67, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x67 : Shape := ⟨2, ![1600000, 67]⟩
abbrev S1x64 : Shape := ⟨2, ![1, 64]⟩
abbrev S100000x64 : Shape := ⟨2, ![100000, 64]⟩
abbrev S100000x1 : Shape := ⟨2, ![100000, 1]⟩
abbrev S100000x67 : Shape := ⟨2, ![100000, 67]⟩

abbrev nBuf : Space → Nat
  | .hbm => 130
  | .vmem => 0
  | .smem => 0
  | _ => 0

abbrev hbmTy0_0 (i : Nat) : BufTy := match i % 128 with
  | 0 => ⟨S100000x3, .f32⟩
  | 1 => ⟨S2x1600000, .i32⟩
  | 2 => ⟨S1600000x64, .f32⟩
  | 3 => ⟨S1x16, .f32⟩
  | 4 => ⟨S100000, .i32⟩
  | 5 => ⟨S67x64, .f32⟩
  | 6 => ⟨S64, .f32⟩
  | 7 => ⟨S64, .f32⟩
  | 8 => ⟨S64, .f32⟩
  | 9 => ⟨S64x64, .f32⟩
  | 10 => ⟨S64, .f32⟩
  | 11 => ⟨S67x64, .f32⟩
  | 12 => ⟨S64, .f32⟩
  | 13 => ⟨S64, .f32⟩
  | 14 => ⟨S64, .f32⟩
  | 15 => ⟨S64x64, .f32⟩
  | 16 => ⟨S64, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x3, .f32⟩
  | 30 => ⟨S1600000x67, .f32⟩
  | 31 => ⟨S1600000x64, .f32⟩
  | 32 => ⟨S1x64, .f32⟩
  | 33 => ⟨S1600000x64, .f32⟩
  | 34 => ⟨S1600000x64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S1600000x64, .f32⟩
  | 42 => ⟨S1600000x64, .f32⟩
  | 43 => ⟨S1600000x64, .f32⟩
  | 44 => ⟨S_, .f32⟩
  | 45 => ⟨S64, .f32⟩
  | 46 => ⟨S_, .f32⟩
  | 47 => ⟨S64, .f32⟩
  | 48 => ⟨S64, .f32⟩
  | 49 => ⟨S1x64, .f32⟩
  | 50 => ⟨S1600000x64, .f32⟩
  | 51 => ⟨S1600000x64, .f32⟩
  | 52 => ⟨S_, .f32⟩
  | 53 => ⟨S64, .f32⟩
  | 54 => ⟨S64, .f32⟩
  | 55 => ⟨S64, .f32⟩
  | 56 => ⟨S1x64, .f32⟩
  | 57 => ⟨S1600000x64, .f32⟩
  | 58 => ⟨S1600000x64, .f32⟩
  | 59 => ⟨S1x64, .f32⟩
  | 60 => ⟨S1600000x64, .f32⟩
  | 61 => ⟨S1600000x64, .f32⟩
  | 62 => ⟨S1x64, .f32⟩
  | 63 => ⟨S1600000x64, .f32⟩
  | 64 => ⟨S1600000x64, .f32⟩
  | 65 => ⟨S_, .f32⟩
  | 66 => ⟨S1600000x64, .f32⟩
  | 67 => ⟨S1600000x64, .f32⟩
  | 68 => ⟨S1600000x64, .f32⟩
  | 69 => ⟨S1x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x64, .f32⟩
  | 87 => ⟨S100000x64, .f32⟩
  | 88 => ⟨S100000x67, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S1x64, .f32⟩
  | _ => ⟨S100000x3, .f32⟩

abbrev hbmTy0_1 (i : Nat) : BufTy := match i % 128 with
  | 0 => ⟨S100000x64, .f32⟩
  | 1 => ⟨S100000x64, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call1_cst : Ref sig .tc := ⟨.hbm, 123, rfl⟩
abbrev main_call1_v0 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x64_S1600000x67_d1 : Shape.Concatenates [S1600000x3, S1600000x64] S1600000x67 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  reducesTo_S1600000x64_S64_d0 : S1600000x64.ReducesTo [0] S64
  h_S_ : 0 < S_.numel
  bcast_S_S64 : S_.BroadcastsInDim S64 (![] : Fin 0 → Fin S64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x3_S100000x64_S100000x67_d1 : Shape.Concatenates [S100000x3, S100000x64] S100000x67 1
  bcast_S1x64_S100000x64_0_1 : S1x64.BroadcastsInDim S100000x64 (![0, 1] : Fin 2 → Fin S100000x64.rank)
  reducesTo_S100000x64_S64_d0 : S100000x64.ReducesTo [0] S64
  gather_S100000x3_S1600000x1_S1600000x3_1_0_n_n_0_1_13_wf : GatherDims.WF S100000x3 S1600000x1 S1600000x3 [1] [0] [] [0] [] 1 ![1, 3]
  dot_S1600000x67_S67x64_S1600000x64_1_0_0_1_n_n_wf : DotDims.WF S1600000x67 S67x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x67_S67x64_S100000x64_1_0_0_1_n_n_wf : DotDims.WF S100000x67 S67x64 S100000x64 [1] [0] [0] [1] [] []
  dot_S100000x64_S64x64_S100000x64_1_0_0_1_n_n_wf : DotDims.WF S100000x64 S64x64 S100000x64 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x67_S67x64_S1600000x64_1_0_0_1_n_n : DotDims S1600000x67 S67x64 S1600000x64 where
  lhsContracting := [1]
  rhsContracting := [0]
  lhsNonContracting := [0]
  rhsNonContracting := [1]
  lhsBatch := []
  rhsBatch := []
  wf := dot_S1600000x67_S67x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x67_S67x64_S100000x64_1_0_0_1_n_n : DotDims S100000x67 S67x64 S100000x64 where
  lhsContracting := [1]
  rhsContracting := [0]
  lhsNonContracting := [0]
  rhsNonContracting := [1]
  lhsBatch := []
  rhsBatch := []
  wf := dot_S100000x67_S67x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibWhole.lean ====
import Idealize.ShloMosaic.Lib.Pipeline.FrameBody
import Idealize.ShloMosaic.Lib.Pipeline.Value

noncomputable section

namespace Cert.Whole

open Idealize.ShloMosaic

variable {sig : RefSig} {κ : Kind} {sp : Space} {Val : EltTy → Type} [∀ e, Nonempty (Val e)] {S : Shape} {e : EltTy}
  {off : Fin S.rank → Nat} (h : off = fun _ => 0) (inb : ∀ a, off a + S.size a ≤ S.size a)
include h

theorem cover (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-- What a covering list of stores leaves is its canonical contents, and a last store through the whole shape decides those. -/
theorem store (v : View sig κ sp S e) (f : v.ty.Contents Val) (w : S.Idx → Val e) (L : List (View.Piece Val S e)) :
    v.read Val (v.writes Val f (⟨Rect.unit off S.size inb, w⟩ :: L)) = w :=
  (View.read_writes_eq_canon v f _ (cover h inb w L)).trans (View.canon_cons_unit_zero h inb w L)

theorem reload (v : View sig κ sp S e) (w : S.Idx → Val e) (L : List (View.Piece Val S e)) :
    v.readCov ((⟨Rect.unit off S.size inb, w⟩ : View.Piece Val S e) :: L) (Rect.unit off S.size inb).toLoadRect = w :=
  (View.readCov_eq_canon_ld v _ _ (cover h inb w L)).trans
    ((congrArg (fun X => View.ld X (Rect.unit off S.size inb)) (View.canon_cons_unit_zero h inb w L)).trans
      (View.ld_unit_zero h inb w))

end Cert.Whole

end
-- ==== Proof.K.First0.lean ====
import proofs.«429527_j52415780880560_1_alg».proof.Proof.Gen.Kernel.Launch
import proofs.«429527_j52415780880560_1_alg».proof.Proof.Gen.Kernel.Skeleton
import proofs.«429527_j52415780880560_1_alg».proof.Proof.Gen.Kernel.Points
import proofs.«429527_j52415780880560_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S8000x3 := Rect.unit (s := S8000x3) ![0, 0] S8000x3.size inb_S8000x3_S8000x3_0_0
abbrev rE0 : Rect S8000x64 := Rect.unit (s := S8000x64) ![0, 0] S8000x64.size inb_S8000x64_S8000x64_0_0
abbrev rWa0 : Rect S3x64 := Rect.unit (s := S3x64) ![0, 0] S3x64.size inb_S3x64_S3x64_0_0
abbrev rWb0 : Rect S64x64 := Rect.unit (s := S64x64) ![0, 0] S64x64.size inb_S64x64_S64x64_0_0
abbrev rB0 : Rect S1x64 := Rect.unit (s := S1x64) ![0, 0] S1x64.size inb_S1x64_S1x64_0_0

def preAt0 (c : Dev nD) (t : Fin cfg0.N) : Vec F S8000x64 .f32 :=
  k0_pay4 (View.ld (iblk0 V c 0 t) rX0) (View.ld (iblk0 V c 1 t) rE0) (View.ld (iblk0 V c 2 t) rWa0) (View.ld (iblk0 V c 3 t) rWb0) (View.ld (iblk0 V c 4 t) rB0)

def sumStep0 (c : Dev nD) (t : Fin cfg0.N) (acc : Vec F S1x64 .f32) : Vec F S1x64 .f32 :=
  k0_pay5 (View.ld (iblk0 V c 0 t) rX0) (View.ld (iblk0 V c 1 t) rE0) (View.ld (iblk0 V c 2 t) rWa0) (View.ld (iblk0 V c 3 t) rWb0) (View.ld (iblk0 V c 4 t) rB0) acc

def sqStep0 (c : Dev nD) (t : Fin cfg0.N) (acc : Vec F S1x64 .f32) : Vec F S1x64 .f32 :=
  k0_pay1 acc (k0_pay6 (View.ld (iblk0 V c 0 t) rX0) (View.ld (iblk0 V c 1 t) rE0) (View.ld (iblk0 V c 2 t) rWa0) (View.ld (iblk0 V c 3 t) rWb0) (View.ld (iblk0 V c 4 t) rB0))

def accS0 (c : Dev nD) : ℕ → Vec F S1x64 .f32
  | 0 => if h : 0 < cfg0.N then sumStep0 V c ⟨0, h⟩ (k0_pay2 (F := F)) else (k0_pay2 (F := F))
  | n + 1 => if h : n + 1 < cfg0.N then sumStep0 V c ⟨n + 1, h⟩ (accS0 c n) else accS0 c n

def accQ0 (c : Dev nD) : ℕ → Vec F S1x64 .f32
  | 0 => if h : 0 < cfg0.N then sqStep0 V c ⟨0, h⟩ (k0_pay3 (F := F)) else (k0_pay3 (F := F))
  | n + 1 => if h : n + 1 < cfg0.N then sqStep0 V c ⟨n + 1, h⟩ (accQ0 c n) else accQ0 c n

abbrev scM0_0 : Memref sig .tc .vmem S1x64 .f32 := Memref.whole cc0_scratch0
abbrev scM0_1 : Memref sig .tc .vmem S1x64 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

/-- Between points the two running totals hold some `s` and `q`; past the first point they are the folds up to the point before. -/
def Phi0 (c : Dev nD) (n : Fin (cfg0.N + 1)) : sProp 𝕄 :=
  iprop(∃ s, ∃ q, ⌜n.val ≠ 0 → s = accS0 V c (n.val - 1) ∧ q = accQ0 V c (n.val - 1)⌝
    ∗ iprop(iprop(iprop(owns (c : Thread nD τ) scM0_0 fullShare s ∗ owns (c : Thread nD τ) scM0_1 fullShare q) ∗ restBut0 (F := F) c) ∗ (∃ r, prngReg c r)))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 (F := F) c) ∗ (∃ r, prngReg c r)) := by
  unfold Pipeline.ΦA; rw [scopedRest0_split]; simp only [scM0_0, scM0_1, restBut0, owns_whole]; try rfl

/-- One step of the fold: the total after point `t` is this block's update of zero at the first point, of the previous total at a later one. -/
theorem accS0_step (c : Dev nD) (t : Fin cfg0.N) (s : Vec F S1x64 .f32) (h : t.val ≠ 0 → s = accS0 V c (t.val - 1)) :
    accS0 V c t.val = sumStep0 V c t (if t.val = 0 then k0_pay2 (F := F) else s) := by
  obtain ⟨n, hn⟩ := t
  cases n with
  | zero => rw [if_pos rfl]; exact dif_pos hn
  | succ n => rw [if_neg (Nat.succ_ne_zero n), h (Nat.succ_ne_zero n)]; exact dif_pos hn

theorem accQ0_step (c : Dev nD) (t : Fin cfg0.N) (q : Vec F S1x64 .f32) (h : t.val ≠ 0 → q = accQ0 V c (t.val - 1)) :
    accQ0 V c t.val = sqStep0 V c t (if t.val = 0 then k0_pay3 (F := F) else q) := by
  obtain ⟨n, hn⟩ := t
  cases n with
  | zero => rw [if_pos rfl]; exact dif_pos hn
  | succ n => rw [if_neg (Nat.succ_ne_zero n), h (Nat.succ_ne_zero n)]; exact dif_pos hn

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => View.canon [⟨rE0, preAt0 V c t⟩]
    | ⟨6, _⟩ => accS0 V c t.val
    | ⟨7, _⟩ => accQ0 V c t.val
  Φ n := Phi0 V c n
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = View.canon [⟨rE0, preAt0 V c t⟩] := by dsimp only [dat0]
theorem after0_6 (c : Dev nD) (t : Fin cfg0.N) : (dat0 V c).after 6 t = accS0 V c t.val := by dsimp only [dat0]
theorem after0_7 (c : Dev nD) (t : Fin cfg0.N) : (dat0 V c).after 7 t = accQ0 V c t.val := by dsimp only [dat0]

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

theorem hz0 : (![0, 0] : Fin 2 → ℕ) = fun _ => 0 := by funext a; fin_cases a <;> rfl

/-- The body at any point: the block of pre-activations is stored whole, and each total ends at this block's update of zero where `P` holds, of what it held otherwise. -/
theorem sound_kernel0 (c : Dev nD) (E : Set ℕ) (i : grid0.Coords) (P : Prop) [Decidable P] (hP : cond0_0 i ↔ P) (arg1 : Memref sig .tc .vmem S8000x3 .f32) (harg1 : arg1.IsWhole) (arg2 : Memref sig .tc .vmem S8000x64 .f32) (harg2 : arg2.IsWhole) (arg3 : Memref sig .tc .vmem S3x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x0 : Vec F S8000x3 .f32) (x1 : Vec F S8000x64 .f32) (x2 : Vec F S3x64 .f32) (x3 : Vec F S64x64 .f32) (x4 : Vec F S1x64 .f32)
    (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (View.canon [⟨rE0, k0_pay4 (View.ld x0 rX0) (View.ld x1 rE0) (View.ld x2 rWa0) (View.ld x3 rWb0) (View.ld x4 rB0)⟩])
            ∗ owns (c : Thread nD τ) arg7 fullShare (k0_pay5 (View.ld x0 rX0) (View.ld x1 rE0) (View.ld x2 rWa0) (View.ld x3 rWb0) (View.ld x4 rB0) (if P then k0_pay2 (F := F) else s))
            ∗ owns (c : Thread nD τ) arg8 fullShare (k0_pay1 (if P then k0_pay3 (F := F) else q) (k0_pay6 (View.ld x0 rX0) (View.ld x1 rE0) (View.ld x2 rWa0) (View.ld x3 rWb0) (View.ld x4 rB0)))
            ∗ owns (c : Thread nD τ) arg9 fullShare (k0_pay5 (View.ld x0 rX0) (View.ld x1 rE0) (View.ld x2 rWa0) (View.ld x3 rWb0) (View.ld x4 rB0) (if P then k0_pay2 (F := F) else s))
            ∗ owns (c : Thread nD τ) arg10 fullShare (k0_pay1 (if P then k0_pay3 (F := F) else q) (k0_pay6 (View.ld x0 rX0) (View.ld x1 rE0) (View.ld x2 rWa0) (View.ld x3 rWb0) (View.ld x4 rB0)))) -∗ K ⟨⟩))
      ⊢ wp frame (wpE (defs₀ (F := F)) Variants.none c none) E (cc0__first_pass_kernel i arg1 harg1 arg2 harg2 arg3 harg3 arg4 harg4 arg5 harg5 arg6 harg6 arg7 harg7 arg8 harg8 arg9 harg9 arg10 harg10) K := by
  by_cases hc : cond0_0 i
  all_goals first | rw [if_pos (hP.mp hc), if_pos (hP.mp hc)] | rw [if_neg (mt hP.mpr hc), if_neg (mt hP.mpr hc)]
  all_goals
    simp only [cc0__first_pass_kernel_eq_skeleton]; unfold cc0__first_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, ⟨%fq, %hfq, HQ⟩, Hk⟩
    subst hf0 hf1 hf2 hf3 hf4 hfs hfq
    sl_exec (disch := exact hc)
    sl_step
    iapply Hk
    isplitl [H0]; · iexists f0; iframe H0; itrivial
    isplitl [H1]; · iexists f1; iframe H1; itrivial
    isplitl [H2]; · iexists f2; iframe H2; itrivial
    isplitl [H3]; · iexists f3; iframe H3; itrivial
    isplitl [H4]; · iexists f4; iframe H4; itrivial
    isplitl [H5]
    · iexists _; isplitr
      swap; · iexact H5
      ipureintro
      refine (View.read_writes_eq_canon _ _ _ (Whole.cover (S := S8000x64) hz0 _ _ [])).trans ?_
      simp only [View.readAt_eq_ld, View.ld_unit_zero (S := S1x64) hz0]
    isplitl [H6]
    · iexists _; isplitr
      swap; · iexact H6
      ipureintro
      sl_unfold_words
      refine (Whole.store (S := S1x64) hz0 _ _ _ _ _).trans ((Whole.reload (S := S1x64) hz0 _ _ _ _).trans ?_)
      try rw [Whole.reload (S := S1x64) hz0]
      simp only [View.readAt_eq_ld, View.ld_unit_zero (S := S1x64) hz0]
    isplitl [H7]
    · iexists _; isplitr
      swap; · iexact H7
      ipureintro
      sl_unfold_words
      refine (Whole.store (S := S1x64) hz0 _ _ _ _ _).trans ((Whole.reload (S := S1x64) hz0 _ _ _ _).trans ?_)
      try rw [Whole.reload (S := S1x64) hz0]
      simp only [View.readAt_eq_ld, View.ld_unit_zero (S := S1x64) hz0]
    isplitl [HS]
    · iexists _; isplitr
      swap; · iexact HS
      ipureintro
      sl_unfold_words
      refine (Whole.store (S := S1x64) hz0 _ _ _ _ _).trans ?_
      try rw [Whole.reload (S := S1x64) hz0]
      simp only [View.readAt_eq_ld, View.ld_unit_zero (S := S1x64) hz0]
    · iexists _; isplitr
      swap; · iexact HQ
      ipureintro
      sl_unfold_words
      refine (Whole.store (S := S1x64) hz0 _ _ _ _ _).trans ?_
      try rw [Whole.reload (S := S1x64) hz0]
      simp only [View.readAt_eq_ld, View.ld_unit_zero (S := S1x64) hz0]

theorem before0 (c : Dev nD) (t : Fin cfg0.N) (w : Fin cfg0.W) (hw : w.val < 5) :
    ∀ d, (dat0 V c).before w t d = (dat0 V c).after w t := by
  fin_cases w <;> first
    | exact absurd hw (by decide)
    | exact fun d => ((dat0 V c).before_in_eq_fetched _ rfl (fun _ => rfl) (fun _ _ _ => rfl) (fun _ => rfl) t d).trans rfl

/-- The body's triple read at the region's data: the invariant before point `t` hands over the totals, the invariant after it takes them back at the fold's next value. -/
theorem body_obligation0 (c : Dev nD) : BodyObligation (dat0 (F := F) V c) (defs₀ (F := F)) Variants.none () Set.univ := fun t => by
  show iprop(_ ∗ _ ∗ bigSep Finset.univ fun w : Fin cfg0.W => iprop(∃ d, owns (c : Thread nD τ) _ fullShare ((dat0 V c).before w t d)))
    ⊢ wp frame _ _ (bodyAt0 t) fun _ => iprop(_ ∗ _ ∗ bigSep Finset.univ fun w : Fin cfg0.W => owns (c : Thread nD τ) _ fullShare ((dat0 V c).after w t))
  rw [bigSep_W0, bigSep_W0, show (dat0 V c).owesAt () t.succ = (dat0 V c).owesAt () t.castSucc from rfl,
    show (dat0 V c).Φ t.succ = Phi0 V c t.succ from rfl, show (dat0 V c).Φ t.castSucc = Phi0 V c t.castSucc from rfl]
  simp only [before0 V c t 0 (by decide), before0 V c t 1 (by decide), before0 V c t 2 (by decide), before0 V c t 3 (by decide), before0 V c t 4 (by decide)]
  dsimp only [dat0]
  unfold Phi0 bodyAt0
  iintro ⟨⟨%s, %q, %h, ⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS := accS0_step V c t s fun hz => (h hz).1
  have hQ := accQ0_step V c t q fun hz => (h hz).2
  rw [hS, hQ]
  unfold preAt0 sumStep0 sqStep0
  iapply (sound_kernel0 c Set.univ (grid0.coords t) (t.val = 0) (hcond0_0 t) _ _ _ _ _ _ _ _ _ _ _ _ _ _ _ _ _ _ _ _ (iblk0 V c 0 t) (iblk0 V c 1 t) (iblk0 V c 2 t) (iblk0 V c 3 t) (iblk0 V c 4 t) s q _)
  iframe H0 H1 H2 H3 H4
  isplitl [H5]; · iexists _; iexact H5
  isplitl [H6]; · iexists _; iexact H6
  isplitl [H7]; · iexists _; iexact H7
  iframe HS HQ
  iintro ⟨H0, H1, H2, H3, H4, H5, H6, H7, HS, HQ⟩
  isplitl [HS HQ HR Hg]
  · iexists _; iexists _; isplitr
    swap; · iframe
    ipureintro; exact fun _ => ⟨hS.symm, hQ.symm⟩
  iframe

/-- Before the first point nothing is asserted of the totals. -/
theorem hin0 (c : Dev nD) : Pipeline.ΦA spec0 c ⊢ (dat0 (F := F) V c).Φ 0 := by
  rw [show (dat0 V c).Φ 0 = Phi0 V c 0 from rfl, PhiA0_eq]; unfold Phi0
  iintro ⟨⟨⟨⟨%s, HS⟩, ⟨%q, HQ⟩⟩, HR⟩, Hg⟩
  iexists s; iexists q; isplitr
  · ipureintro; exact fun h => absurd rfl h
  iframe HS HQ HR Hg

/-- After the last point the totals are forgotten. -/
theorem hout0 (c : Dev nD) : (dat0 (F := F) V c).Φ (Fin.last cfg0.N) ⊢ Pipeline.ΦA spec0 c := by
  rw [show (dat0 V c).Φ (Fin.last cfg0.N) = Phi0 V c (Fin.last cfg0.N) from rfl, PhiA0_eq]; unfold Phi0
  iintro ⟨%s, %q, -, ⟨⟨HS, HQ⟩, HR⟩, Hg⟩
  isplitl [HS HQ HR]
  · isplitl [HS HQ]
    · isplitl [HS]
      · iexists _; iexact HS
      iexists _; iexact HQ
    iexact HR
  iexact Hg

end Cert.Kernel.Rg

end
-- ==== Proof.K.Second1.lean ====
import proofs.«429527_j52415780880560_1_alg».proof.Proof.Gen.Kernel.Launch
import proofs.«429527_j52415780880560_1_alg».proof.Proof.Gen.Kernel.Skeleton
import proofs.«429527_j52415780880560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz1 : (![0, 0] : Fin 2 → Nat) = fun _ => 0 := by decide

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (t : Fin cfg1.N) (w : Fin cfg1.W) (hw : w ≠ 5) :
    ∀ d, (dat1 V c).before w t d = (dat1 V c).after w t := by
  fin_cases w <;> first
    | exact absurd rfl hw
    | exact fun d => ((dat1 V c).before_in_eq_fetched _ rfl (fun _ => rfl) (fun _ _ _ => rfl) (fun _ => rfl) t d).trans rfl

set_option maxHeartbeats 1000000 in
theorem sound_kernel1 (c : Dev nD) (E : Set ℕ) (i : grid1.Coords)
    {arg1 arg6 : Memref sig .tc .vmem S8000x64 .f32} {arg2 arg3 arg5 : Memref sig .tc .vmem S1x64 .f32} {arg4 : Memref sig .tc .vmem S64x64 .f32}
    (harg1 : arg1.IsWhole) (harg2 : arg2.IsWhole) (harg3 : arg3.IsWhole) (harg4 : arg4.IsWhole) (harg5 : arg5.IsWhole) (harg6 : arg6.IsWhole)
    (x0 : Vec F S8000x64 .f32) (x1 x2 : Vec F S1x64 .f32) (x3 : Vec F S64x64 .f32) (x4 : Vec F S1x64 .f32)
    (K : PUnit → sProp 𝕄) :
    iprop(owns c arg1 fullShare x0 ∗ owns c arg2 fullShare x1 ∗ owns c arg3 fullShare x2
        ∗ owns c arg4 fullShare x3 ∗ owns c arg5 fullShare x4
        ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (k1_pay1 x0 x1 x2 x3 x4)) -∗ K ⟨⟩))
      ⊢ wp frame (wpE (defs₀ (F := F)) Variants.none c none) E
          (cc1__second_pass_kernel i arg1 harg1 arg2 harg2 arg3 harg3 arg4 harg4 arg5 harg5 arg6 harg6) K := by
  simp only [cc1__second_pass_kernel_eq_skeleton]; unfold cc1__second_pass_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; itrivial
  isplitl [H1]; · iexists f1; iframe H1; itrivial
  isplitl [H2]; · iexists f2; iframe H2; itrivial
  isplitl [H3]; · iexists f3; iframe H3; itrivial
  isplitl [H4]; · iexists f4; iframe H4; itrivial
  iexists _; iframe H5
  ipureintro
  rw [View.read_writes_eq_canon _ _ _ fun y => ⟨_, List.mem_singleton_self _, View.mem_set_unit_zero hz1 inb_S8000x64_S8000x64_0_0 y⟩, View.canon_unit_zero hz1]
  simp only [View.readAt_eq_ld, View.ld_unit_zero (S := S8000x64) hz1, View.ld_unit_zero (S := S1x64) hz1, View.ld_unit_zero (S := S64x64) hz1]

theorem body_obligation1 (c : Dev nD) : BodyObligation (dat1 (F := F) V c) (defs₀ (F := F)) Variants.none () Set.univ := fun t => by
  show iprop(_ ∗ _ ∗ bigSep Finset.univ fun w : Fin cfg1.W => iprop(∃ d, owns (c : Thread nD τ) _ fullShare ((dat1 V c).before w t d)))
    ⊢ wp frame _ _ (bodyAt1 t) fun _ => iprop(_ ∗ _ ∗ bigSep Finset.univ fun w : Fin cfg1.W => owns (c : Thread nD τ) _ fullShare ((dat1 V c).after w t))
  rw [bigSep_W1, bigSep_W1, show (dat1 V c).owesAt () t.succ = (dat1 V c).owesAt () t.castSucc from rfl]
  simp only [before1 V c t 0 (by decide), before1 V c t 1 (by decide), before1 V c t 2 (by decide), before1 V c t 3 (by decide), before1 V c t 4 (by decide)]
  dsimp only [dat1]
  iintro ⟨HΦ, Ho, ⟨%_, H0⟩, ⟨%_, H1⟩, ⟨%_, H2⟩, ⟨%_, H3⟩, ⟨%_, H4⟩, ⟨%_, H5⟩⟩
  iapply sound_kernel1
  iframe H0 H1 H2 H3 H4
  isplitl [H5]; · iexists _; iexact H5
  iintro ⟨H0, H1, H2, H3, H4, H5⟩
  iframe

end Cert.Kernel.Rg

end
-- ==== Proof.K.First2.lean ====
import proofs.«429527_j52415780880560_1_alg».proof.Proof.Gen.Kernel.Launch
import proofs.«429527_j52415780880560_1_alg».proof.Proof.Gen.Kernel.Skeleton
import proofs.«429527_j52415780880560_1_alg».proof.Proof.Gen.Kernel.Points
import proofs.«429527_j52415780880560_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S10000x3 := Rect.unit (s := S10000x3) ![0, 0] S10000x3.size inb_S10000x3_S10000x3_0_0
abbrev rE2 : Rect S10000x64 := Rect.unit (s := S10000x64) ![0, 0] S10000x64.size inb_S10000x64_S10000x64_0_0
abbrev rWa2 : Rect S3x64 := Rect.unit (s := S3x64) ![0, 0] S3x64.size inb_S3x64_S3x64_0_0
abbrev rWb2 : Rect S64x64 := Rect.unit (s := S64x64) ![0, 0] S64x64.size inb_S64x64_S64x64_0_0
abbrev rB2 : Rect S1x64 := Rect.unit (s := S1x64) ![0, 0] S1x64.size inb_S1x64_S1x64_0_0

def preAt2 (c : Dev nD) (t : Fin cfg2.N) : Vec F S10000x64 .f32 :=
  k2_pay4 (View.ld (iblk2 V c 0 t) rX2) (View.ld (iblk2 V c 1 t) rE2) (View.ld (iblk2 V c 2 t) rWa2) (View.ld (iblk2 V c 3 t) rWb2) (View.ld (iblk2 V c 4 t) rB2)

def sumStep2 (c : Dev nD) (t : Fin cfg2.N) (acc : Vec F S1x64 .f32) : Vec F S1x64 .f32 :=
  k2_pay5 (View.ld (iblk2 V c 0 t) rX2) (View.ld (iblk2 V c 1 t) rE2) (View.ld (iblk2 V c 2 t) rWa2) (View.ld (iblk2 V c 3 t) rWb2) (View.ld (iblk2 V c 4 t) rB2) acc

def sqStep2 (c : Dev nD) (t : Fin cfg2.N) (acc : Vec F S1x64 .f32) : Vec F S1x64 .f32 :=
  k2_pay1 acc (k2_pay6 (View.ld (iblk2 V c 0 t) rX2) (View.ld (iblk2 V c 1 t) rE2) (View.ld (iblk2 V c 2 t) rWa2) (View.ld (iblk2 V c 3 t) rWb2) (View.ld (iblk2 V c 4 t) rB2))

def accS2 (c : Dev nD) : ℕ → Vec F S1x64 .f32
  | 0 => if h : 0 < cfg2.N then sumStep2 V c ⟨0, h⟩ (k2_pay2 (F := F)) else (k2_pay2 (F := F))
  | n + 1 => if h : n + 1 < cfg2.N then sumStep2 V c ⟨n + 1, h⟩ (accS2 c n) else accS2 c n

def accQ2 (c : Dev nD) : ℕ → Vec F S1x64 .f32
  | 0 => if h : 0 < cfg2.N then sqStep2 V c ⟨0, h⟩ (k2_pay3 (F := F)) else (k2_pay3 (F := F))
  | n + 1 => if h : n + 1 < cfg2.N then sqStep2 V c ⟨n + 1, h⟩ (accQ2 c n) else accQ2 c n

abbrev scM2_0 : Memref sig .tc .vmem S1x64 .f32 := Memref.whole cc2_scratch0
abbrev scM2_1 : Memref sig .tc .vmem S1x64 .f32 := Memref.whole cc2_scratch1

abbrev restBut2 (c : Dev nD) : sProp 𝕄 :=
  Pipeline.scopedRestBut (Ix := Unit) (Name := ℕ) (U := UR sig nD τ) (Lvl := ℕ) (Val := Elt F) spec2 c [cc2_scratch0, cc2_scratch1]

/-- Between points the two running totals hold some `s` and `q`; past the first point they are the folds up to the point before. -/
def Phi2 (c : Dev nD) (n : Fin (cfg2.N + 1)) : sProp 𝕄 :=
  iprop(∃ s, ∃ q, ⌜n.val ≠ 0 → s = accS2 V c (n.val - 1) ∧ q = accQ2 V c (n.val - 1)⌝
    ∗ iprop(iprop(iprop(owns (c : Thread nD τ) scM2_0 fullShare s ∗ owns (c : Thread nD τ) scM2_1 fullShare q) ∗ restBut2 (F := F) c) ∗ (∃ r, prngReg c r)))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, restBut2, owns_whole]; try rfl

/-- One step of the fold: the total after point `t` is this block's update of zero at the first point, of the previous total at a later one. -/
theorem accS2_step (c : Dev nD) (t : Fin cfg2.N) (s : Vec F S1x64 .f32) (h : t.val ≠ 0 → s = accS2 V c (t.val - 1)) :
    accS2 V c t.val = sumStep2 V c t (if t.val = 0 then k2_pay2 (F := F) else s) := by
  obtain ⟨n, hn⟩ := t
  cases n with
  | zero => rw [if_pos rfl]; exact dif_pos hn
  | succ n => rw [if_neg (Nat.succ_ne_zero n), h (Nat.succ_ne_zero n)]; exact dif_pos hn

theorem accQ2_step (c : Dev nD) (t : Fin cfg2.N) (q : Vec F S1x64 .f32) (h : t.val ≠ 0 → q = accQ2 V c (t.val - 1)) :
    accQ2 V c t.val = sqStep2 V c t (if t.val = 0 then k2_pay3 (F := F) else q) := by
  obtain ⟨n, hn⟩ := t
  cases n with
  | zero => rw [if_pos rfl]; exact dif_pos hn
  | succ n => rw [if_neg (Nat.succ_ne_zero n), h (Nat.succ_ne_zero n)]; exact dif_pos hn

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => View.canon [⟨rE2, preAt2 V c t⟩]
    | ⟨6, _⟩ => accS2 V c t.val
    | ⟨7, _⟩ => accQ2 V c t.val
  Φ n := Phi2 V c n
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = View.canon [⟨rE2, preAt2 V c t⟩] := by dsimp only [dat2]
theorem after2_6 (c : Dev nD) (t : Fin cfg2.N) : (dat2 V c).after 6 t = accS2 V c t.val := by dsimp only [dat2]
theorem after2_7 (c : Dev nD) (t : Fin cfg2.N) : (dat2 V c).after 7 t = accQ2 V c t.val := by dsimp only [dat2]

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

theorem hz2 : (![0, 0] : Fin 2 → ℕ) = fun _ => 0 := by funext a; fin_cases a <;> rfl

/-- The body at any point: the block of pre-activations is stored whole, and each total ends at this block's update of zero where `P` holds, of what it held otherwise. -/
theorem sound_kernel2 (c : Dev nD) (E : Set ℕ) (i : grid2.Coords) (P : Prop) [Decidable P] (hP : cond2_0 i ↔ P) (arg1 : Memref sig .tc .vmem S10000x3 .f32) (harg1 : arg1.IsWhole) (arg2 : Memref sig .tc .vmem S10000x64 .f32) (harg2 : arg2.IsWhole) (arg3 : Memref sig .tc .vmem S3x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x0 : Vec F S10000x3 .f32) (x1 : Vec F S10000x64 .f32) (x2 : Vec F S3x64 .f32) (x3 : Vec F S64x64 .f32) (x4 : Vec F S1x64 .f32)
    (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (View.canon [⟨rE2, k2_pay4 (View.ld x0 rX2) (View.ld x1 rE2) (View.ld x2 rWa2) (View.ld x3 rWb2) (View.ld x4 rB2)⟩])
            ∗ owns (c : Thread nD τ) arg7 fullShare (k2_pay5 (View.ld x0 rX2) (View.ld x1 rE2) (View.ld x2 rWa2) (View.ld x3 rWb2) (View.ld x4 rB2) (if P then k2_pay2 (F := F) else s))
            ∗ owns (c : Thread nD τ) arg8 fullShare (k2_pay1 (if P then k2_pay3 (F := F) else q) (k2_pay6 (View.ld x0 rX2) (View.ld x1 rE2) (View.ld x2 rWa2) (View.ld x3 rWb2) (View.ld x4 rB2)))
            ∗ owns (c : Thread nD τ) arg9 fullShare (k2_pay5 (View.ld x0 rX2) (View.ld x1 rE2) (View.ld x2 rWa2) (View.ld x3 rWb2) (View.ld x4 rB2) (if P then k2_pay2 (F := F) else s))
            ∗ owns (c : Thread nD τ) arg10 fullShare (k2_pay1 (if P then k2_pay3 (F := F) else q) (k2_pay6 (View.ld x0 rX2) (View.ld x1 rE2) (View.ld x2 rWa2) (View.ld x3 rWb2) (View.ld x4 rB2)))) -∗ K ⟨⟩))
      ⊢ wp frame (wpE (defs₀ (F := F)) Variants.none c none) E (cc2__first_pass_kernel i arg1 harg1 arg2 harg2 arg3 harg3 arg4 harg4 arg5 harg5 arg6 harg6 arg7 harg7 arg8 harg8 arg9 harg9 arg10 harg10) K := by
  by_cases hc : cond2_0 i
  all_goals first | rw [if_pos (hP.mp hc), if_pos (hP.mp hc)] | rw [if_neg (mt hP.mpr hc), if_neg (mt hP.mpr hc)]
  all_goals
    simp only [cc2__first_pass_kernel_eq_skeleton]; unfold cc2__first_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, ⟨%fq, %hfq, HQ⟩, Hk⟩
    subst hf0 hf1 hf2 hf3 hf4 hfs hfq
    sl_exec (disch := exact hc)
    sl_step
    iapply Hk
    isplitl [H0]; · iexists f0; iframe H0; itrivial
    isplitl [H1]; · iexists f1; iframe H1; itrivial
    isplitl [H2]; · iexists f2; iframe H2; itrivial
    isplitl [H3]; · iexists f3; iframe H3; itrivial
    isplitl [H4]; · iexists f4; iframe H4; itrivial
    isplitl [H5]
    · iexists _; isplitr
      swap; · iexact H5
      ipureintro
      refine (View.read_writes_eq_canon _ _ _ (Whole.cover (S := S10000x64) hz2 _ _ [])).trans ?_
      simp only [View.readAt_eq_ld, View.ld_unit_zero (S := S1x64) hz2]
    isplitl [H6]
    · iexists _; isplitr
      swap; · iexact H6
      ipureintro
      sl_unfold_words
      refine (Whole.store (S := S1x64) hz2 _ _ _ _ _).trans ((Whole.reload (S := S1x64) hz2 _ _ _ _).trans ?_)
      try rw [Whole.reload (S := S1x64) hz2]
      simp only [View.readAt_eq_ld, View.ld_unit_zero (S := S1x64) hz2]
    isplitl [H7]
    · iexists _; isplitr
      swap; · iexact H7
      ipureintro
      sl_unfold_words
      refine (Whole.store (S := S1x64) hz2 _ _ _ _ _).trans ((Whole.reload (S := S1x64) hz2 _ _ _ _).trans ?_)
      try rw [Whole.reload (S := S1x64) hz2]
      simp only [View.readAt_eq_ld, View.ld_unit_zero (S := S1x64) hz2]
    isplitl [HS]
    · iexists _; isplitr
      swap; · iexact HS
      ipureintro
      sl_unfold_words
      refine (Whole.store (S := S1x64) hz2 _ _ _ _ _).trans ?_
      try rw [Whole.reload (S := S1x64) hz2]
      simp only [View.readAt_eq_ld, View.ld_unit_zero (S := S1x64) hz2]
    · iexists _; isplitr
      swap; · iexact HQ
      ipureintro
      sl_unfold_words
      refine (Whole.store (S := S1x64) hz2 _ _ _ _ _).trans ?_
      try rw [Whole.reload (S := S1x64) hz2]
      simp only [View.readAt_eq_ld, View.ld_unit_zero (S := S1x64) hz2]

theorem before2 (c : Dev nD) (t : Fin cfg2.N) (w : Fin cfg2.W) (hw : w.val < 5) :
    ∀ d, (dat2 V c).before w t d = (dat2 V c).after w t := by
  fin_cases w <;> first
    | exact absurd hw (by decide)
    | exact fun d => ((dat2 V c).before_in_eq_fetched _ rfl (fun _ => rfl) (fun _ _ _ => rfl) (fun _ => rfl) t d).trans rfl

/-- The body's triple read at the region's data: the invariant before point `t` hands over the totals, the invariant after it takes them back at the fold's next value. -/
theorem body_obligation2 (c : Dev nD) : BodyObligation (dat2 (F := F) V c) (defs₀ (F := F)) Variants.none () Set.univ := fun t => by
  show iprop(_ ∗ _ ∗ bigSep Finset.univ fun w : Fin cfg2.W => iprop(∃ d, owns (c : Thread nD τ) _ fullShare ((dat2 V c).before w t d)))
    ⊢ wp frame _ _ (bodyAt2 t) fun _ => iprop(_ ∗ _ ∗ bigSep Finset.univ fun w : Fin cfg2.W => owns (c : Thread nD τ) _ fullShare ((dat2 V c).after w t))
  rw [bigSep_W2, bigSep_W2, show (dat2 V c).owesAt () t.succ = (dat2 V c).owesAt () t.castSucc from rfl,
    show (dat2 V c).Φ t.succ = Phi2 V c t.succ from rfl, show (dat2 V c).Φ t.castSucc = Phi2 V c t.castSucc from rfl]
  simp only [before2 V c t 0 (by decide), before2 V c t 1 (by decide), before2 V c t 2 (by decide), before2 V c t 3 (by decide), before2 V c t 4 (by decide)]
  dsimp only [dat2]
  unfold Phi2 bodyAt2
  iintro ⟨⟨%s, %q, %h, ⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS := accS2_step V c t s fun hz => (h hz).1
  have hQ := accQ2_step V c t q fun hz => (h hz).2
  rw [hS, hQ]
  unfold preAt2 sumStep2 sqStep2
  iapply (sound_kernel2 c Set.univ (grid2.coords t) (t.val = 0) (hcond2_0 t) _ _ _ _ _ _ _ _ _ _ _ _ _ _ _ _ _ _ _ _ (iblk2 V c 0 t) (iblk2 V c 1 t) (iblk2 V c 2 t) (iblk2 V c 3 t) (iblk2 V c 4 t) s q _)
  iframe H0 H1 H2 H3 H4
  isplitl [H5]; · iexists _; iexact H5
  isplitl [H6]; · iexists _; iexact H6
  isplitl [H7]; · iexists _; iexact H7
  iframe HS HQ
  iintro ⟨H0, H1, H2, H3, H4, H5, H6, H7, HS, HQ⟩
  isplitl [HS HQ HR Hg]
  · iexists _; iexists _; isplitr
    swap; · iframe
    ipureintro; exact fun _ => ⟨hS.symm, hQ.symm⟩
  iframe

/-- Before the first point nothing is asserted of the totals. -/
theorem hin2 (c : Dev nD) : Pipeline.ΦA spec2 c ⊢ (dat2 (F := F) V c).Φ 0 := by
  rw [show (dat2 V c).Φ 0 = Phi2 V c 0 from rfl, PhiA2_eq]; unfold Phi2
  iintro ⟨⟨⟨⟨%s, HS⟩, ⟨%q, HQ⟩⟩, HR⟩, Hg⟩
  iexists s; iexists q; isplitr
  · ipureintro; exact fun h => absurd rfl h
  iframe HS HQ HR Hg

/-- After the last point the totals are forgotten. -/
theorem hout2 (c : Dev nD) : (dat2 (F := F) V c).Φ (Fin.last cfg2.N) ⊢ Pipeline.ΦA spec2 c := by
  rw [show (dat2 V c).Φ (Fin.last cfg2.N) = Phi2 V c (Fin.last cfg2.N) from rfl, PhiA2_eq]; unfold Phi2
  iintro ⟨%s, %q, -, ⟨⟨HS, HQ⟩, HR⟩, Hg⟩
  isplitl [HS HQ HR]
  · isplitl [HS HQ]
    · isplitl [HS]
      · iexists _; iexact HS
      iexists _; iexact HQ
    iexact HR
  iexact Hg

end Cert.Kernel.Rg

end
-- ==== Proof.K.Second3.lean ====
import proofs.«429527_j52415780880560_1_alg».proof.Proof.Gen.Kernel.Launch
import proofs.«429527_j52415780880560_1_alg».proof.Proof.Gen.Kernel.Skeleton
import proofs.«429527_j52415780880560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz3 : (![0, 0] : Fin 2 → Nat) = fun _ => 0 := by decide

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) (w : Fin cfg3.W) (hw : w ≠ 5) :
    ∀ d, (dat3 V c).before w t d = (dat3 V c).after w t := by
  fin_cases w <;> first
    | exact absurd rfl hw
    | exact fun d => ((dat3 V c).before_in_eq_fetched _ rfl (fun _ => rfl) (fun _ _ _ => rfl) (fun _ => rfl) t d).trans rfl

set_option maxHeartbeats 1000000 in
theorem sound_kernel3 (c : Dev nD) (E : Set ℕ) (i : grid3.Coords)
    {arg1 arg6 : Memref sig .tc .vmem S10000x64 .f32} {arg2 arg3 arg5 : Memref sig .tc .vmem S1x64 .f32} {arg4 : Memref sig .tc .vmem S64x64 .f32}
    (harg1 : arg1.IsWhole) (harg2 : arg2.IsWhole) (harg3 : arg3.IsWhole) (harg4 : arg4.IsWhole) (harg5 : arg5.IsWhole) (harg6 : arg6.IsWhole)
    (x0 : Vec F S10000x64 .f32) (x1 x2 : Vec F S1x64 .f32) (x3 : Vec F S64x64 .f32) (x4 : Vec F S1x64 .f32)
    (K : PUnit → sProp 𝕄) :
    iprop(owns c arg1 fullShare x0 ∗ owns c arg2 fullShare x1 ∗ owns c arg3 fullShare x2
        ∗ owns c arg4 fullShare x3 ∗ owns c arg5 fullShare x4
        ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (k3_pay1 x0 x1 x2 x3 x4)) -∗ K ⟨⟩))
      ⊢ wp frame (wpE (defs₀ (F := F)) Variants.none c none) E
          (cc3__second_pass_kernel i arg1 harg1 arg2 harg2 arg3 harg3 arg4 harg4 arg5 harg5 arg6 harg6) K := by
  simp only [cc3__second_pass_kernel_eq_skeleton]; unfold cc3__second_pass_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; itrivial
  isplitl [H1]; · iexists f1; iframe H1; itrivial
  isplitl [H2]; · iexists f2; iframe H2; itrivial
  isplitl [H3]; · iexists f3; iframe H3; itrivial
  isplitl [H4]; · iexists f4; iframe H4; itrivial
  iexists _; iframe H5
  ipureintro
  rw [View.read_writes_eq_canon _ _ _ fun y => ⟨_, List.mem_singleton_self _, View.mem_set_unit_zero hz3 inb_S10000x64_S10000x64_0_0 y⟩, View.canon_unit_zero hz3]
  simp only [View.readAt_eq_ld, View.ld_unit_zero (S := S10000x64) hz3, View.ld_unit_zero (S := S1x64) hz3, View.ld_unit_zero (S := S64x64) hz3]

theorem body_obligation3 (c : Dev nD) : BodyObligation (dat3 (F := F) V c) (defs₀ (F := F)) Variants.none () Set.univ := fun t => by
  show iprop(_ ∗ _ ∗ bigSep Finset.univ fun w : Fin cfg3.W => iprop(∃ d, owns (c : Thread nD τ) _ fullShare ((dat3 V c).before w t d)))
    ⊢ wp frame _ _ (bodyAt3 t) fun _ => iprop(_ ∗ _ ∗ bigSep Finset.univ fun w : Fin cfg3.W => owns (c : Thread nD τ) _ fullShare ((dat3 V c).after w t))
  rw [bigSep_W3, bigSep_W3, show (dat3 V c).owesAt () t.succ = (dat3 V c).owesAt () t.castSucc from rfl]
  simp only [before3 V c t 0 (by decide), before3 V c t 1 (by decide), before3 V c t 2 (by decide), before3 V c t 3 (by decide), before3 V c t 4 (by decide)]
  dsimp only [dat3]
  iintro ⟨HΦ, Ho, ⟨%_, H0⟩, ⟨%_, H1⟩, ⟨%_, H2⟩, ⟨%_, H3⟩, ⟨%_, H4⟩, ⟨%_, H5⟩⟩
  iapply sound_kernel3
  iframe H0 H1 H2 H3 H4
  isplitl [H5]; · iexists _; iexact H5
  iintro ⟨H0, H1, H2, H3, H4, H5⟩
  iframe

end Cert.Kernel.Rg

end
-- ==== Proof.K.Run.lean ====
import proofs.«429527_j52415780880560_1_alg».proof.Proof.K.First0
import proofs.«429527_j52415780880560_1_alg».proof.Proof.K.Second1
import proofs.«429527_j52415780880560_1_alg».proof.Proof.K.First2
import proofs.«429527_j52415780880560_1_alg».proof.Proof.K.Second3
import proofs.«429527_j52415780880560_1_alg».proof.Proof.Gen.Kernel.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev W5 : Dev nD → Valuation τ sig (Elt F) := fun c => StableHlo.after hostOps1 (W4 m c)
abbrev E1 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev W7 : Dev nD → Valuation τ sig (Elt F) := fun c => StableHlo.after hostOps2 (W6 m c)
abbrev E2 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
abbrev W9 : Dev nD → Valuation τ sig (Elt F) := fun c => StableHlo.after hostOps3 (W8 m c)
abbrev E3 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

namespace Run

theorem W4_keep (c : Dev nD) (b : Ref sig .tc) (h : ∀ w, Pipeline.arrRef spec0 w = b → (cfg0.win w).isOut = false) :
    W4 m c (Proc.devRef .tc b) = W3 m c (Proc.devRef .tc b) := by
  by_cases hb : ∃ w, Pipeline.arrRef spec0 w = b
  · obtain ⟨w, rfl⟩ := hb
    exact (W4_arr m c w).trans (((dat0 (E0 m) c).arrAt_in w (h w rfl) _).trans (A_eq0 (E0 m) c w))
  · exact W4_of_ne m c b fun w e => hb ⟨w, e⟩
theorem W6_keep (c : Dev nD) (b : Ref sig .tc) (h : ∀ w, Pipeline.arrRef spec1 w = b → (cfg1.win w).isOut = false) :
    W6 m c (Proc.devRef .tc b) = W5 m c (Proc.devRef .tc b) := by
  by_cases hb : ∃ w, Pipeline.arrRef spec1 w = b
  · obtain ⟨w, rfl⟩ := hb
    exact (W6_arr m c w).trans (((dat1 (E1 m) c).arrAt_in w (h w rfl) _).trans (A_eq1 (E1 m) c w))
  · exact W6_of_ne m c b fun w e => hb ⟨w, e⟩
theorem W8_keep (c : Dev nD) (b : Ref sig .tc) (h : ∀ w, Pipeline.arrRef spec2 w = b → (cfg2.win w).isOut = false) :
    W8 m c (Proc.devRef .tc b) = W7 m c (Proc.devRef .tc b) := by
  by_cases hb : ∃ w, Pipeline.arrRef spec2 w = b
  · obtain ⟨w, rfl⟩ := hb
    exact (W8_arr m c w).trans (((dat2 (E2 m) c).arrAt_in w (h w rfl) _).trans (A_eq2 (E2 m) c w))
  · exact W8_of_ne m c b fun w e => hb ⟨w, e⟩
theorem W10_keep (c : Dev nD) (b : Ref sig .tc) (h : ∀ w, Pipeline.arrRef spec3 w = b → (cfg3.win w).isOut = false) :
    W10 m c (Proc.devRef .tc b) = W9 m c (Proc.devRef .tc b) := by
  by_cases hb : ∃ w, Pipeline.arrRef spec3 w = b
  · obtain ⟨w, rfl⟩ := hb
    exact (W10_arr m c w).trans (((dat3 (E3 m) c).arrAt_in w (h w rfl) _).trans (A_eq3 (E3 m) c w))
  · exact W10_of_ne m c b fun w e => hb ⟨w, e⟩

def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

set_option backward.isDefEq.respectTransparency.types false in
/-- Region `p` as a segment from every unscoped buffer at `V` to every unscoped buffer at `V'`: its arrays are split out of
    the unscoped buffers at entry and put back at exit, the generator register passes through the invariant, nothing is owed. -/
def region (p : Fin 4) (launch : Pipeline.LaunchFacts (nD := nD) (τ := τ) cfgs p) (V V' : Dev nD → Valuation τ sig (Elt F))
    (hbody : ∀ c, Pipeline.BodyObligationLoose (pdats m p c) defs₀ 𝒱₀ () Set.univ)
    (hfirst : ∀ c, (Pipeline.ΦA (cfgs p).spec c : sProp 𝕄) ⊢ (pdats m p c).Φ 0)
    (hlast : ∀ c, (pdats m p c).Φ (Fin.last _) ⊢ (Pipeline.ΦA (cfgs p).spec c : sProp 𝕄))
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hq : ∀ c w, (pdats m p c).q w = fullShare := by exact fun _ _ => rfl) (howed : ∀ c t, (pdats m p c).owed t = 0 := by exact fun _ _ => rfl)
    (hrec : ∀ c x, x ∈ (pdats m p c).recorded 0 := by exact fun _ _ => trivial)
    (hA : ∀ c w, (pdats m p c).A w = V c (Pipeline.arrRef (cfgs p).spec w) := by exact fun _ _ => rfl) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) launch.win launch.arr_whole c
      ((pdats m p c).share_full (hq c)) (fun b => V c b) (hA c)
    rw [Pipeline.unscopedBufs_held] at hsplit
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine (show _ ⊢ Pipeline.ΦA (cfgs p).spec c from ?_).trans (hfirst c)
    unfold Pipeline.ΦA
    iintro ⟨Hp, -, Hr⟩
    isplitl [Hr]; · iexact Hr
    iexact Hp
  hout c := by
    rw [Pipeline.ownSems0_none]
    refine (hlast c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => V c b) (fun b : Ref sig .tc => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (region m 0 launch0 (W3 m) (W4 m) (fun c => (body_obligation0 (E0 m) c).loose)
      (hin0 (E0 m)) (hout0 (E0 m)) (W4_arr m) (W4_of_ne m)),
    .host (hseg hostOps1 hostOps1_sub hostOps1_fresh (W4 m)),
    .region (region m 1 launch1 (W5 m) (W6 m) (fun c => (body_obligation1 (E1 m) c).loose)
      (fun _ => .rfl) (fun _ => .rfl) (W6_arr m) (W6_of_ne m)),
    .host (hseg hostOps2 hostOps2_sub hostOps2_fresh (W6 m)),
    .region (region m 2 launch2 (W7 m) (W8 m) (fun c => (body_obligation2 (E2 m) c).loose)
      (hin2 (E2 m)) (hout2 (E2 m)) (W8_arr m) (W8_of_ne m)),
    .host (hseg hostOps3 hostOps3_sub hostOps3_fresh (W8 m)),
    .region (region m 3 launch3 (W9 m) (W10 m) (fun c => (body_obligation3 (E3 m) c).loose)
      (fun _ => .rfl) (fun _ => .rfl) (W10_arr m) (W10_of_ne m)) ]
theorem main_run (c : Dev nD) : main (F := F) c = Pipeline.Seg.run (segs m) := (main_chain c).trans (by chain_rfl)

/-- A buffer that no host stretch writes and that is no region's output array holds at the return what it held at launch. -/
theorem kept (c : Dev nD) (s : MemSt nD τ sig (Elt F))
    (h : ∀ b ∈ Pipeline.ucRefs τ sig, s.mem (((c : Thread nD τ)).1, b) = W10 m c b) (b : Ref sig .tc)
    (hb : ¬ (Proc.devRef .tc b : DevRef τ sig).isScoped
      ∧ (∀ w, Pipeline.arrRef spec0 w = b → (cfg0.win w).isOut = false) ∧ (∀ w, Pipeline.arrRef spec1 w = b → (cfg1.win w).isOut = false)
      ∧ (∀ w, Pipeline.arrRef spec2 w = b → (cfg2.win w).isOut = false) ∧ (∀ w, Pipeline.arrRef spec3 w = b → (cfg3.win w).isOut = false)
      ∧ b ∉ hostOps0_W ∧ b ∉ hostOps0_1_W ∧ b ∉ hostOps0_2_W ∧ b ∉ hostOps1_W ∧ b ∉ hostOps2_W ∧ b ∉ hostOps3_W) :
    s.mem ((c.tc : Thread nD τ).loc b) = m ((c.tc : Thread nD τ).loc b) := by
  obtain ⟨hs, h0, h1, h2, h3, g0, g01, g02, g1, g2, g3⟩ := hb
  exact (h _ (mem_uc b hs)).trans <|
    (W10_keep m c b h3).trans <| (StableHlo.after_of_writes_sub hostOps3 _ hostOps3_writes g3).trans <|
    (W8_keep m c b h2).trans <| (StableHlo.after_of_writes_sub hostOps2 _ hostOps2_writes g2).trans <|
    (W6_keep m c b h1).trans <| (StableHlo.after_of_writes_sub hostOps1 _ hostOps1_writes g1).trans <|
    (W4_keep m c b h0).trans <| (StableHlo.after_of_writes_sub hostOps0_2 _ hostOps0_2_writes g02).trans <|
    (StableHlo.after_of_writes_sub hostOps0_1 _ hostOps0_1_writes g01).trans <|
    (StableHlo.after_of_writes_sub hostOps0 _ hostOps0_writes g0).trans rfl

end Run

open Run in
set_option backward.isDefEq.respectTransparency.types false in
theorem value_run : θ_run defs (onTc (τ := τ) (main (F := F))) ⟨m, fun _ => 0, ρ⟩ (fun r => ∀ c : Dev nD,
      r.2.mem ((c.tc : Thread nD τ).loc main_v60) = (dat3 (E3 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      have k := kept m c s (h c)
      ⟨(h c _ (mem_uc main_v60 (by decide))).trans (W10_arr m c 5),
        k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩)

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c => (h c).2) (value_run m ρ)

end Cert.Kernel.Rg

end
-- ==== Proof.KI.First0.lean ====
import proofs.«429527_j52415780880560_1_alg».proof.Proof.Gen.KernelIdeal.Launch
import proofs.«429527_j52415780880560_1_alg».proof.Proof.Gen.KernelIdeal.Skeleton
import proofs.«429527_j52415780880560_1_alg».proof.Proof.Gen.KernelIdeal.Points
import proofs.«429527_j52415780880560_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S8000x3 := Rect.unit (s := S8000x3) ![0, 0] S8000x3.size inb_S8000x3_S8000x3_0_0
abbrev rE0 : Rect S8000x64 := Rect.unit (s := S8000x64) ![0, 0] S8000x64.size inb_S8000x64_S8000x64_0_0
abbrev rWa0 : Rect S3x64 := Rect.unit (s := S3x64) ![0, 0] S3x64.size inb_S3x64_S3x64_0_0
abbrev rWb0 : Rect S64x64 := Rect.unit (s := S64x64) ![0, 0] S64x64.size inb_S64x64_S64x64_0_0
abbrev rB0 : Rect S1x64 := Rect.unit (s := S1x64) ![0, 0] S1x64.size inb_S1x64_S1x64_0_0

def preAt0 (c : Dev nD) (t : Fin cfg0.N) : Vec F S8000x64 .f32 :=
  k0_pay4 (View.ld (iblk0 V c 0 t) rX0) (View.ld (iblk0 V c 1 t) rE0) (View.ld (iblk0 V c 2 t) rWa0) (View.ld (iblk0 V c 3 t) rWb0) (View.ld (iblk0 V c 4 t) rB0)

def sumStep0 (c : Dev nD) (t : Fin cfg0.N) (acc : Vec F S1x64 .f32) : Vec F S1x64 .f32 :=
  k0_pay5 (View.ld (iblk0 V c 0 t) rX0) (View.ld (iblk0 V c 1 t) rE0) (View.ld (iblk0 V c 2 t) rWa0) (View.ld (iblk0 V c 3 t) rWb0) (View.ld (iblk0 V c 4 t) rB0) acc

def sqStep0 (c : Dev nD) (t : Fin cfg0.N) (acc : Vec F S1x64 .f32) : Vec F S1x64 .f32 :=
  k0_pay1 acc (k0_pay6 (View.ld (iblk0 V c 0 t) rX0) (View.ld (iblk0 V c 1 t) rE0) (View.ld (iblk0 V c 2 t) rWa0) (View.ld (iblk0 V c 3 t) rWb0) (View.ld (iblk0 V c 4 t) rB0))

def accS0 (c : Dev nD) : ℕ → Vec F S1x64 .f32
  | 0 => if h : 0 < cfg0.N then sumStep0 V c ⟨0, h⟩ (k0_pay2 (F := F)) else (k0_pay2 (F := F))
  | n + 1 => if h : n + 1 < cfg0.N then sumStep0 V c ⟨n + 1, h⟩ (accS0 c n) else accS0 c n

def accQ0 (c : Dev nD) : ℕ → Vec F S1x64 .f32
  | 0 => if h : 0 < cfg0.N then sqStep0 V c ⟨0, h⟩ (k0_pay3 (F := F)) else (k0_pay3 (F := F))
  | n + 1 => if h : n + 1 < cfg0.N then sqStep0 V c ⟨n + 1, h⟩ (accQ0 c n) else accQ0 c n

abbrev scM0_0 : Memref sig .tc .vmem S1x64 .f32 := Memref.whole cc0_scratch0
abbrev scM0_1 : Memref sig .tc .vmem S1x64 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

/-- Between points the two running totals hold some `s` and `q`; past the first point they are the folds up to the point before. -/
def Phi0 (c : Dev nD) (n : Fin (cfg0.N + 1)) : sProp 𝕄 :=
  iprop(∃ s, ∃ q, ⌜n.val ≠ 0 → s = accS0 V c (n.val - 1) ∧ q = accQ0 V c (n.val - 1)⌝
    ∗ iprop(iprop(iprop(owns (c : Thread nD τ) scM0_0 fullShare s ∗ owns (c : Thread nD τ) scM0_1 fullShare q) ∗ restBut0 (F := F) c) ∗ (∃ r, prngReg c r)))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 (F := F) c) ∗ (∃ r, prngReg c r)) := by
  unfold Pipeline.ΦA; rw [scopedRest0_split]; simp only [scM0_0, scM0_1, restBut0, owns_whole]; try rfl

/-- One step of the fold: the total after point `t` is this block's update of zero at the first point, of the previous total at a later one. -/
theorem accS0_step (c : Dev nD) (t : Fin cfg0.N) (s : Vec F S1x64 .f32) (h : t.val ≠ 0 → s = accS0 V c (t.val - 1)) :
    accS0 V c t.val = sumStep0 V c t (if t.val = 0 then k0_pay2 (F := F) else s) := by
  obtain ⟨n, hn⟩ := t
  cases n with
  | zero => rw [if_pos rfl]; exact dif_pos hn
  | succ n => rw [if_neg (Nat.succ_ne_zero n), h (Nat.succ_ne_zero n)]; exact dif_pos hn

theorem accQ0_step (c : Dev nD) (t : Fin cfg0.N) (q : Vec F S1x64 .f32) (h : t.val ≠ 0 → q = accQ0 V c (t.val - 1)) :
    accQ0 V c t.val = sqStep0 V c t (if t.val = 0 then k0_pay3 (F := F) else q) := by
  obtain ⟨n, hn⟩ := t
  cases n with
  | zero => rw [if_pos rfl]; exact dif_pos hn
  | succ n => rw [if_neg (Nat.succ_ne_zero n), h (Nat.succ_ne_zero n)]; exact dif_pos hn

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => View.canon [⟨rE0, preAt0 V c t⟩]
    | ⟨6, _⟩ => accS0 V c t.val
    | ⟨7, _⟩ => accQ0 V c t.val
  Φ n := Phi0 V c n
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = View.canon [⟨rE0, preAt0 V c t⟩] := by dsimp only [dat0]
theorem after0_6 (c : Dev nD) (t : Fin cfg0.N) : (dat0 V c).after 6 t = accS0 V c t.val := by dsimp only [dat0]
theorem after0_7 (c : Dev nD) (t : Fin cfg0.N) : (dat0 V c).after 7 t = accQ0 V c t.val := by dsimp only [dat0]

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

theorem hz0 : (![0, 0] : Fin 2 → ℕ) = fun _ => 0 := by funext a; fin_cases a <;> rfl

/-- The body at any point: the block of pre-activations is stored whole, and each total ends at this block's update of zero where `P` holds, of what it held otherwise. -/
theorem sound_kernel0 (c : Dev nD) (E : Set ℕ) (i : grid0.Coords) (P : Prop) [Decidable P] (hP : cond0_0 i ↔ P) (arg1 : Memref sig .tc .vmem S8000x3 .f32) (harg1 : arg1.IsWhole) (arg2 : Memref sig .tc .vmem S8000x64 .f32) (harg2 : arg2.IsWhole) (arg3 : Memref sig .tc .vmem S3x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x0 : Vec F S8000x3 .f32) (x1 : Vec F S8000x64 .f32) (x2 : Vec F S3x64 .f32) (x3 : Vec F S64x64 .f32) (x4 : Vec F S1x64 .f32)
    (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (View.canon [⟨rE0, k0_pay4 (View.ld x0 rX0) (View.ld x1 rE0) (View.ld x2 rWa0) (View.ld x3 rWb0) (View.ld x4 rB0)⟩])
            ∗ owns (c : Thread nD τ) arg7 fullShare (k0_pay5 (View.ld x0 rX0) (View.ld x1 rE0) (View.ld x2 rWa0) (View.ld x3 rWb0) (View.ld x4 rB0) (if P then k0_pay2 (F := F) else s))
            ∗ owns (c : Thread nD τ) arg8 fullShare (k0_pay1 (if P then k0_pay3 (F := F) else q) (k0_pay6 (View.ld x0 rX0) (View.ld x1 rE0) (View.ld x2 rWa0) (View.ld x3 rWb0) (View.ld x4 rB0)))
            ∗ owns (c : Thread nD τ) arg9 fullShare (k0_pay5 (View.ld x0 rX0) (View.ld x1 rE0) (View.ld x2 rWa0) (View.ld x3 rWb0) (View.ld x4 rB0) (if P then k0_pay2 (F := F) else s))
            ∗ owns (c : Thread nD τ) arg10 fullShare (k0_pay1 (if P then k0_pay3 (F := F) else q) (k0_pay6 (View.ld x0 rX0) (View.ld x1 rE0) (View.ld x2 rWa0) (View.ld x3 rWb0) (View.ld x4 rB0)))) -∗ K ⟨⟩))
      ⊢ wp frame (wpE (defs₀ (F := F)) Variants.none c none) E (cc0__first_pass_kernel i arg1 harg1 arg2 harg2 arg3 harg3 arg4 harg4 arg5 harg5 arg6 harg6 arg7 harg7 arg8 harg8 arg9 harg9 arg10 harg10) K := by
  by_cases hc : cond0_0 i
  all_goals first | rw [if_pos (hP.mp hc), if_pos (hP.mp hc)] | rw [if_neg (mt hP.mpr hc), if_neg (mt hP.mpr hc)]
  all_goals
    simp only [cc0__first_pass_kernel_eq_skeleton]; unfold cc0__first_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, ⟨%fq, %hfq, HQ⟩, Hk⟩
    subst hf0 hf1 hf2 hf3 hf4 hfs hfq
    sl_exec (disch := exact hc)
    sl_step
    iapply Hk
    isplitl [H0]; · iexists f0; iframe H0; itrivial
    isplitl [H1]; · iexists f1; iframe H1; itrivial
    isplitl [H2]; · iexists f2; iframe H2; itrivial
    isplitl [H3]; · iexists f3; iframe H3; itrivial
    isplitl [H4]; · iexists f4; iframe H4; itrivial
    isplitl [H5]
    · iexists _; isplitr
      swap; · iexact H5
      ipureintro
      refine (View.read_writes_eq_canon _ _ _ (Whole.cover (S := S8000x64) hz0 _ _ [])).trans ?_
      simp only [View.readAt_eq_ld, View.ld_unit_zero (S := S1x64) hz0]
    isplitl [H6]
    · iexists _; isplitr
      swap; · iexact H6
      ipureintro
      sl_unfold_words
      refine (Whole.store (S := S1x64) hz0 _ _ _ _ _).trans ((Whole.reload (S := S1x64) hz0 _ _ _ _).trans ?_)
      try rw [Whole.reload (S := S1x64) hz0]
      simp only [View.readAt_eq_ld, View.ld_unit_zero (S := S1x64) hz0]
    isplitl [H7]
    · iexists _; isplitr
      swap; · iexact H7
      ipureintro
      sl_unfold_words
      refine (Whole.store (S := S1x64) hz0 _ _ _ _ _).trans ((Whole.reload (S := S1x64) hz0 _ _ _ _).trans ?_)
      try rw [Whole.reload (S := S1x64) hz0]
      simp only [View.readAt_eq_ld, View.ld_unit_zero (S := S1x64) hz0]
    isplitl [HS]
    · iexists _; isplitr
      swap; · iexact HS
      ipureintro
      sl_unfold_words
      refine (Whole.store (S := S1x64) hz0 _ _ _ _ _).trans ?_
      try rw [Whole.reload (S := S1x64) hz0]
      simp only [View.readAt_eq_ld, View.ld_unit_zero (S := S1x64) hz0]
    · iexists _; isplitr
      swap; · iexact HQ
      ipureintro
      sl_unfold_words
      refine (Whole.store (S := S1x64) hz0 _ _ _ _ _).trans ?_
      try rw [Whole.reload (S := S1x64) hz0]
      simp only [View.readAt_eq_ld, View.ld_unit_zero (S := S1x64) hz0]

theorem before0 (c : Dev nD) (t : Fin cfg0.N) (w : Fin cfg0.W) (hw : w.val < 5) :
    ∀ d, (dat0 V c).before w t d = (dat0 V c).after w t := by
  fin_cases w <;> first
    | exact absurd hw (by decide)
    | exact fun d => ((dat0 V c).before_in_eq_fetched _ rfl (fun _ => rfl) (fun _ _ _ => rfl) (fun _ => rfl) t d).trans rfl

/-- The body's triple read at the region's data: the invariant before point `t` hands over the totals, the invariant after it takes them back at the fold's next value. -/
theorem body_obligation0 (c : Dev nD) : BodyObligation (dat0 (F := F) V c) (defs₀ (F := F)) Variants.none () Set.univ := fun t => by
  show iprop(_ ∗ _ ∗ bigSep Finset.univ fun w : Fin cfg0.W => iprop(∃ d, owns (c : Thread nD τ) _ fullShare ((dat0 V c).before w t d)))
    ⊢ wp frame _ _ (bodyAt0 t) fun _ => iprop(_ ∗ _ ∗ bigSep Finset.univ fun w : Fin cfg0.W => owns (c : Thread nD τ) _ fullShare ((dat0 V c).after w t))
  rw [bigSep_W0, bigSep_W0, show (dat0 V c).owesAt () t.succ = (dat0 V c).owesAt () t.castSucc from rfl,
    show (dat0 V c).Φ t.succ = Phi0 V c t.succ from rfl, show (dat0 V c).Φ t.castSucc = Phi0 V c t.castSucc from rfl]
  simp only [before0 V c t 0 (by decide), before0 V c t 1 (by decide), before0 V c t 2 (by decide), before0 V c t 3 (by decide), before0 V c t 4 (by decide)]
  dsimp only [dat0]
  unfold Phi0 bodyAt0
  iintro ⟨⟨%s, %q, %h, ⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS := accS0_step V c t s fun hz => (h hz).1
  have hQ := accQ0_step V c t q fun hz => (h hz).2
  rw [hS, hQ]
  unfold preAt0 sumStep0 sqStep0
  iapply (sound_kernel0 c Set.univ (grid0.coords t) (t.val = 0) (hcond0_0 t) _ _ _ _ _ _ _ _ _ _ _ _ _ _ _ _ _ _ _ _ (iblk0 V c 0 t) (iblk0 V c 1 t) (iblk0 V c 2 t) (iblk0 V c 3 t) (iblk0 V c 4 t) s q _)
  iframe H0 H1 H2 H3 H4
  isplitl [H5]; · iexists _; iexact H5
  isplitl [H6]; · iexists _; iexact H6
  isplitl [H7]; · iexists _; iexact H7
  iframe HS HQ
  iintro ⟨H0, H1, H2, H3, H4, H5, H6, H7, HS, HQ⟩
  isplitl [HS HQ HR Hg]
  · iexists _; iexists _; isplitr
    swap; · iframe
    ipureintro; exact fun _ => ⟨hS.symm, hQ.symm⟩
  iframe

/-- Before the first point nothing is asserted of the totals. -/
theorem hin0 (c : Dev nD) : Pipeline.ΦA spec0 c ⊢ (dat0 (F := F) V c).Φ 0 := by
  rw [show (dat0 V c).Φ 0 = Phi0 V c 0 from rfl, PhiA0_eq]; unfold Phi0
  iintro ⟨⟨⟨⟨%s, HS⟩, ⟨%q, HQ⟩⟩, HR⟩, Hg⟩
  iexists s; iexists q; isplitr
  · ipureintro; exact fun h => absurd rfl h
  iframe HS HQ HR Hg

/-- After the last point the totals are forgotten. -/
theorem hout0 (c : Dev nD) : (dat0 (F := F) V c).Φ (Fin.last cfg0.N) ⊢ Pipeline.ΦA spec0 c := by
  rw [show (dat0 V c).Φ (Fin.last cfg0.N) = Phi0 V c (Fin.last cfg0.N) from rfl, PhiA0_eq]; unfold Phi0
  iintro ⟨%s, %q, -, ⟨⟨HS, HQ⟩, HR⟩, Hg⟩
  isplitl [HS HQ HR]
  · isplitl [HS HQ]
    · isplitl [HS]
      · iexists _; iexact HS
      iexists _; iexact HQ
    iexact HR
  iexact Hg

end Cert.KernelIdeal.Rg

end
-- ==== Proof.KI.Second1.lean ====
import proofs.«429527_j52415780880560_1_alg».proof.Proof.Gen.KernelIdeal.Launch
import proofs.«429527_j52415780880560_1_alg».proof.Proof.Gen.KernelIdeal.Skeleton
import proofs.«429527_j52415780880560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz1 : (![0, 0] : Fin 2 → Nat) = fun _ => 0 := by decide

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (t : Fin cfg1.N) (w : Fin cfg1.W) (hw : w ≠ 5) :
    ∀ d, (dat1 V c).before w t d = (dat1 V c).after w t := by
  fin_cases w <;> first
    | exact absurd rfl hw
    | exact fun d => ((dat1 V c).before_in_eq_fetched _ rfl (fun _ => rfl) (fun _ _ _ => rfl) (fun _ => rfl) t d).trans rfl

set_option maxHeartbeats 1000000 in
theorem sound_kernel1 (c : Dev nD) (E : Set ℕ) (i : grid1.Coords)
    {arg1 arg6 : Memref sig .tc .vmem S8000x64 .f32} {arg2 arg3 arg5 : Memref sig .tc .vmem S1x64 .f32} {arg4 : Memref sig .tc .vmem S64x64 .f32}
    (harg1 : arg1.IsWhole) (harg2 : arg2.IsWhole) (harg3 : arg3.IsWhole) (harg4 : arg4.IsWhole) (harg5 : arg5.IsWhole) (harg6 : arg6.IsWhole)
    (x0 : Vec F S8000x64 .f32) (x1 x2 : Vec F S1x64 .f32) (x3 : Vec F S64x64 .f32) (x4 : Vec F S1x64 .f32)
    (K : PUnit → sProp 𝕄) :
    iprop(owns c arg1 fullShare x0 ∗ owns c arg2 fullShare x1 ∗ owns c arg3 fullShare x2
        ∗ owns c arg4 fullShare x3 ∗ owns c arg5 fullShare x4
        ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (k1_pay1 x0 x1 x2 x3 x4)) -∗ K ⟨⟩))
      ⊢ wp frame (wpE (defs₀ (F := F)) Variants.none c none) E
          (cc1__second_pass_kernel i arg1 harg1 arg2 harg2 arg3 harg3 arg4 harg4 arg5 harg5 arg6 harg6) K := by
  simp only [cc1__second_pass_kernel_eq_skeleton]; unfold cc1__second_pass_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; itrivial
  isplitl [H1]; · iexists f1; iframe H1; itrivial
  isplitl [H2]; · iexists f2; iframe H2; itrivial
  isplitl [H3]; · iexists f3; iframe H3; itrivial
  isplitl [H4]; · iexists f4; iframe H4; itrivial
  iexists _; iframe H5
  ipureintro
  rw [View.read_writes_eq_canon _ _ _ fun y => ⟨_, List.mem_singleton_self _, View.mem_set_unit_zero hz1 inb_S8000x64_S8000x64_0_0 y⟩, View.canon_unit_zero hz1]
  simp only [View.readAt_eq_ld, View.ld_unit_zero (S := S8000x64) hz1, View.ld_unit_zero (S := S1x64) hz1, View.ld_unit_zero (S := S64x64) hz1]

theorem body_obligation1 (c : Dev nD) : BodyObligation (dat1 (F := F) V c) (defs₀ (F := F)) Variants.none () Set.univ := fun t => by
  show iprop(_ ∗ _ ∗ bigSep Finset.univ fun w : Fin cfg1.W => iprop(∃ d, owns (c : Thread nD τ) _ fullShare ((dat1 V c).before w t d)))
    ⊢ wp frame _ _ (bodyAt1 t) fun _ => iprop(_ ∗ _ ∗ bigSep Finset.univ fun w : Fin cfg1.W => owns (c : Thread nD τ) _ fullShare ((dat1 V c).after w t))
  rw [bigSep_W1, bigSep_W1, show (dat1 V c).owesAt () t.succ = (dat1 V c).owesAt () t.castSucc from rfl]
  simp only [before1 V c t 0 (by decide), before1 V c t 1 (by decide), before1 V c t 2 (by decide), before1 V c t 3 (by decide), before1 V c t 4 (by decide)]
  dsimp only [dat1]
  iintro ⟨HΦ, Ho, ⟨%_, H0⟩, ⟨%_, H1⟩, ⟨%_, H2⟩, ⟨%_, H3⟩, ⟨%_, H4⟩, ⟨%_, H5⟩⟩
  iapply sound_kernel1
  iframe H0 H1 H2 H3 H4
  isplitl [H5]; · iexists _; iexact H5
  iintro ⟨H0, H1, H2, H3, H4, H5⟩
  iframe

end Cert.KernelIdeal.Rg

end
-- ==== Proof.KI.First2.lean ====
import proofs.«429527_j52415780880560_1_alg».proof.Proof.Gen.KernelIdeal.Launch
import proofs.«429527_j52415780880560_1_alg».proof.Proof.Gen.KernelIdeal.Skeleton
import proofs.«429527_j52415780880560_1_alg».proof.Proof.Gen.KernelIdeal.Points
import proofs.«429527_j52415780880560_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S10000x3 := Rect.unit (s := S10000x3) ![0, 0] S10000x3.size inb_S10000x3_S10000x3_0_0
abbrev rE2 : Rect S10000x64 := Rect.unit (s := S10000x64) ![0, 0] S10000x64.size inb_S10000x64_S10000x64_0_0
abbrev rWa2 : Rect S3x64 := Rect.unit (s := S3x64) ![0, 0] S3x64.size inb_S3x64_S3x64_0_0
abbrev rWb2 : Rect S64x64 := Rect.unit (s := S64x64) ![0, 0] S64x64.size inb_S64x64_S64x64_0_0
abbrev rB2 : Rect S1x64 := Rect.unit (s := S1x64) ![0, 0] S1x64.size inb_S1x64_S1x64_0_0

def preAt2 (c : Dev nD) (t : Fin cfg2.N) : Vec F S10000x64 .f32 :=
  k2_pay4 (View.ld (iblk2 V c 0 t) rX2) (View.ld (iblk2 V c 1 t) rE2) (View.ld (iblk2 V c 2 t) rWa2) (View.ld (iblk2 V c 3 t) rWb2) (View.ld (iblk2 V c 4 t) rB2)

def sumStep2 (c : Dev nD) (t : Fin cfg2.N) (acc : Vec F S1x64 .f32) : Vec F S1x64 .f32 :=
  k2_pay5 (View.ld (iblk2 V c 0 t) rX2) (View.ld (iblk2 V c 1 t) rE2) (View.ld (iblk2 V c 2 t) rWa2) (View.ld (iblk2 V c 3 t) rWb2) (View.ld (iblk2 V c 4 t) rB2) acc

def sqStep2 (c : Dev nD) (t : Fin cfg2.N) (acc : Vec F S1x64 .f32) : Vec F S1x64 .f32 :=
  k2_pay1 acc (k2_pay6 (View.ld (iblk2 V c 0 t) rX2) (View.ld (iblk2 V c 1 t) rE2) (View.ld (iblk2 V c 2 t) rWa2) (View.ld (iblk2 V c 3 t) rWb2) (View.ld (iblk2 V c 4 t) rB2))

def accS2 (c : Dev nD) : ℕ → Vec F S1x64 .f32
  | 0 => if h : 0 < cfg2.N then sumStep2 V c ⟨0, h⟩ (k2_pay2 (F := F)) else (k2_pay2 (F := F))
  | n + 1 => if h : n + 1 < cfg2.N then sumStep2 V c ⟨n + 1, h⟩ (accS2 c n) else accS2 c n

def accQ2 (c : Dev nD) : ℕ → Vec F S1x64 .f32
  | 0 => if h : 0 < cfg2.N then sqStep2 V c ⟨0, h⟩ (k2_pay3 (F := F)) else (k2_pay3 (F := F))
  | n + 1 => if h : n + 1 < cfg2.N then sqStep2 V c ⟨n + 1, h⟩ (accQ2 c n) else accQ2 c n

abbrev scM2_0 : Memref sig .tc .vmem S1x64 .f32 := Memref.whole cc2_scratch0
abbrev scM2_1 : Memref sig .tc .vmem S1x64 .f32 := Memref.whole cc2_scratch1

abbrev restBut2 (c : Dev nD) : sProp 𝕄 :=
  Pipeline.scopedRestBut (Ix := Unit) (Name := ℕ) (U := UR sig nD τ) (Lvl := ℕ) (Val := Elt F) spec2 c [cc2_scratch0, cc2_scratch1]

/-- Between points the two running totals hold some `s` and `q`; past the first point they are the folds up to the point before. -/
def Phi2 (c : Dev nD) (n : Fin (cfg2.N + 1)) : sProp 𝕄 :=
  iprop(∃ s, ∃ q, ⌜n.val ≠ 0 → s = accS2 V c (n.val - 1) ∧ q = accQ2 V c (n.val - 1)⌝
    ∗ iprop(iprop(iprop(owns (c : Thread nD τ) scM2_0 fullShare s ∗ owns (c : Thread nD τ) scM2_1 fullShare q) ∗ restBut2 (F := F) c) ∗ (∃ r, prngReg c r)))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, restBut2, owns_whole]; try rfl

/-- One step of the fold: the total after point `t` is this block's update of zero at the first point, of the previous total at a later one. -/
theorem accS2_step (c : Dev nD) (t : Fin cfg2.N) (s : Vec F S1x64 .f32) (h : t.val ≠ 0 → s = accS2 V c (t.val - 1)) :
    accS2 V c t.val = sumStep2 V c t (if t.val = 0 then k2_pay2 (F := F) else s) := by
  obtain ⟨n, hn⟩ := t
  cases n with
  | zero => rw [if_pos rfl]; exact dif_pos hn
  | succ n => rw [if_neg (Nat.succ_ne_zero n), h (Nat.succ_ne_zero n)]; exact dif_pos hn

theorem accQ2_step (c : Dev nD) (t : Fin cfg2.N) (q : Vec F S1x64 .f32) (h : t.val ≠ 0 → q = accQ2 V c (t.val - 1)) :
    accQ2 V c t.val = sqStep2 V c t (if t.val = 0 then k2_pay3 (F := F) else q) := by
  obtain ⟨n, hn⟩ := t
  cases n with
  | zero => rw [if_pos rfl]; exact dif_pos hn
  | succ n => rw [if_neg (Nat.succ_ne_zero n), h (Nat.succ_ne_zero n)]; exact dif_pos hn

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => View.canon [⟨rE2, preAt2 V c t⟩]
    | ⟨6, _⟩ => accS2 V c t.val
    | ⟨7, _⟩ => accQ2 V c t.val
  Φ n := Phi2 V c n
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = View.canon [⟨rE2, preAt2 V c t⟩] := by dsimp only [dat2]
theorem after2_6 (c : Dev nD) (t : Fin cfg2.N) : (dat2 V c).after 6 t = accS2 V c t.val := by dsimp only [dat2]
theorem after2_7 (c : Dev nD) (t : Fin cfg2.N) : (dat2 V c).after 7 t = accQ2 V c t.val := by dsimp only [dat2]

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

theorem hz2 : (![0, 0] : Fin 2 → ℕ) = fun _ => 0 := by funext a; fin_cases a <;> rfl

/-- The body at any point: the block of pre-activations is stored whole, and each total ends at this block's update of zero where `P` holds, of what it held otherwise. -/
theorem sound_kernel2 (c : Dev nD) (E : Set ℕ) (i : grid2.Coords) (P : Prop) [Decidable P] (hP : cond2_0 i ↔ P) (arg1 : Memref sig .tc .vmem S10000x3 .f32) (harg1 : arg1.IsWhole) (arg2 : Memref sig .tc .vmem S10000x64 .f32) (harg2 : arg2.IsWhole) (arg3 : Memref sig .tc .vmem S3x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x0 : Vec F S10000x3 .f32) (x1 : Vec F S10000x64 .f32) (x2 : Vec F S3x64 .f32) (x3 : Vec F S64x64 .f32) (x4 : Vec F S1x64 .f32)
    (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (View.canon [⟨rE2, k2_pay4 (View.ld x0 rX2) (View.ld x1 rE2) (View.ld x2 rWa2) (View.ld x3 rWb2) (View.ld x4 rB2)⟩])
            ∗ owns (c : Thread nD τ) arg7 fullShare (k2_pay5 (View.ld x0 rX2) (View.ld x1 rE2) (View.ld x2 rWa2) (View.ld x3 rWb2) (View.ld x4 rB2) (if P then k2_pay2 (F := F) else s))
            ∗ owns (c : Thread nD τ) arg8 fullShare (k2_pay1 (if P then k2_pay3 (F := F) else q) (k2_pay6 (View.ld x0 rX2) (View.ld x1 rE2) (View.ld x2 rWa2) (View.ld x3 rWb2) (View.ld x4 rB2)))
            ∗ owns (c : Thread nD τ) arg9 fullShare (k2_pay5 (View.ld x0 rX2) (View.ld x1 rE2) (View.ld x2 rWa2) (View.ld x3 rWb2) (View.ld x4 rB2) (if P then k2_pay2 (F := F) else s))
            ∗ owns (c : Thread nD τ) arg10 fullShare (k2_pay1 (if P then k2_pay3 (F := F) else q) (k2_pay6 (View.ld x0 rX2) (View.ld x1 rE2) (View.ld x2 rWa2) (View.ld x3 rWb2) (View.ld x4 rB2)))) -∗ K ⟨⟩))
      ⊢ wp frame (wpE (defs₀ (F := F)) Variants.none c none) E (cc2__first_pass_kernel i arg1 harg1 arg2 harg2 arg3 harg3 arg4 harg4 arg5 harg5 arg6 harg6 arg7 harg7 arg8 harg8 arg9 harg9 arg10 harg10) K := by
  by_cases hc : cond2_0 i
  all_goals first | rw [if_pos (hP.mp hc), if_pos (hP.mp hc)] | rw [if_neg (mt hP.mpr hc), if_neg (mt hP.mpr hc)]
  all_goals
    simp only [cc2__first_pass_kernel_eq_skeleton]; unfold cc2__first_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, ⟨%fq, %hfq, HQ⟩, Hk⟩
    subst hf0 hf1 hf2 hf3 hf4 hfs hfq
    sl_exec (disch := exact hc)
    sl_step
    iapply Hk
    isplitl [H0]; · iexists f0; iframe H0; itrivial
    isplitl [H1]; · iexists f1; iframe H1; itrivial
    isplitl [H2]; · iexists f2; iframe H2; itrivial
    isplitl [H3]; · iexists f3; iframe H3; itrivial
    isplitl [H4]; · iexists f4; iframe H4; itrivial
    isplitl [H5]
    · iexists _; isplitr
      swap; · iexact H5
      ipureintro
      refine (View.read_writes_eq_canon _ _ _ (Whole.cover (S := S10000x64) hz2 _ _ [])).trans ?_
      simp only [View.readAt_eq_ld, View.ld_unit_zero (S := S1x64) hz2]
    isplitl [H6]
    · iexists _; isplitr
      swap; · iexact H6
      ipureintro
      sl_unfold_words
      refine (Whole.store (S := S1x64) hz2 _ _ _ _ _).trans ((Whole.reload (S := S1x64) hz2 _ _ _ _).trans ?_)
      try rw [Whole.reload (S := S1x64) hz2]
      simp only [View.readAt_eq_ld, View.ld_unit_zero (S := S1x64) hz2]
    isplitl [H7]
    · iexists _; isplitr
      swap; · iexact H7
      ipureintro
      sl_unfold_words
      refine (Whole.store (S := S1x64) hz2 _ _ _ _ _).trans ((Whole.reload (S := S1x64) hz2 _ _ _ _).trans ?_)
      try rw [Whole.reload (S := S1x64) hz2]
      simp only [View.readAt_eq_ld, View.ld_unit_zero (S := S1x64) hz2]
    isplitl [HS]
    · iexists _; isplitr
      swap; · iexact HS
      ipureintro
      sl_unfold_words
      refine (Whole.store (S := S1x64) hz2 _ _ _ _ _).trans ?_
      try rw [Whole.reload (S := S1x64) hz2]
      simp only [View.readAt_eq_ld, View.ld_unit_zero (S := S1x64) hz2]
    · iexists _; isplitr
      swap; · iexact HQ
      ipureintro
      sl_unfold_words
      refine (Whole.store (S := S1x64) hz2 _ _ _ _ _).trans ?_
      try rw [Whole.reload (S := S1x64) hz2]
      simp only [View.readAt_eq_ld, View.ld_unit_zero (S := S1x64) hz2]

theorem before2 (c : Dev nD) (t : Fin cfg2.N) (w : Fin cfg2.W) (hw : w.val < 5) :
    ∀ d, (dat2 V c).before w t d = (dat2 V c).after w t := by
  fin_cases w <;> first
    | exact absurd hw (by decide)
    | exact fun d => ((dat2 V c).before_in_eq_fetched _ rfl (fun _ => rfl) (fun _ _ _ => rfl) (fun _ => rfl) t d).trans rfl

/-- The body's triple read at the region's data: the invariant before point `t` hands over the totals, the invariant after it takes them back at the fold's next value. -/
theorem body_obligation2 (c : Dev nD) : BodyObligation (dat2 (F := F) V c) (defs₀ (F := F)) Variants.none () Set.univ := fun t => by
  show iprop(_ ∗ _ ∗ bigSep Finset.univ fun w : Fin cfg2.W => iprop(∃ d, owns (c : Thread nD τ) _ fullShare ((dat2 V c).before w t d)))
    ⊢ wp frame _ _ (bodyAt2 t) fun _ => iprop(_ ∗ _ ∗ bigSep Finset.univ fun w : Fin cfg2.W => owns (c : Thread nD τ) _ fullShare ((dat2 V c).after w t))
  rw [bigSep_W2, bigSep_W2, show (dat2 V c).owesAt () t.succ = (dat2 V c).owesAt () t.castSucc from rfl,
    show (dat2 V c).Φ t.succ = Phi2 V c t.succ from rfl, show (dat2 V c).Φ t.castSucc = Phi2 V c t.castSucc from rfl]
  simp only [before2 V c t 0 (by decide), before2 V c t 1 (by decide), before2 V c t 2 (by decide), before2 V c t 3 (by decide), before2 V c t 4 (by decide)]
  dsimp only [dat2]
  unfold Phi2 bodyAt2
  iintro ⟨⟨%s, %q, %h, ⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS := accS2_step V c t s fun hz => (h hz).1
  have hQ := accQ2_step V c t q fun hz => (h hz).2
  rw [hS, hQ]
  unfold preAt2 sumStep2 sqStep2
  iapply (sound_kernel2 c Set.univ (grid2.coords t) (t.val = 0) (hcond2_0 t) _ _ _ _ _ _ _ _ _ _ _ _ _ _ _ _ _ _ _ _ (iblk2 V c 0 t) (iblk2 V c 1 t) (iblk2 V c 2 t) (iblk2 V c 3 t) (iblk2 V c 4 t) s q _)
  iframe H0 H1 H2 H3 H4
  isplitl [H5]; · iexists _; iexact H5
  isplitl [H6]; · iexists _; iexact H6
  isplitl [H7]; · iexists _; iexact H7
  iframe HS HQ
  iintro ⟨H0, H1, H2, H3, H4, H5, H6, H7, HS, HQ⟩
  isplitl [HS HQ HR Hg]
  · iexists _; iexists _; isplitr
    swap; · iframe
    ipureintro; exact fun _ => ⟨hS.symm, hQ.symm⟩
  iframe

/-- Before the first point nothing is asserted of the totals. -/
theorem hin2 (c : Dev nD) : Pipeline.ΦA spec2 c ⊢ (dat2 (F := F) V c).Φ 0 := by
  rw [show (dat2 V c).Φ 0 = Phi2 V c 0 from rfl, PhiA2_eq]; unfold Phi2
  iintro ⟨⟨⟨⟨%s, HS⟩, ⟨%q, HQ⟩⟩, HR⟩, Hg⟩
  iexists s; iexists q; isplitr
  · ipureintro; exact fun h => absurd rfl h
  iframe HS HQ HR Hg

/-- After the last point the totals are forgotten. -/
theorem hout2 (c : Dev nD) : (dat2 (F := F) V c).Φ (Fin.last cfg2.N) ⊢ Pipeline.ΦA spec2 c := by
  rw [show (dat2 V c).Φ (Fin.last cfg2.N) = Phi2 V c (Fin.last cfg2.N) from rfl, PhiA2_eq]; unfold Phi2
  iintro ⟨%s, %q, -, ⟨⟨HS, HQ⟩, HR⟩, Hg⟩
  isplitl [HS HQ HR]
  · isplitl [HS HQ]
    · isplitl [HS]
      · iexists _; iexact HS
      iexists _; iexact HQ
    iexact HR
  iexact Hg

end Cert.KernelIdeal.Rg

end
-- ==== Proof.KI.Second3.lean ====
import proofs.«429527_j52415780880560_1_alg».proof.Proof.Gen.KernelIdeal.Launch
import proofs.«429527_j52415780880560_1_alg».proof.Proof.Gen.KernelIdeal.Skeleton
import proofs.«429527_j52415780880560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz3 : (![0, 0] : Fin 2 → Nat) = fun _ => 0 := by decide

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) (w : Fin cfg3.W) (hw : w ≠ 5) :
    ∀ d, (dat3 V c).before w t d = (dat3 V c).after w t := by
  fin_cases w <;> first
    | exact absurd rfl hw
    | exact fun d => ((dat3 V c).before_in_eq_fetched _ rfl (fun _ => rfl) (fun _ _ _ => rfl) (fun _ => rfl) t d).trans rfl

set_option maxHeartbeats 1000000 in
theorem sound_kernel3 (c : Dev nD) (E : Set ℕ) (i : grid3.Coords)
    {arg1 arg6 : Memref sig .tc .vmem S10000x64 .f32} {arg2 arg3 arg5 : Memref sig .tc .vmem S1x64 .f32} {arg4 : Memref sig .tc .vmem S64x64 .f32}
    (harg1 : arg1.IsWhole) (harg2 : arg2.IsWhole) (harg3 : arg3.IsWhole) (harg4 : arg4.IsWhole) (harg5 : arg5.IsWhole) (harg6 : arg6.IsWhole)
    (x0 : Vec F S10000x64 .f32) (x1 x2 : Vec F S1x64 .f32) (x3 : Vec F S64x64 .f32) (x4 : Vec F S1x64 .f32)
    (K : PUnit → sProp 𝕄) :
    iprop(owns c arg1 fullShare x0 ∗ owns c arg2 fullShare x1 ∗ owns c arg3 fullShare x2
        ∗ owns c arg4 fullShare x3 ∗ owns c arg5 fullShare x4
        ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (k3_pay1 x0 x1 x2 x3 x4)) -∗ K ⟨⟩))
      ⊢ wp frame (wpE (defs₀ (F := F)) Variants.none c none) E
          (cc3__second_pass_kernel i arg1 harg1 arg2 harg2 arg3 harg3 arg4 harg4 arg5 harg5 arg6 harg6) K := by
  simp only [cc3__second_pass_kernel_eq_skeleton]; unfold cc3__second_pass_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; itrivial
  isplitl [H1]; · iexists f1; iframe H1; itrivial
  isplitl [H2]; · iexists f2; iframe H2; itrivial
  isplitl [H3]; · iexists f3; iframe H3; itrivial
  isplitl [H4]; · iexists f4; iframe H4; itrivial
  iexists _; iframe H5
  ipureintro
  rw [View.read_writes_eq_canon _ _ _ fun y => ⟨_, List.mem_singleton_self _, View.mem_set_unit_zero hz3 inb_S10000x64_S10000x64_0_0 y⟩, View.canon_unit_zero hz3]
  simp only [View.readAt_eq_ld, View.ld_unit_zero (S := S10000x64) hz3, View.ld_unit_zero (S := S1x64) hz3, View.ld_unit_zero (S := S64x64) hz3]

theorem body_obligation3 (c : Dev nD) : BodyObligation (dat3 (F := F) V c) (defs₀ (F := F)) Variants.none () Set.univ := fun t => by
  show iprop(_ ∗ _ ∗ bigSep Finset.univ fun w : Fin cfg3.W => iprop(∃ d, owns (c : Thread nD τ) _ fullShare ((dat3 V c).before w t d)))
    ⊢ wp frame _ _ (bodyAt3 t) fun _ => iprop(_ ∗ _ ∗ bigSep Finset.univ fun w : Fin cfg3.W => owns (c : Thread nD τ) _ fullShare ((dat3 V c).after w t))
  rw [bigSep_W3, bigSep_W3, show (dat3 V c).owesAt () t.succ = (dat3 V c).owesAt () t.castSucc from rfl]
  simp only [before3 V c t 0 (by decide), before3 V c t 1 (by decide), before3 V c t 2 (by decide), before3 V c t 3 (by decide), before3 V c t 4 (by decide)]
  dsimp only [dat3]
  iintro ⟨HΦ, Ho, ⟨%_, H0⟩, ⟨%_, H1⟩, ⟨%_, H2⟩, ⟨%_, H3⟩, ⟨%_, H4⟩, ⟨%_, H5⟩⟩
  iapply sound_kernel3
  iframe H0 H1 H2 H3 H4
  isplitl [H5]; · iexists _; iexact H5
  iintro ⟨H0, H1, H2, H3, H4, H5⟩
  iframe

end Cert.KernelIdeal.Rg

end
-- ==== Proof.KI.Run.lean ====
import proofs.«429527_j52415780880560_1_alg».proof.Proof.KI.First0
import proofs.«429527_j52415780880560_1_alg».proof.Proof.KI.Second1
import proofs.«429527_j52415780880560_1_alg».proof.Proof.KI.First2
import proofs.«429527_j52415780880560_1_alg».proof.Proof.KI.Second3
import proofs.«429527_j52415780880560_1_alg».proof.Proof.Gen.KernelIdeal.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev W5 : Dev nD → Valuation τ sig (Elt F) := fun c => StableHlo.after hostOps1 (W4 m c)
abbrev E1 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev W7 : Dev nD → Valuation τ sig (Elt F) := fun c => StableHlo.after hostOps2 (W6 m c)
abbrev E2 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
abbrev W9 : Dev nD → Valuation τ sig (Elt F) := fun c => StableHlo.after hostOps3 (W8 m c)
abbrev E3 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

namespace Run

theorem W4_keep (c : Dev nD) (b : Ref sig .tc) (h : ∀ w, Pipeline.arrRef spec0 w = b → (cfg0.win w).isOut = false) :
    W4 m c (Proc.devRef .tc b) = W3 m c (Proc.devRef .tc b) := by
  by_cases hb : ∃ w, Pipeline.arrRef spec0 w = b
  · obtain ⟨w, rfl⟩ := hb
    exact (W4_arr m c w).trans (((dat0 (E0 m) c).arrAt_in w (h w rfl) _).trans (A_eq0 (E0 m) c w))
  · exact W4_of_ne m c b fun w e => hb ⟨w, e⟩
theorem W6_keep (c : Dev nD) (b : Ref sig .tc) (h : ∀ w, Pipeline.arrRef spec1 w = b → (cfg1.win w).isOut = false) :
    W6 m c (Proc.devRef .tc b) = W5 m c (Proc.devRef .tc b) := by
  by_cases hb : ∃ w, Pipeline.arrRef spec1 w = b
  · obtain ⟨w, rfl⟩ := hb
    exact (W6_arr m c w).trans (((dat1 (E1 m) c).arrAt_in w (h w rfl) _).trans (A_eq1 (E1 m) c w))
  · exact W6_of_ne m c b fun w e => hb ⟨w, e⟩
theorem W8_keep (c : Dev nD) (b : Ref sig .tc) (h : ∀ w, Pipeline.arrRef spec2 w = b → (cfg2.win w).isOut = false) :
    W8 m c (Proc.devRef .tc b) = W7 m c (Proc.devRef .tc b) := by
  by_cases hb : ∃ w, Pipeline.arrRef spec2 w = b
  · obtain ⟨w, rfl⟩ := hb
    exact (W8_arr m c w).trans (((dat2 (E2 m) c).arrAt_in w (h w rfl) _).trans (A_eq2 (E2 m) c w))
  · exact W8_of_ne m c b fun w e => hb ⟨w, e⟩
theorem W10_keep (c : Dev nD) (b : Ref sig .tc) (h : ∀ w, Pipeline.arrRef spec3 w = b → (cfg3.win w).isOut = false) :
    W10 m c (Proc.devRef .tc b) = W9 m c (Proc.devRef .tc b) := by
  by_cases hb : ∃ w, Pipeline.arrRef spec3 w = b
  · obtain ⟨w, rfl⟩ := hb
    exact (W10_arr m c w).trans (((dat3 (E3 m) c).arrAt_in w (h w rfl) _).trans (A_eq3 (E3 m) c w))
  · exact W10_of_ne m c b fun w e => hb ⟨w, e⟩

def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

set_option backward.isDefEq.respectTransparency.types false in
/-- Region `p` as a segment from every unscoped buffer at `V` to every unscoped buffer at `V'`: its arrays are split out of
    the unscoped buffers at entry and put back at exit, the generator register passes through the invariant, nothing is owed. -/
def region (p : Fin 4) (launch : Pipeline.LaunchFacts (nD := nD) (τ := τ) cfgs p) (V V' : Dev nD → Valuation τ sig (Elt F))
    (hbody : ∀ c, Pipeline.BodyObligationLoose (pdats m p c) defs₀ 𝒱₀ () Set.univ)
    (hfirst : ∀ c, (Pipeline.ΦA (cfgs p).spec c : sProp 𝕄) ⊢ (pdats m p c).Φ 0)
    (hlast : ∀ c, (pdats m p c).Φ (Fin.last _) ⊢ (Pipeline.ΦA (cfgs p).spec c : sProp 𝕄))
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hq : ∀ c w, (pdats m p c).q w = fullShare := by exact fun _ _ => rfl) (howed : ∀ c t, (pdats m p c).owed t = 0 := by exact fun _ _ => rfl)
    (hrec : ∀ c x, x ∈ (pdats m p c).recorded 0 := by exact fun _ _ => trivial)
    (hA : ∀ c w, (pdats m p c).A w = V c (Pipeline.arrRef (cfgs p).spec w) := by exact fun _ _ => rfl) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) launch.win launch.arr_whole c
      ((pdats m p c).share_full (hq c)) (fun b => V c b) (hA c)
    rw [Pipeline.unscopedBufs_held] at hsplit
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine (show _ ⊢ Pipeline.ΦA (cfgs p).spec c from ?_).trans (hfirst c)
    unfold Pipeline.ΦA
    iintro ⟨Hp, -, Hr⟩
    isplitl [Hr]; · iexact Hr
    iexact Hp
  hout c := by
    rw [Pipeline.ownSems0_none]
    refine (hlast c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => V c b) (fun b : Ref sig .tc => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (region m 0 launch0 (W3 m) (W4 m) (fun c => (body_obligation0 (E0 m) c).loose)
      (hin0 (E0 m)) (hout0 (E0 m)) (W4_arr m) (W4_of_ne m)),
    .host (hseg hostOps1 hostOps1_sub hostOps1_fresh (W4 m)),
    .region (region m 1 launch1 (W5 m) (W6 m) (fun c => (body_obligation1 (E1 m) c).loose)
      (fun _ => .rfl) (fun _ => .rfl) (W6_arr m) (W6_of_ne m)),
    .host (hseg hostOps2 hostOps2_sub hostOps2_fresh (W6 m)),
    .region (region m 2 launch2 (W7 m) (W8 m) (fun c => (body_obligation2 (E2 m) c).loose)
      (hin2 (E2 m)) (hout2 (E2 m)) (W8_arr m) (W8_of_ne m)),
    .host (hseg hostOps3 hostOps3_sub hostOps3_fresh (W8 m)),
    .region (region m 3 launch3 (W9 m) (W10 m) (fun c => (body_obligation3 (E3 m) c).loose)
      (fun _ => .rfl) (fun _ => .rfl) (W10_arr m) (W10_of_ne m)) ]
theorem main_run (c : Dev nD) : main (F := F) c = Pipeline.Seg.run (segs m) := (main_chain c).trans (by chain_rfl)

/-- A buffer that no host stretch writes and that is no region's output array holds at the return what it held at launch. -/
theorem kept (c : Dev nD) (s : MemSt nD τ sig (Elt F))
    (h : ∀ b ∈ Pipeline.ucRefs τ sig, s.mem (((c : Thread nD τ)).1, b) = W10 m c b) (b : Ref sig .tc)
    (hb : ¬ (Proc.devRef .tc b : DevRef τ sig).isScoped
      ∧ (∀ w, Pipeline.arrRef spec0 w = b → (cfg0.win w).isOut = false) ∧ (∀ w, Pipeline.arrRef spec1 w = b → (cfg1.win w).isOut = false)
      ∧ (∀ w, Pipeline.arrRef spec2 w = b → (cfg2.win w).isOut = false) ∧ (∀ w, Pipeline.arrRef spec3 w = b → (cfg3.win w).isOut = false)
      ∧ b ∉ hostOps0_W ∧ b ∉ hostOps0_1_W ∧ b ∉ hostOps0_2_W ∧ b ∉ hostOps1_W ∧ b ∉ hostOps2_W ∧ b ∉ hostOps3_W) :
    s.mem ((c.tc : Thread nD τ).loc b) = m ((c.tc : Thread nD τ).loc b) := by
  obtain ⟨hs, h0, h1, h2, h3, g0, g01, g02, g1, g2, g3⟩ := hb
  exact (h _ (mem_uc b hs)).trans <|
    (W10_keep m c b h3).trans <| (StableHlo.after_of_writes_sub hostOps3 _ hostOps3_writes g3).trans <|
    (W8_keep m c b h2).trans <| (StableHlo.after_of_writes_sub hostOps2 _ hostOps2_writes g2).trans <|
    (W6_keep m c b h1).trans <| (StableHlo.after_of_writes_sub hostOps1 _ hostOps1_writes g1).trans <|
    (W4_keep m c b h0).trans <| (StableHlo.after_of_writes_sub hostOps0_2 _ hostOps0_2_writes g02).trans <|
    (StableHlo.after_of_writes_sub hostOps0_1 _ hostOps0_1_writes g01).trans <|
    (StableHlo.after_of_writes_sub hostOps0 _ hostOps0_writes g0).trans rfl

end Run

open Run in
set_option backward.isDefEq.respectTransparency.types false in
theorem value_run : θ_run defs (onTc (τ := τ) (main (F := F))) ⟨m, fun _ => 0, ρ⟩ (fun r => ∀ c : Dev nD,
      r.2.mem ((c.tc : Thread nD τ).loc main_v60) = (dat3 (E3 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      have k := kept m c s (h c)
      ⟨(h c _ (mem_uc main_v60 (by decide))).trans (W10_arr m c 5),
        k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩)

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c => (h c).2) (value_run m ρ)

end Cert.KernelIdeal.Rg

end
-- ==== Proof.RefRun.lean ====
import proofs.«429527_j52415780880560_1_alg».proof.Proof.Gen.ReferenceIdeal.Run
import proofs.«429527_j52415780880560_1_alg».proof.Proof.Gen.ReferenceIdeal.Read
-- ==== Proof.Spec.lean ====
import Mathlib.Data.EReal.Basic
import Mathlib.Data.EReal.Operations
import Mathlib.Data.EReal.Inv
import Mathlib.Algebra.BigOperators.Fin

noncomputable section

open scoped BigOperators

namespace Cert.Spec

variable {M : ℕ}

def cat (A : Fin M → Fin 3 → EReal) (B : Fin M → Fin 64 → EReal) (r : Fin M) (k : Fin (3 + 64)) : EReal :=
  Fin.addCases (fun a => A r a) (fun b => B r b) k

def preR (A : Fin M → Fin 3 → EReal) (B : Fin M → Fin 64 → EReal) (W : Fin (3 + 64) → Fin 64 → EReal) (b : Fin 64 → EReal)
    (r : Fin M) (j : Fin 64) : EReal :=
  (∑ k : Fin (3 + 64), cat A B r k * W k j) + b j

def preK (A : Fin M → Fin 3 → EReal) (B : Fin M → Fin 64 → EReal) (Wa : Fin 3 → Fin 64 → EReal) (Wb : Fin 64 → Fin 64 → EReal)
    (b : Fin 64 → EReal) (r : Fin M) (j : Fin 64) : EReal :=
  ((∑ k : Fin 3, A r k * Wa k j) + ∑ k : Fin 64, B r k * Wb k j) + b j

def colSum (H : Fin M → Fin 64 → EReal) (j : Fin 64) : EReal := ∑ r : Fin M, H r j

def colSumSq (H : Fin M → Fin 64 → EReal) (j : Fin 64) : EReal := ∑ r : Fin M, H r j * H r j

def bnR (rs : EReal → EReal) (c e : EReal) (H : Fin M → Fin 64 → EReal) (g be : Fin 64 → EReal) (r : Fin M) (j : Fin 64) : EReal :=
  ((H r j - colSum H j / c) * rs ((∑ i : Fin M, (H i j - colSum H j / c) * (H i j - colSum H j / c)) / c + e)) * g j + be j

def scaleK (rs : EReal → EReal) (c e : EReal) (S Q g : Fin 64 → EReal) (j : Fin 64) : EReal :=
  g j * rs ((Q j / c - (S j / c) * (S j / c)) + e)

def shiftK (rs : EReal → EReal) (c e : EReal) (S Q g be : Fin 64 → EReal) (j : Fin 64) : EReal :=
  be j - (S j / c) * scaleK rs c e S Q g j

def mlpR (Y : Fin M → Fin 64 → EReal) (W' : Fin 64 → Fin 64 → EReal) (b' : Fin 64 → EReal) (r : Fin M) (j : Fin 64) : EReal :=
  (∑ k : Fin 64, max (Y r k) 0 * W' k j) + b' j

def outK (P : Fin M → Fin 64 → EReal) (sc sh : Fin 64 → EReal) (W' : Fin 64 → Fin 64 → EReal) (b' : Fin 64 → EReal)
    (r : Fin M) (j : Fin 64) : EReal :=
  (∑ k : Fin 64, max (P r k * sc k + sh k) 0 * W' k j) + b' j

def stageR (rs : EReal → EReal) (c e : EReal) (A : Fin M → Fin 3 → EReal) (B : Fin M → Fin 64 → EReal)
    (W : Fin (3 + 64) → Fin 64 → EReal) (b g be : Fin 64 → EReal) (W' : Fin 64 → Fin 64 → EReal) (b' : Fin 64 → EReal) :
    Fin M → Fin 64 → EReal :=
  mlpR (bnR rs c e (preR A B W b) g be) W' b'

def stageK (rs : EReal → EReal) (c e : EReal) (A : Fin M → Fin 3 → EReal) (B : Fin M → Fin 64 → EReal)
    (Wa : Fin 3 → Fin 64 → EReal) (Wb : Fin 64 → Fin 64 → EReal) (b g be : Fin 64 → EReal) (W' : Fin 64 → Fin 64 → EReal)
    (b' : Fin 64 → EReal) : Fin M → Fin 64 → EReal :=
  outK (preK A B Wa Wb b)
    (scaleK rs c e (colSum (preK A B Wa Wb b)) (colSumSq (preK A B Wa Wb b)) g)
    (shiftK rs c e (colSum (preK A B Wa Wb b)) (colSumSq (preK A B Wa Wb b)) g be) W' b'

end Cert.Spec

end
-- ==== Proof.SpecBase.lean ====
import Idealize.ShloMosaic.PureOps.Ideal
import Idealize.ShloMosaic.Lib.ValueIdx

noncomputable section

namespace Cert.Spec

open Idealize.ShloMosaic

abbrev Sh (a b : Nat) : Shape := ⟨2, ![a, b]⟩

abbrev RArr (a b : Nat) : Type := (Sh a b).Idx → EReal

def rowOf (N : Nat) (hN : 0 < N) (w : BitVec 32) : Fin N := ⟨min w.toInt.toNat (N - 1), by omega⟩

end Cert.Spec

end
-- ==== Proof.SpecGraph.lean ====
import proofs.«429527_j52415780880560_1_alg».proof.Proof.SpecBase
import Mathlib.Data.EReal.Operations
import Mathlib.Data.EReal.Inv
import Mathlib.Algebra.BigOperators.Fin

noncomputable section

open scoped BigOperators

namespace Cert.Spec

open Idealize.ShloMosaic

def wrapWord (w : BitVec 32) : BitVec 32 := if w.slt 0#32 then w + 100000#32 else w

def gatherRows {n : ℕ} (x : Fin 100000 → Fin 3 → EReal) (row : Fin n → BitVec 32) (r : Fin n) (k : Fin 3) : EReal :=
  x (rowOf 100000 (by decide) (wrapWord (row r))) k

def segMean {n N : ℕ} (h : Fin n → Fin 64 → EReal) (col : Fin n → ℤ) (i : Fin N) (c : Fin 64) : EReal :=
  (∑ e ∈ Finset.univ.filter (fun e : Fin n => col e = (i.val : ℤ)), h e c)
    / max (∑ e ∈ Finset.univ.filter (fun e : Fin n => col e = (i.val : ℤ)), (1 : EReal)) 1

end Cert.Spec

end
-- ==== Proof.Algebra.lean ====
import Mathlib.Data.EReal.Basic
import Mathlib.Data.EReal.Operations
import Mathlib.Data.EReal.Inv
import Mathlib.Algebra.BigOperators.Fin
import Mathlib.Algebra.BigOperators.Group.Finset.Basic
import Mathlib.Algebra.Order.BigOperators.Group.Finset
import Mathlib.Tactic.Ring
import Mathlib.Tactic.Linarith
import Mathlib.Tactic.Positivity
import Mathlib.Tactic.FieldSimp
import Mathlib.Tactic.NormNum

namespace Cert.Alg

open scoped BigOperators

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

-- A total that takes on one block of b consecutive terms at each point is, after point k, the sum of the first (k + 1) * b terms.
theorem blocks_total (n b : ℕ) (f : ℕ → EReal) (acc : ℕ → EReal) (h0 : acc 0 = 0 + ∑ y ∈ Finset.range b, f (0 * b + y))
    (hs : ∀ k, k + 1 < n → acc (k + 1) = acc k + ∑ y ∈ Finset.range b, f ((k + 1) * b + y)) (k : ℕ) (hk : k < n) :
    acc k = ∑ i ∈ Finset.range ((k + 1) * b), f i := by
  induction k with
  | zero => simpa using h0
  | succ k ih => rw [hs k hk, ih (by omega), add_one_mul (k + 1), Finset.sum_range_add]

theorem dot_split (f : Fin (3 + 64) → EReal) :
    ∑ k : Fin (3 + 64), f k
      = (∑ k : Fin 3, f (Fin.castAdd 64 k)) + ∑ k : Fin 64, f (Fin.natAdd 3 k) :=
  Fin.sum_univ_add f

theorem var_eq {M : ℕ} (H : Fin M → ℝ) (c m : ℝ) (hc : c = (M : ℝ)) (hc0 : c ≠ 0)
    (hS : ∑ i, H i = m * c) :
    (∑ i, H i * H i) / c - m * m = (∑ i, (H i - m) * (H i - m)) / c := by
  have h1 : ∑ i, (H i - m) * (H i - m)
      = (∑ i, H i * H i) - 2 * m * (∑ i, H i) + c * (m * m) := by
    have hexp : ∀ i, (H i - m) * (H i - m) = H i * H i - 2 * m * H i + m * m := fun i => by ring
    simp only [hexp]
    rw [Finset.sum_add_distrib, Finset.sum_sub_distrib, ← Finset.mul_sum, Finset.sum_const,
      Finset.card_univ, Fintype.card_fin, nsmul_eq_mul, hc]
  rw [h1, hS]
  field_simp
  ring

theorem sum_coe_mul {M : ℕ} (H K : Fin M → ℝ) :
    ∑ i, (H i : EReal) * (K i : EReal) = ((∑ i, H i * K i : ℝ) : EReal) := by
  rw [coe_sum]
  exact Finset.sum_congr rfl fun i _ => (EReal.coe_mul _ _).symm

theorem sum_coe_dev {M : ℕ} (H : Fin M → ℝ) (m : ℝ) :
    ∑ i, ((H i : EReal) - (m : EReal)) * ((H i : EReal) - (m : EReal))
      = ((∑ i, (H i - m) * (H i - m) : ℝ) : EReal) := by
  rw [coe_sum]
  exact Finset.sum_congr rfl fun i _ => by rw [EReal.coe_mul, EReal.coe_sub]

theorem bn_core {M : ℕ} (hM : 0 < M) (H : Fin M → ℝ) (c e : ℝ) (hc : c = (M : ℝ)) (he : 0 < e)
    (rs : EReal → EReal) (hrs : ∀ x : ℝ, 0 < x → ∃ y : ℝ, rs (x : EReal) = (y : EReal)) :
    ∃ m y : ℝ,
      (∑ i, (H i : EReal)) / (c : EReal) = (m : EReal) ∧
      rs (((∑ i, (H i : EReal) * (H i : EReal)) / (c : EReal)
          - ((∑ i, (H i : EReal)) / (c : EReal)) * ((∑ i, (H i : EReal)) / (c : EReal)))
          + (e : EReal)) = (y : EReal) ∧
      rs ((∑ i, ((H i : EReal) - (∑ i, (H i : EReal)) / (c : EReal))
            * ((H i : EReal) - (∑ i, (H i : EReal)) / (c : EReal))) / (c : EReal)
          + (e : EReal)) = (y : EReal) := by
  have hcpos : 0 < c := by rw [hc]; exact_mod_cast hM
  have hc0 : c ≠ 0 := hcpos.ne'
  have hmE : (∑ i, (H i : EReal)) / (c : EReal) = (((∑ i, H i) / c : ℝ) : EReal) := by
    rw [← coe_sum, ← EReal.coe_div]
  have hS : ∑ i, H i = (∑ i, H i) / c * c := (div_mul_cancel₀ _ hc0).symm
  have hV := var_eq H c ((∑ i, H i) / c) hc hc0 hS
  have hpos : 0 < (∑ i, (H i - (∑ i, H i) / c) * (H i - (∑ i, H i) / c)) / c + e := by
    have : 0 ≤ (∑ i, (H i - (∑ i, H i) / c) * (H i - (∑ i, H i) / c)) / c :=
      div_nonneg (Finset.sum_nonneg fun i _ => mul_self_nonneg _) hcpos.le
    linarith
  obtain ⟨y, hy⟩ := hrs _ hpos
  refine ⟨(∑ i, H i) / c, y, hmE, ?_, ?_⟩
  · rw [hmE, sum_coe_mul, ← EReal.coe_div, ← EReal.coe_mul, ← EReal.coe_sub, ← EReal.coe_add, hV]
    exact hy
  · rw [hmE, sum_coe_dev, ← EReal.coe_div, ← EReal.coe_add]
    exact hy

theorem bn_forms_eq {M : ℕ} (hM : 0 < M) (H : Fin M → ℝ) (c g b e : ℝ) (hc : c = (M : ℝ))
    (he : 0 < e) (rs : EReal → EReal)
    (hrs : ∀ x : ℝ, 0 < x → ∃ y : ℝ, rs (x : EReal) = (y : EReal)) (r : Fin M) :
    (H r : EReal) * ((g : EReal) * rs (((∑ i, (H i : EReal) * (H i : EReal)) / (c : EReal) - ((∑ i, (H i : EReal)) / (c : EReal)) * ((∑ i, (H i : EReal)) / (c : EReal))) + (e : EReal)))
      + ((b : EReal) - ((∑ i, (H i : EReal)) / (c : EReal)) * ((g : EReal) * rs (((∑ i, (H i : EReal) * (H i : EReal)) / (c : EReal) - ((∑ i, (H i : EReal)) / (c : EReal)) * ((∑ i, (H i : EReal)) / (c : EReal))) + (e : EReal))))
    = (((H r : EReal) - (∑ i, (H i : EReal)) / (c : EReal)) * rs ((∑ i, ((H i : EReal) - (∑ i, (H i : EReal)) / (c : EReal)) * ((H i : EReal) - (∑ i, (H i : EReal)) / (c : EReal))) / (c : EReal) + (e : EReal))) * (g : EReal) + (b : EReal) := by
  obtain ⟨m, y, hm, hl, hr⟩ := bn_core hM H c e hc he rs hrs
  rw [hl, hr, hm]
  have h : H r * (g * y) + (b - m * (g * y)) = (H r - m) * y * g + b := by ring
  exact_mod_cast h

theorem bn_real {M : ℕ} (hM : 0 < M) (H : Fin M → ℝ) (c g b e : ℝ) (hc : c = (M : ℝ))
    (he : 0 < e) (rs : EReal → EReal)
    (hrs : ∀ x : ℝ, 0 < x → ∃ y : ℝ, rs (x : EReal) = (y : EReal)) (r : Fin M) :
    ∃ y : ℝ, (((H r : EReal) - (∑ i, (H i : EReal)) / (c : EReal)) * rs ((∑ i, ((H i : EReal) - (∑ i, (H i : EReal)) / (c : EReal)) * ((H i : EReal) - (∑ i, (H i : EReal)) / (c : EReal))) / (c : EReal) + (e : EReal))) * (g : EReal) + (b : EReal) = (y : EReal) := by
  obtain ⟨m, y, hm, _, hr⟩ := bn_core hM H c e hc he rs hrs
  refine ⟨(H r - m) * y * g + b, ?_⟩
  rw [hr, hm]
  norm_cast

theorem real_dot {n : ℕ} (a w : Fin n → ℝ) (b : ℝ) :
    ∃ y : ℝ, (∑ k, (a k : EReal) * (w k : EReal)) + (b : EReal) = (y : EReal) :=
  ⟨(∑ k, a k * w k) + b, by rw [sum_coe_mul, ← EReal.coe_add]⟩

theorem real_max0 (a : ℝ) : max (a : EReal) 0 = ((max a 0 : ℝ) : EReal) :=
  (EReal.coe_strictMono.monotone.map_max (a := a) (b := 0)).symm

theorem real_div_max1 (s cnt : ℝ) : ∃ y : ℝ, (s : EReal) / max (cnt : EReal) 1 = (y : EReal) :=
  ⟨s / max cnt 1, by
    have h : max (cnt : EReal) 1 = ((max cnt 1 : ℝ) : EReal) :=
      (EReal.coe_strictMono.monotone.map_max (a := cnt) (b := 1)).symm
    rw [h, ← EReal.coe_div]⟩

end Cert.Alg
-- ==== Proof.StageEq.lean ====
import proofs.«429527_j52415780880560_1_alg».proof.Proof.Spec
import proofs.«429527_j52415780880560_1_alg».proof.Proof.Algebra

noncomputable section

open scoped BigOperators

namespace Cert.Spec

variable {M : ℕ}

theorem cat_castAdd (A : Fin M → Fin 3 → EReal) (B : Fin M → Fin 64 → EReal) (r : Fin M) (k : Fin 3) :
    cat A B r (Fin.castAdd 64 k) = A r k := by
  unfold cat
  exact Fin.addCases_left k

theorem cat_natAdd (A : Fin M → Fin 3 → EReal) (B : Fin M → Fin 64 → EReal) (r : Fin M) (k : Fin 64) :
    cat A B r (Fin.natAdd 3 k) = B r k := by
  unfold cat
  exact Fin.addCases_right k

theorem cat_coe (A : Fin M → Fin 3 → ℝ) (B : Fin M → Fin 64 → ℝ) (r : Fin M) (k : Fin (3 + 64)) :
    cat (fun r k => (A r k : EReal)) (fun r k => (B r k : EReal)) r k
      = ((Fin.addCases (fun a => A r a) (fun b => B r b) k : ℝ) : EReal) := by
  refine Fin.addCases (fun a => ?_) (fun b => ?_) k
  · rw [cat_castAdd, Fin.addCases_left]
  · rw [cat_natAdd, Fin.addCases_right]

theorem pre_eq (A : Fin M → Fin 3 → EReal) (B : Fin M → Fin 64 → EReal) (W : Fin (3 + 64) → Fin 64 → EReal)
    (b : Fin 64 → EReal) :
    preK A B (fun k j => W (Fin.castAdd 64 k) j) (fun k j => W (Fin.natAdd 3 k) j) b = preR A B W b := by
  funext r j
  unfold preK preR
  rw [Cert.Alg.dot_split (fun k => cat A B r k * W k j)]
  simp only [cat_castAdd, cat_natAdd]

theorem pre_real (A : Fin M → Fin 3 → ℝ) (B : Fin M → Fin 64 → ℝ) (W : Fin (3 + 64) → Fin 64 → ℝ) (b : Fin 64 → ℝ)
    (r : Fin M) (j : Fin 64) :
    ∃ y : ℝ, preR (fun r k => (A r k : EReal)) (fun r k => (B r k : EReal)) (fun k j => (W k j : EReal))
      (fun j => (b j : EReal)) r j = (y : EReal) := by
  obtain ⟨y, hy⟩ := Cert.Alg.real_dot
    (fun k : Fin (3 + 64) => (Fin.addCases (fun a => A r a) (fun b => B r b) k : ℝ)) (fun k => W k j) (b j)
  refine ⟨y, ?_⟩
  unfold preR
  simp only [cat_coe]
  exact hy

theorem bnR_real (hM : 0 < M) (rs : EReal → EReal)
    (hrs : ∀ x : ℝ, 0 < x → ∃ y : ℝ, rs (x : EReal) = (y : EReal)) (c e : ℝ) (hc : c = (M : ℝ)) (he : 0 < e)
    (H : Fin M → Fin 64 → ℝ) (g be : Fin 64 → ℝ) (r : Fin M) (k : Fin 64) :
    ∃ y : ℝ, bnR rs (c : EReal) (e : EReal) (fun r j => (H r j : EReal)) (fun j => (g j : EReal))
      (fun j => (be j : EReal)) r k = (y : EReal) := by
  unfold bnR colSum
  exact Cert.Alg.bn_real hM (fun i => H i k) c (g k) (be k) e hc he rs hrs r

theorem bn_eq (hM : 0 < M) (rs : EReal → EReal)
    (hrs : ∀ x : ℝ, 0 < x → ∃ y : ℝ, rs (x : EReal) = (y : EReal)) (c e : ℝ) (hc : c = (M : ℝ)) (he : 0 < e)
    (H : Fin M → Fin 64 → ℝ) (g be : Fin 64 → ℝ) (r : Fin M) (k : Fin 64) :
    (H r k : EReal)
        * scaleK rs (c : EReal) (e : EReal) (colSum (fun r j => (H r j : EReal)))
            (colSumSq (fun r j => (H r j : EReal))) (fun j => (g j : EReal)) k
      + shiftK rs (c : EReal) (e : EReal) (colSum (fun r j => (H r j : EReal)))
            (colSumSq (fun r j => (H r j : EReal))) (fun j => (g j : EReal)) (fun j => (be j : EReal)) k
      = bnR rs (c : EReal) (e : EReal) (fun r j => (H r j : EReal)) (fun j => (g j : EReal))
          (fun j => (be j : EReal)) r k := by
  unfold shiftK scaleK bnR colSum colSumSq
  exact Cert.Alg.bn_forms_eq hM (fun i => H i k) c (g k) (be k) e hc he rs hrs r

theorem stage_eq (hM : 0 < M) (rs : EReal → EReal)
    (hrs : ∀ x : ℝ, 0 < x → ∃ y : ℝ, rs (x : EReal) = (y : EReal)) (c e : ℝ) (hc : c = (M : ℝ)) (he : 0 < e)
    (A : Fin M → Fin 3 → ℝ) (B : Fin M → Fin 64 → ℝ) (W : Fin (3 + 64) → Fin 64 → ℝ) (b g be : Fin 64 → ℝ)
    (W' : Fin 64 → Fin 64 → ℝ) (b' : Fin 64 → ℝ) :
    stageK rs (c : EReal) (e : EReal) (fun r k => (A r k : EReal)) (fun r k => (B r k : EReal))
        (fun k j => (W (Fin.castAdd 64 k) j : EReal)) (fun k j => (W (Fin.natAdd 3 k) j : EReal))
        (fun j => (b j : EReal)) (fun j => (g j : EReal)) (fun j => (be j : EReal)) (fun k j => (W' k j : EReal))
        (fun j => (b' j : EReal))
      = stageR rs (c : EReal) (e : EReal) (fun r k => (A r k : EReal)) (fun r k => (B r k : EReal))
        (fun k j => (W k j : EReal)) (fun j => (b j : EReal)) (fun j => (g j : EReal)) (fun j => (be j : EReal))
        (fun k j => (W' k j : EReal)) (fun j => (b' j : EReal)) := by
  have hpre : preK (fun r k => (A r k : EReal)) (fun r k => (B r k : EReal))
      (fun k j => (W (Fin.castAdd 64 k) j : EReal)) (fun k j => (W (Fin.natAdd 3 k) j : EReal))
      (fun j => (b j : EReal))
      = preR (fun r k => (A r k : EReal)) (fun r k => (B r k : EReal)) (fun k j => (W k j : EReal))
        (fun j => (b j : EReal)) :=
    pre_eq (fun r k => (A r k : EReal)) (fun r k => (B r k : EReal)) (fun k j => (W k j : EReal))
      (fun j => (b j : EReal))
  choose H hH using pre_real A B W b
  have hP : preR (fun r k => (A r k : EReal)) (fun r k => (B r k : EReal)) (fun k j => (W k j : EReal))
      (fun j => (b j : EReal)) = fun r j => (H r j : EReal) :=
    funext fun r => funext fun j => hH r j
  funext r j
  unfold stageK stageR outK mlpR
  rw [hpre, hP]
  refine congrArg (· + (b' j : EReal)) ?_
  refine Finset.sum_congr rfl fun k _ => ?_
  rw [bn_eq hM rs hrs c e hc he H g be r k]

theorem stage_real (hM : 0 < M) (rs : EReal → EReal)
    (hrs : ∀ x : ℝ, 0 < x → ∃ y : ℝ, rs (x : EReal) = (y : EReal)) (c e : ℝ) (hc : c = (M : ℝ)) (he : 0 < e)
    (A : Fin M → Fin 3 → ℝ) (B : Fin M → Fin 64 → ℝ) (W : Fin (3 + 64) → Fin 64 → ℝ) (b g be : Fin 64 → ℝ)
    (W' : Fin 64 → Fin 64 → ℝ) (b' : Fin 64 → ℝ) (r : Fin M) (j : Fin 64) :
    ∃ y : ℝ, stageR rs (c : EReal) (e : EReal) (fun r k => (A r k : EReal)) (fun r k => (B r k : EReal))
        (fun k j => (W k j : EReal)) (fun j => (b j : EReal)) (fun j => (g j : EReal)) (fun j => (be j : EReal))
        (fun k j => (W' k j : EReal)) (fun j => (b' j : EReal)) r j = (y : EReal) := by
  choose H hH using pre_real A B W b
  have hP : preR (fun r k => (A r k : EReal)) (fun r k => (B r k : EReal)) (fun k j => (W k j : EReal))
      (fun j => (b j : EReal)) = fun r j => (H r j : EReal) :=
    funext fun r => funext fun j => hH r j
  choose Y hY using bnR_real hM rs hrs c e hc he H g be
  obtain ⟨y, hy⟩ := Cert.Alg.real_dot (fun k : Fin 64 => max (Y r k) 0) (fun k => W' k j) (b' j)
  refine ⟨y, ?_⟩
  unfold stageR mlpR
  rw [hP]
  simp only [hY, Cert.Alg.real_max0]
  exact hy

end Cert.Spec

end
-- ==== Proof.NetworkEq.lean ====
import proofs.«429527_j52415780880560_1_alg».proof.Proof.StageEq
import proofs.«429527_j52415780880560_1_alg».proof.Proof.SpecGraph

noncomputable section

open scoped BigOperators

namespace Cert.Spec

def IsReal {α β : Type} (f : α → β → EReal) : Prop := ∀ a b, ∃ y : ℝ, f a b = (y : EReal)

def IsRealRow {β : Type} (f : β → EReal) : Prop := ∀ b, ∃ y : ℝ, f b = (y : EReal)

theorem IsReal.exists_real {α β : Type} {f : α → β → EReal} (h : IsReal f) : ∃ g : α → β → ℝ, f = fun a b => (g a b : EReal) := by
  choose g hg using h
  exact ⟨g, funext fun a => funext fun b => hg a b⟩

theorem IsRealRow.exists_real {β : Type} {f : β → EReal} (h : IsRealRow f) : ∃ g : β → ℝ, f = fun b => (g b : EReal) := by
  choose g hg using h
  exact ⟨g, funext fun b => hg b⟩

theorem segMean_isReal {n N : ℕ} (h : Fin n → Fin 64 → EReal) (hh : IsReal h) (col : Fin n → ℤ) :
    IsReal (segMean (N := N) h col) := by
  obtain ⟨g, rfl⟩ := hh.exists_real
  intro i c
  unfold segMean
  rw [← Cert.Alg.coe_sum, show (∑ e ∈ Finset.univ.filter (fun e : Fin n => col e = (i.val : ℤ)), (1 : EReal))
      = ((∑ e ∈ Finset.univ.filter (fun e : Fin n => col e = (i.val : ℤ)), (1 : ℝ) : ℝ) : EReal) from by
        rw [Cert.Alg.coe_sum]; rfl]
  exact Cert.Alg.real_div_max1 _ _

theorem gatherRows_isReal {n : ℕ} (x : Fin 100000 → Fin 3 → EReal) (hx : IsReal x) (row : Fin n → BitVec 32) :
    IsReal (gatherRows x row) := fun r k => hx _ k

variable (rs : EReal → EReal) (hrs : ∀ x : ℝ, 0 < x → ∃ y : ℝ, rs (x : EReal) = (y : EReal))

include hrs in

theorem stage_eq_of_isReal {M : ℕ} (hM : 0 < M) (c : ℝ) (hc : c = (M : ℝ)) (eps : EReal) (heps : ∃ e : ℝ, 0 < e ∧ eps = (e : EReal))
    (A : Fin M → Fin 3 → EReal) (hA : IsReal A) (B : Fin M → Fin 64 → EReal) (hB : IsReal B)
    (W : Fin (3 + 64) → Fin 64 → EReal) (hW : IsReal W) (b g be : Fin 64 → EReal) (hb : IsRealRow b) (hg : IsRealRow g) (hbe : IsRealRow be)
    (W' : Fin 64 → Fin 64 → EReal) (hW' : IsReal W') (b' : Fin 64 → EReal) (hb' : IsRealRow b') :
    stageK rs (c : EReal) eps A B (fun k j => W (Fin.castAdd 64 k) j) (fun k j => W (Fin.natAdd 3 k) j) b g be W' b'
        = stageR rs (c : EReal) eps A B W b g be W' b'
      ∧ IsReal (stageR rs (c : EReal) eps A B W b g be W' b') := by
  obtain ⟨e, he, rfl⟩ := heps
  obtain ⟨A, rfl⟩ := hA.exists_real
  obtain ⟨B, rfl⟩ := hB.exists_real
  obtain ⟨W, rfl⟩ := hW.exists_real
  obtain ⟨b, rfl⟩ := hb.exists_real
  obtain ⟨g, rfl⟩ := hg.exists_real
  obtain ⟨be, rfl⟩ := hbe.exists_real
  obtain ⟨W', rfl⟩ := hW'.exists_real
  obtain ⟨b', rfl⟩ := hb'.exists_real
  exact ⟨stage_eq hM rs hrs c e hc he A B W b g be W' b', fun r j => stage_real hM rs hrs c e hc he A B W b g be W' b' r j⟩

include hrs in

theorem network_eq (eps : EReal) (heps : ∃ e : ℝ, 0 < e ∧ eps = (e : EReal))
    (x : Fin 100000 → Fin 3 → EReal) (hx : IsReal x) (row : Fin 1600000 → BitVec 32) (col : Fin 1600000 → ℤ)
    (ea : Fin 1600000 → Fin 64 → EReal) (hea : IsReal ea)
    (w1 : Fin (3 + 64) → Fin 64 → EReal) (hw1 : IsReal w1) (b1 g1 be1 : Fin 64 → EReal) (hb1 : IsRealRow b1) (hg1 : IsRealRow g1) (hbe1 : IsRealRow be1)
    (w2 : Fin 64 → Fin 64 → EReal) (hw2 : IsReal w2) (b2 : Fin 64 → EReal) (hb2 : IsRealRow b2)
    (w3 : Fin (3 + 64) → Fin 64 → EReal) (hw3 : IsReal w3) (b3 g3 be3 : Fin 64 → EReal) (hb3 : IsRealRow b3) (hg3 : IsRealRow g3) (hbe3 : IsRealRow be3)
    (w4 : Fin 64 → Fin 64 → EReal) (hw4 : IsReal w4) (b4 : Fin 64 → EReal) (hb4 : IsRealRow b4)
    (K1 R1 : Fin 1600000 → Fin 64 → EReal)
    (hK1 : K1 = stageK rs ((1600000 : ℝ) : EReal) eps (gatherRows x row) ea (fun k j => w1 (Fin.castAdd 64 k) j) (fun k j => w1 (Fin.natAdd 3 k) j) b1 g1 be1 w2 b2)
    (hR1 : R1 = stageR rs ((1600000 : ℝ) : EReal) eps (gatherRows x row) ea w1 b1 g1 be1 w2 b2)
    (AK AR : Fin 100000 → Fin 64 → EReal) (hAK : AK = segMean K1 col) (hAR : AR = segMean R1 col)
    (K2 R2 : Fin 100000 → Fin 64 → EReal)
    (hK2 : K2 = stageK rs ((100000 : ℝ) : EReal) eps x AK (fun k j => w3 (Fin.castAdd 64 k) j) (fun k j => w3 (Fin.natAdd 3 k) j) b3 g3 be3 w4 b4)
    (hR2 : R2 = stageR rs ((100000 : ℝ) : EReal) eps x AR w3 b3 g3 be3 w4 b4) :
    K2 = R2 := by
  obtain ⟨h1, h1r⟩ := stage_eq_of_isReal rs hrs (M := 1600000) (by norm_num) 1600000 (by norm_num) eps heps
    (gatherRows x row) (gatherRows_isReal x hx row) ea hea w1 hw1 b1 g1 be1 hb1 hg1 hbe1 w2 hw2 b2 hb2
  have hKR1 : K1 = R1 := by rw [hK1, hR1]; exact h1
  have hA : AK = AR := by rw [hAK, hAR, hKR1]
  have hAr : IsReal AR := by rw [hAR, hR1]; exact segMean_isReal _ h1r col
  obtain ⟨h2, -⟩ := stage_eq_of_isReal rs hrs (M := 100000) (by norm_num) 100000 (by norm_num) eps heps
    x hx AR hAr w3 hw3 b3 g3 be3 hb3 hg3 hbe3 w4 hw4 b4 hb4
  rw [hK2, hR2, hA]; exact h2

end Cert.Spec

end
-- ==== Proof.Consts.lean ====
import Idealize.ShloMosaic.PureOps.Ideal
import Mathlib.Data.EReal.Inv
import Mathlib.Tactic.NormNum
import Mathlib.Tactic.Positivity

noncomputable section

namespace Cert.Consts

open Idealize.ShloMosaic

theorem ofBits_1600000 : Ideal.ofBits .f32 0x49C35000#32 = ((1600000 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

def epsE : EReal := Ideal.ofBits .f32 0x3727C5AC#32

theorem epsE_pos : ∃ e : ℝ, 0 < e ∧ epsE = (e : EReal) := by
  refine ⟨10995116 * (2 : ℝ) ^ (-40 : ℤ), by positivity, ?_⟩
  simp [epsE, Ideal.ofBits, Ideal.ieee, -EReal.coe_mul]

theorem ofBits_nan : Ideal.ofBits .f32 0x7FC00000#32 = (⊥ : EReal) := by
  simp [Ideal.ofBits, Ideal.ieee]

theorem rsqrt_real (x : ℝ) (hx : 0 < x) : ∃ y : ℝ, Ideal.rsqrt (x : EReal) = (y : EReal) :=
  ⟨(Real.sqrt x)⁻¹, by rw [Ideal.rsqrt_coe, if_neg (not_lt.mpr hx.le), if_neg hx.ne']⟩

theorem div_of_ne_zero (x y : EReal) (hy : y ≠ 0) : Ideal.div x y = x / y := by
  rw [Ideal.div, if_neg hy, div_eq_mul_inv]

theorem div_real (x : EReal) (c : ℝ) (hc : c ≠ 0) : Ideal.div x (c : EReal) = x / (c : EReal) :=
  div_of_ne_zero x _ (by exact_mod_cast hc)

theorem div_max1 (x a : EReal) : Ideal.div x (max a 1) = x / max a 1 :=
  div_of_ne_zero x _ (lt_of_lt_of_le zero_lt_one (le_max_right a 1)).ne'

end Cert.Consts

end
-- ==== Proof.KI.PayFirst.lean ====
import proofs.«429527_j52415780880560_1_alg».proof.Proof.Gen.KernelIdeal.Skeleton
import Idealize.ShloMosaic.Lib.StackMember
import Idealize.ShloMosaic.Lib.ValueLayout

noncomputable section

namespace Cert.KernelIdeal.Val

open Idealize.ShloMosaic Idealize.ShloMosaic.ValueIdx Cert.KernelIdeal Cert.KernelIdeal.Gen

theorem zero2 : (![0, 0] : Fin 2 → ℕ) = fun _ => 0 := funext fun a => by fin_cases a <;> rfl

theorem ld2 {n0 n1 : ℕ} {e : EltTy} (inb : ∀ a, (![0, 0] : Fin 2 → ℕ) a + (⟨2, ![n0, n1]⟩ : Shape).size a ≤ (⟨2, ![n0, n1]⟩ : Shape).size a)
    (X : (⟨2, ![n0, n1]⟩ : Shape).Idx → Elt Ideal e) : View.ld X (Rect.unit ![0, 0] (⟨2, ![n0, n1]⟩ : Shape).size inb) = X :=
  View.ld_unit_zero zero2 inb X

-- A product into zeros of an m×k by a k×n block is the plain product: at (r, j) the sum over the contracted coordinate.
theorem dot_apply {m k n : ℕ} {φ₁ φ₂ : FTy} (d : DotDims ⟨2, ![m, k]⟩ ⟨2, ![k, n]⟩ ⟨2, ![m, n]⟩) (hd : d = DotDims.plain m k n)
    (a : FVec Ideal ⟨2, ![m, k]⟩ φ₁) (b : FVec Ideal ⟨2, ![k, n]⟩ φ₂) (r : Fin m) (j : Fin n) :
    matmul d none a b (constant (F := Ideal) ⟨2, ![m, n]⟩ .f32 0x00000000#32) (ix2 r j) = ∑ c : Fin k, a (ix2 r c) * b (ix2 c j) := by
  rw [hd, matmul_zero_eq_dotGeneral]
  exact StackMember.dotGeneral_plain_apply none a b r j

-- A sum over the row axis, read at column j, is the sum of that column over the rows, whatever the row count m.
theorem tot_apply {m : ℕ} (h : (⟨2, ![m, 64]⟩ : Shape).Reduces [0] S64) (hφ : FKind.Formats .f32)
    (hacc : (0x00000000#32 : BitVec 32) = FKind.add.neutral .f32 hφ) (acc : Vec Ideal S1x64 .f32) (src : FVec Ideal ⟨2, ![m, 64]⟩ .f32) (j : Fin 64) :
    shapeCast S1x64 (addf acc (shapeCast S1x64 (multiReduction .add [0] S64 src 0x00000000#32 h hφ hacc) shapeCasts_S64_S1x64)) shapeCasts_S1x64_S1x64 (ix2 0 j)
      = acc (ix2 0 j) + ∑ r : Fin m, src (ix2 r j) := by
  rw [shapeCast_self]
  refine congrArg (acc (ix2 0 j) + ·) ((shapeCast_a_1a_apply _ shapeCasts_S64_S1x64 0 j).trans ?_)
  refine (Ideal.multiReduction_add_single src _ h hφ hacc (ix1 j)).trans ?_
  exact Finset.sum_congr rfl fun r _ => congrArg src (funext fun c => by
    match c with
    | ⟨0, _⟩ => rfl
    | ⟨1, _⟩ => rfl)

theorem pay_pre_8000 (x0 : Vec Ideal S8000x3 .f32) (x1 : Vec Ideal S8000x64 .f32) (x2 : Vec Ideal S3x64 .f32)
    (x3 : Vec Ideal S64x64 .f32) (x4 : Vec Ideal S1x64 .f32) (r : Fin 8000) (j : Fin 64) :
    k0_pay4 (F := Ideal) x0 x1 x2 x3 x4 (ix2 r j)
      = ((∑ k : Fin 3, x0 (ix2 r k) * x2 (ix2 k j)) + (∑ k : Fin 64, x1 (ix2 r k) * x3 (ix2 k j))) + x4 (ix2 0 j) := by
  unfold k0_pay4
  simp only [addf_apply, dot_apply dot_S8000x3_S3x64_S8000x64_1_0_0_1_n_n rfl, dot_apply dot_S8000x64_S64x64_S8000x64_1_0_0_1_n_n rfl,
    broadcastTo_1b_ab_apply, shapeCast_self, truncf_apply]

theorem pay_pre_10000 (x0 : Vec Ideal S10000x3 .f32) (x1 : Vec Ideal S10000x64 .f32) (x2 : Vec Ideal S3x64 .f32)
    (x3 : Vec Ideal S64x64 .f32) (x4 : Vec Ideal S1x64 .f32) (r : Fin 10000) (j : Fin 64) :
    k2_pay4 (F := Ideal) x0 x1 x2 x3 x4 (ix2 r j)
      = ((∑ k : Fin 3, x0 (ix2 r k) * x2 (ix2 k j)) + (∑ k : Fin 64, x1 (ix2 r k) * x3 (ix2 k j))) + x4 (ix2 0 j) := by
  unfold k2_pay4
  simp only [addf_apply, dot_apply dot_S10000x3_S3x64_S10000x64_1_0_0_1_n_n rfl, dot_apply dot_S10000x64_S64x64_S10000x64_1_0_0_1_n_n rfl,
    broadcastTo_1b_ab_apply, shapeCast_self, truncf_apply]

theorem pay_zero (j : Fin 64) : k0_pay2 (F := Ideal) (ix2 0 j) = 0 := by
  unfold k0_pay2
  rw [shapeCast_self]
  exact Ideal.ofBits_zero_f32

end Cert.KernelIdeal.Val

end
-- ==== Proof.KI.ValFirst0.lean ====
import proofs.«429527_j52415780880560_1_alg».proof.Proof.KI.First0
import proofs.«429527_j52415780880560_1_alg».proof.Proof.KI.PayFirst
import proofs.«429527_j52415780880560_1_alg».proof.Proof.Algebra

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

def P0at (a0 : S1600000x3.Idx → EReal) (a1 : S1600000x64.Idx → EReal) (a2 : S3x64.Idx → EReal) (a3 : S64x64.Idx → EReal)
    (a4 : S1x64.Idx → EReal) (r : Fin 1600000) (j : Fin 64) : EReal :=
  ((∑ k : Fin 3, a0 (ix2 r k) * a2 (ix2 k j)) + ∑ k : Fin 64, a1 (ix2 r k) * a3 (ix2 k j)) + a4 (ix2 0 j)

def P0 (r : Fin 1600000) (j : Fin 64) : EReal :=
  P0at (V c (Pipeline.arrRef spec0 0)) (V c (Pipeline.arrRef spec0 1)) (V c (Pipeline.arrRef spec0 2))
    (V c (Pipeline.arrRef spec0 3)) (V c (Pipeline.arrRef spec0 4)) r j

theorem idx_rows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem P0_of_eq (X0 : S1600000x3.Idx → EReal) (X1 : S1600000x64.Idx → EReal) (X2 : S3x64.Idx → EReal) (X3 : S64x64.Idx → EReal)
    (X4 : S1x64.Idx → EReal) (h0 : X0 = V c (Pipeline.arrRef spec0 0)) (h1 : X1 = V c (Pipeline.arrRef spec0 1))
    (h2 : X2 = V c (Pipeline.arrRef spec0 2)) (h3 : X3 = V c (Pipeline.arrRef spec0 3)) (h4 : X4 = V c (Pipeline.arrRef spec0 4))
    (r : Fin 1600000) (j : Fin 64) : P0 V c r j = P0at X0 X1 X2 X3 X4 r j := by
  subst h0 h1 h2 h3 h4
  rfl

theorem emb0_0 (t : Fin cfg0.N) (p : Fin 8000) (k : Fin 3) (r : Fin 1600000) (hr : r.val = t.val * 8000 + p.val) :
    ((cfg0.win 0).blk t).view.emb (ix2 p k) = ix2 r k := by
  obtain ⟨e0, e1, -⟩ := idx_rows0 t
  exact Shape.idx_ext₂ (by show win0_0.index t 0 * 8000 + 1 * p.val = r.val; omega)
    (by show win0_0.index t 1 * 3 + 1 * k.val = k.val; omega)

theorem emb1_0 (t : Fin cfg0.N) (p : Fin 8000) (k : Fin 64) (r : Fin 1600000) (hr : r.val = t.val * 8000 + p.val) :
    ((cfg0.win 1).blk t).view.emb (ix2 p k) = ix2 r k := by
  obtain ⟨-, -, e0, e1, -⟩ := idx_rows0 t
  exact Shape.idx_ext₂ (by show win0_1.index t 0 * 8000 + 1 * p.val = r.val; omega)
    (by show win0_1.index t 1 * 64 + 1 * k.val = k.val; omega)

theorem emb2_0 (t : Fin cfg0.N) (y : S3x64.Idx) : ((cfg0.win 2).blk t).view.emb y = y := by
  obtain ⟨-, -, -, -, -, -, e0, e1, -⟩ := idx_rows0 t
  exact Shape.idx_ext₂ (by show win0_2.index t 0 * 3 + 1 * (y 0).val = (y 0).val; omega)
    (by show win0_2.index t 1 * 64 + 1 * (y 1).val = (y 1).val; omega)

theorem emb3_0 (t : Fin cfg0.N) (y : S64x64.Idx) : ((cfg0.win 3).blk t).view.emb y = y := by
  obtain ⟨-, -, -, -, -, -, -, -, e0, e1, -⟩ := idx_rows0 t
  exact Shape.idx_ext₂ (by show win0_3.index t 0 * 64 + 1 * (y 0).val = (y 0).val; omega)
    (by show win0_3.index t 1 * 64 + 1 * (y 1).val = (y 1).val; omega)

theorem emb4_0 (t : Fin cfg0.N) (y : S1x64.Idx) : ((cfg0.win 4).blk t).view.emb y = y := by
  obtain ⟨-, -, -, -, -, -, -, -, -, -, e0, e1⟩ := idx_rows0 t
  exact Shape.idx_ext₂ (by show win0_4.index t 0 * 1 + 1 * (y 0).val = (y 0).val; omega)
    (by show win0_4.index t 1 * 64 + 1 * (y 1).val = (y 1).val; omega)

theorem preAt0_apply (t : Fin cfg0.N) (p : Fin 8000) (j : Fin 64) (r : Fin 1600000) (hr : r.val = t.val * 8000 + p.val) :
    preAt0 V c t (ix2 p j) = P0 V c r j := by
  unfold preAt0
  simp only [ld2]
  refine (pay_pre_8000 _ _ _ _ _ p j).trans ?_
  unfold P0 P0at iblk0
  simp only [View.read_apply, emb0_0 t p _ r hr, emb1_0 t p _ r hr, emb2_0 t, emb3_0 t, emb4_0 t]
  rfl

def preArr0 : S1600000x64.Idx → EReal := fun i => P0 V c (i 0) (i 1)

theorem emb5_0 (t : Fin cfg0.N) (p : Fin 8000) (q : Fin 64) (r : Fin 1600000) (hr : r.val = t.val * 8000 + p.val) :
    ((cfg0.win 5).blk t).view.emb (ix2 p q) = ix2 r q := by
  obtain ⟨-, -, -, -, e0, e1, -⟩ := idx_rows0 t
  exact Shape.idx_ext₂ (by show win0_5.index t 0 * 8000 + 1 * p.val = r.val; omega)
    (by show win0_5.index t 1 * 64 + 1 * q.val = q.val; omega)

theorem flushed5_eq0 (t : Fin cfg0.N) :
    (dat0 (F := Ideal) V c).flushed 5 t = ((cfg0.win 5).blk t).view.read (Elt Ideal) (preArr0 V c) := by
  show (cfg0.win 5).cut (grid0.coords t) ((dat0 V c).after 5 t) = _
  rw [after0_5, View.canon_unit_zero zero2]
  funext y
  obtain ⟨p, q, rfl⟩ : ∃ (p : Fin 8000) (q : Fin 64), y = ix2 p q := ⟨y 0, y 1, eq_ix2 (n0 := 8000) (n1 := 64) y⟩
  have hp : t.val * 8000 + p.val < 1600000 := by have := lt_of_lt_of_eq t.isLt N_0; have := p.isLt; omega
  rw [View.read_apply, emb5_0 t p q ⟨_, hp⟩ rfl]
  exact preAt0_apply V c t p q ⟨_, hp⟩ rfl

theorem pre_arr0 (r : Fin 1600000) (j : Fin 64) :
    ((dat0 (F := Ideal) V c).arrAt 5 cfg0.N : S1600000x64.Idx → EReal) (ix2 r j) = P0 V c r j := by
  have hr := r.isLt
  let t : Fin cfg0.N := ⟨r.val / 8000, lt_of_lt_of_eq (by omega) N_0.symm⟩
  have h := (dat0 (F := Ideal) V c).arrAt_apply_of_mem 5 (preArr0 V c) (fun t _ => flushed5_eq0 V c t) cfg0.N t
    (((cfg0.win 5).blk t).view.emb (ix2 ⟨r.val % 8000, Nat.mod_lt _ (by omega)⟩ j)) t.isLt (flush0_5 t) (View.emb_mem_set _ _)
  rw [emb5_0 t _ j r (by show r.val = r.val / 8000 * 8000 + r.val % 8000; omega)] at h
  exact h

def rowP0 (g : EReal → EReal) (j : Fin 64) (i : ℕ) : EReal := if h : i < 1600000 then g (P0 V c ⟨i, h⟩ j) else 0

-- A total from zero that at each point takes on g of the block's column j over its rows ends at g summed over all rows: the blocks tile them.
theorem tot0_last (g : EReal → EReal) (step : Fin cfg0.N → Vec Ideal S1x64 .f32 → Vec Ideal S1x64 .f32)
    (z : Vec Ideal S1x64 .f32) (acc : ℕ → Vec Ideal S1x64 .f32) (j : Fin 64)
    (hstep : ∀ t a, step t a (ix2 0 j) = a (ix2 0 j) + ∑ p : Fin 8000, g (preAt0 V c t (ix2 p j)))
    (hz : z (ix2 0 j) = 0) (h0 : ∀ h, acc 0 = step ⟨0, h⟩ z) (hs : ∀ n h, acc (n + 1) = step ⟨n + 1, h⟩ (acc n)) :
    acc 199 (ix2 0 j) = ∑ r : Fin 1600000, g (P0 V c r j) := by
  have hb : ∀ t a, step t a (ix2 0 j) = a (ix2 0 j) + ∑ y ∈ Finset.range 8000, rowP0 V c g j (t.val * 8000 + y) := fun t a => by
    rw [hstep, Finset.sum_range]
    refine congrArg _ (Finset.sum_congr rfl fun p _ => ?_)
    have ht : t.val < 200 := lt_of_lt_of_eq t.isLt N_0
    have hp : t.val * 8000 + p.val < 1600000 := by have := p.isLt; omega
    rw [preAt0_apply V c t p j ⟨_, hp⟩ rfl, rowP0, dif_pos hp]
  have h := Cert.Alg.blocks_total 200 8000 (rowP0 V c g j) (fun n => acc n (ix2 0 j))
    ((congrFun (h0 (lt_of_lt_of_eq (by omega) N_0.symm)) _).trans ((hb _ _).trans (by rw [hz])))
    (fun k hk => (congrFun (hs k (lt_of_lt_of_eq hk N_0.symm)) _).trans (hb _ _)) 199 (by omega)
  exact (h.trans (Finset.sum_range _)).trans (Finset.sum_congr rfl fun r _ => dif_pos r.isLt)

theorem accS0_last (j : Fin 64) : accS0 V c 199 (ix2 0 j) = ∑ r : Fin 1600000, P0 V c r j :=
  tot0_last V c id (sumStep0 V c) (k0_pay2 (F := Ideal)) (accS0 V c) j
    (fun t a => tot_apply _ _ _ a (preAt0 V c t) j)
    (pay_zero j) (fun h => by rw [accS0, dif_pos h]) (fun n h => by rw [accS0, dif_pos h])

theorem accQ0_last (j : Fin 64) : accQ0 V c 199 (ix2 0 j) = ∑ r : Fin 1600000, P0 V c r j * P0 V c r j :=
  tot0_last V c (fun x => x * x) (sqStep0 V c) (k0_pay3 (F := Ideal)) (accQ0 V c) j
    (fun t a => tot_apply _ (.inl rfl) rfl a (mulf (preAt0 V c t) (preAt0 V c t)) j)
    (pay_zero j) (fun h => by rw [accQ0, dif_pos h]) (fun n h => by rw [accQ0, dif_pos h])

theorem idx_tot0 : ∀ t : Fin cfg0.N, win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem emb6_0 (t : Fin cfg0.N) (y : S1x64.Idx) : ((cfg0.win 6).blk t).view.emb y = y := by
  obtain ⟨e0, e1, -⟩ := idx_tot0 t
  exact Shape.idx_ext₂ (by show win0_6.index t 0 * 1 + 1 * (y 0).val = (y 0).val; omega)
    (by show win0_6.index t 1 * 64 + 1 * (y 1).val = (y 1).val; omega)

theorem emb7_0 (t : Fin cfg0.N) (y : S1x64.Idx) : ((cfg0.win 7).blk t).view.emb y = y := by
  obtain ⟨-, -, e0, e1⟩ := idx_tot0 t
  exact Shape.idx_ext₂ (by show win0_7.index t 0 * 1 + 1 * (y 0).val = (y 0).val; omega)
    (by show win0_7.index t 1 * 64 + 1 * (y 1).val = (y 1).val; omega)

theorem flushed6_eq0 (t : Fin cfg0.N) (hf : (cfg0.win 6).flush t = true) :
    (dat0 (F := Ideal) V c).flushed 6 t = ((cfg0.win 6).blk t).view.read (Elt Ideal) (accS0 V c 199) := by
  have h199 : t.val = 199 := by have := (flush0_6 t).mp hf; have := lt_of_lt_of_eq t.isLt N_0; omega
  show (cfg0.win 6).cut (grid0.coords t) ((dat0 V c).after 6 t) = _
  rw [after0_6, h199]
  funext y
  rw [View.read_apply, emb6_0]
  rfl

theorem flushed7_eq0 (t : Fin cfg0.N) (hf : (cfg0.win 7).flush t = true) :
    (dat0 (F := Ideal) V c).flushed 7 t = ((cfg0.win 7).blk t).view.read (Elt Ideal) (accQ0 V c 199) := by
  have h199 : t.val = 199 := by have := (flush0_7 t).mp hf; have := lt_of_lt_of_eq t.isLt N_0; omega
  show (cfg0.win 7).cut (grid0.coords t) ((dat0 V c).after 7 t) = _
  rw [after0_7, h199]
  funext y
  rw [View.read_apply, emb7_0]
  rfl

theorem sum_arr0 (j : Fin 64) :
    ((dat0 (F := Ideal) V c).arrAt 6 cfg0.N : S1x64.Idx → EReal) (ix2 0 j) = ∑ r : Fin 1600000, P0 V c r j := by
  let t : Fin cfg0.N := ⟨199, lt_of_lt_of_eq (by omega) N_0.symm⟩
  have h := (dat0 (F := Ideal) V c).arrAt_apply_of_mem 6 (accS0 V c 199) (flushed6_eq0 V c) cfg0.N t
    (((cfg0.win 6).blk t).view.emb (ix2 0 j)) t.isLt ((flush0_6 t).mpr rfl) (View.emb_mem_set _ _)
  rw [emb6_0] at h
  exact h.trans (accS0_last V c j)

theorem sq_arr0 (j : Fin 64) :
    ((dat0 (F := Ideal) V c).arrAt 7 cfg0.N : S1x64.Idx → EReal) (ix2 0 j) = ∑ r : Fin 1600000, P0 V c r j * P0 V c r j := by
  let t : Fin cfg0.N := ⟨199, lt_of_lt_of_eq (by omega) N_0.symm⟩
  have h := (dat0 (F := Ideal) V c).arrAt_apply_of_mem 7 (accQ0 V c 199) (flushed7_eq0 V c) cfg0.N t
    (((cfg0.win 7).blk t).view.emb (ix2 0 j)) t.isLt ((flush0_7 t).mpr rfl) (View.emb_mem_set _ _)
  rw [emb7_0] at h
  exact h.trans (accQ0_last V c j)

end Cert.KernelIdeal.Val

end
-- ==== Proof.KI.PaySecond.lean ====
import proofs.«429527_j52415780880560_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

-- The operands of the product at output (r, j) and contracted coordinate k sit at (r, k) and (k, j).
theorem matmul_rows_apply {n : ℕ} (D : DotDims ⟨2, ![n, 64]⟩ S64x64 ⟨2, ![n, 64]⟩) (hD : D = DotDims.plain n 64 64)
    (A : FVec Ideal ⟨2, ![n, 64]⟩ .bf16) (B : FVec Ideal S64x64 .bf16) (r : Fin n) (j : Fin 64) :
    matmul D none A B (constant (F := Ideal) ⟨2, ![n, 64]⟩ .f32 0x00000000#32) (ix2 r j) = ∑ k : Fin 64, A (ix2 r k) * B (ix2 k j) := by
  subst hD
  simp only [matmul]
  rw [Ideal.matmul_constant_zero_apply, ← Equiv.sum_comp (contrEquiv1 (DotDims.plain n 64 64) 64 rfl rfl).symm]
  refine Finset.sum_congr rfl fun k _ => ?_
  have hk := contrEquiv1_symm_val (DotDims.plain n 64 64) 64 rfl rfl k
  congr 2 <;> exact Shape.idx_ext₂ (by first | rfl | exact hk) (by first | rfl | exact hk)

-- At one element the product is a sum over the contracted coordinate and each one-row operand is read at its column.
theorem pay_second {n : ℕ} (D : DotDims ⟨2, ![n, 64]⟩ S64x64 ⟨2, ![n, 64]⟩) (hD : D = DotDims.plain n 64 64)
    (hb : S1x64.Broadcasts ⟨2, ![n, 64]⟩) (x0 : FVec Ideal ⟨2, ![n, 64]⟩ .f32) (x1 x2 x4 : FVec Ideal S1x64 .f32) (x3 : FVec Ideal S64x64 .f32)
    (r : Fin n) (j : Fin 64) :
    addf (F := Ideal) (matmul D none (truncf .bf16 (maximumf (addf (mulf x0 (broadcastTo _ x1 hb)) (broadcastTo _ x2 hb))
        (broadcast _ (Scalar.ofBits .f32 0x00000000#32))) bitsLt_bf16_f32) (truncf .bf16 x3 bitsLt_bf16_f32)
        (constant _ .f32 0x00000000#32)) (broadcastTo _ x4 hb) (ix2 r j)
      = (∑ k : Fin 64, max (x0 (ix2 r k) * x1 (ix2 0 k) + x2 (ix2 0 k)) 0 * x3 (ix2 k j)) + x4 (ix2 0 j) := by
  rw [addf_apply, matmul_rows_apply D hD, broadcastTo_1b_ab_apply]
  refine congrArg (· + x4 (ix2 0 j)) (Finset.sum_congr rfl fun k _ => ?_)
  rw [truncf_apply, truncf_apply, maximumf_apply, addf_apply, mulf_apply, broadcast_apply,
    broadcastTo_1b_ab_apply, broadcastTo_1b_ab_apply]
  show max (x0 (ix2 r k) * x1 (ix2 0 k) + x2 (ix2 0 k)) (Ideal.ofBits .f32 0x00000000#32) * x3 (ix2 k j) = _
  rw [Ideal.ofBits_zero_f32]

theorem pay_second_8000 (x0 : Vec Ideal S8000x64 .f32) (x1 x2 : Vec Ideal S1x64 .f32) (x3 : Vec Ideal S64x64 .f32)
    (x4 : Vec Ideal S1x64 .f32) (r : Fin 8000) (j : Fin 64) :
    k1_pay1 (F := Ideal) x0 x1 x2 x3 x4 (ix2 r j)
      = (∑ k : Fin 64, max (x0 (ix2 r k) * x1 (ix2 0 k) + x2 (ix2 0 k)) 0 * x3 (ix2 k j)) + x4 (ix2 0 j) := by
  unfold k1_pay1
  simp only [shapeCast_self]
  exact pay_second _ rfl _ x0 x1 x2 x4 x3 r j

theorem pay_second_10000 (x0 : Vec Ideal S10000x64 .f32) (x1 x2 : Vec Ideal S1x64 .f32) (x3 : Vec Ideal S64x64 .f32)
    (x4 : Vec Ideal S1x64 .f32) (r : Fin 10000) (j : Fin 64) :
    k3_pay1 (F := Ideal) x0 x1 x2 x3 x4 (ix2 r j)
      = (∑ k : Fin 64, max (x0 (ix2 r k) * x1 (ix2 0 k) + x2 (ix2 0 k)) 0 * x3 (ix2 k j)) + x4 (ix2 0 j) := by
  unfold k3_pay1
  simp only [shapeCast_self]
  exact pay_second _ rfl _ x0 x1 x2 x4 x3 r j

end Cert.KernelIdeal.Val

end
-- ==== Proof.KI.ValSecond1.lean ====
import proofs.«429527_j52415780880560_1_alg».proof.Proof.KI.Second1
import proofs.«429527_j52415780880560_1_alg».proof.Proof.KI.PaySecond
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

def G1 (a0 : S1600000x64.Idx → EReal) (a1 a2 : S1x64.Idx → EReal) (a3 : S64x64.Idx → EReal) (a4 : S1x64.Idx → EReal) :
    S1600000x64.Idx → EReal := fun i =>
  (∑ k : Fin 64, max (a0 (ix2 (i 0 : Fin 1600000) k) * a1 (ix2 0 k) + a2 (ix2 0 k)) 0 * a3 (ix2 k (i 1 : Fin 64))) + a4 (ix2 0 (i 1 : Fin 64))

theorem idx_facts1 : ∀ t : Fin cfg1.N,
    (win1_0.index t (0 : Fin 2) = t.val ∧ win1_0.index t (1 : Fin 2) = 0
    ∧ win1_5.index t (0 : Fin 2) = t.val ∧ win1_5.index t (1 : Fin 2) = 0)
    ∧ (∀ a, win1_1.index t a = 0) ∧ (∀ a, win1_2.index t a = 0) ∧ (∀ a, win1_3.index t a = 0) ∧ ∀ a, win1_4.index t a = 0 :=
  (by decide +kernel : ∀ t : Fin grid1.N, _)

theorem iblk1_0_apply (t : Fin cfg1.N) (r : Fin 8000) (k : Fin 64) (i : S1600000x64.Idx)
    (h0 : (i 0).val = 8000 * t.val + r.val) (h1 : (i 1).val = k.val) :
    (iblk1 V c 0 t : Vec Ideal S8000x64 .f32) (ix2 r k) = (V c (Pipeline.arrRef spec1 0) : S1600000x64.Idx → EReal) i := by
  obtain ⟨⟨e0, e1, -⟩, -⟩ := idx_facts1 t
  unfold iblk1
  rw [View.read_apply]
  show (V c (Pipeline.arrRef spec1 0) : S1600000x64.Idx → EReal) _ = _
  refine congrArg _ (funext fun a => Fin.ext ?_)
  match a with
  | ⟨0, _⟩ => show win1_0.index t (0 : Fin 2) * 8000 + 1 * r.val = (i 0).val; rw [e0, h0]; omega
  | ⟨1, _⟩ => show win1_0.index t (1 : Fin 2) * 64 + 1 * k.val = (i 1).val; rw [e1, h1]; omega

-- A block at index zero on every axis that is as large as its array is the array.
theorem iblk1_whole (t : Fin cfg1.N) :
    (∀ y, iblk1 V c 1 t y = V c (Pipeline.arrRef spec1 1) y) ∧ (∀ y, iblk1 V c 2 t y = V c (Pipeline.arrRef spec1 2) y)
      ∧ (∀ y, iblk1 V c 3 t y = V c (Pipeline.arrRef spec1 3) y) ∧ ∀ y, iblk1 V c 4 t y = V c (Pipeline.arrRef spec1 4) y := by
  obtain ⟨-, e1, e2, e3, e4⟩ := idx_facts1 t
  refine ⟨?_, ?_, ?_, ?_⟩ <;> intro y <;> refine (View.read_apply ..).trans (congrArg (V c _) (funext fun a => Fin.ext ?_))
  exacts [(cfg1.win 1).rect_emb_val_of_index_zero t a (e1 a) y, (cfg1.win 2).rect_emb_val_of_index_zero t a (e2 a) y,
    (cfg1.win 3).rect_emb_val_of_index_zero t a (e3 a) y, (cfg1.win 4).rect_emb_val_of_index_zero t a (e4 a) y]

theorem point_value1 (t : Fin cfg1.N) (r : Fin 8000) (j : Fin 64) (i : S1600000x64.Idx)
    (h0 : (i 0).val = 8000 * t.val + r.val) (h1 : (i 1).val = j.val) :
    k1_pay1 (F := Ideal) (iblk1 V c 0 t) (iblk1 V c 1 t) (iblk1 V c 2 t) (iblk1 V c 3 t) (iblk1 V c 4 t) (ix2 r j)
      = G1 (V c (Pipeline.arrRef spec1 0)) (V c (Pipeline.arrRef spec1 1)) (V c (Pipeline.arrRef spec1 2)) (V c (Pipeline.arrRef spec1 3)) (V c (Pipeline.arrRef spec1 4)) i := by
  obtain ⟨q1, q2, q3, q4⟩ := iblk1_whole V c t
  refine (pay_second_8000 (iblk1 V c 0 t) (iblk1 V c 1 t) (iblk1 V c 2 t) (iblk1 V c 3 t) (iblk1 V c 4 t) r j).trans ?_
  have hj : (i 1 : Fin 64) = j := Fin.ext h1
  unfold G1
  rw [hj, q4]
  refine congrArg (· + _) (Finset.sum_congr rfl fun k _ => ?_)
  rw [iblk1_0_apply V c t r k (ix2 (i 0 : Fin 1600000) k) h0 rfl, q1, q2, q3]

theorem flushed_eq1 (t : Fin cfg1.N) :
    (dat1 (F := Ideal) V c).flushed 5 t = ((cfg1.win 5).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  dsimp only [dat1]
  funext y
  rw [View.read_apply]
  obtain ⟨⟨-, -, e0, e1⟩, -⟩ := idx_facts1 t
  refine (congrArg _ (eq_ix2 _)).trans ?_
  refine point_value1 V c t _ _ _ ?_ ?_
  · show win1_5.index t (0 : Fin 2) * 8000 + 1 * (y 0).val = 8000 * t.val + (y 0).val
    rw [e0]; omega
  · show win1_5.index t (1 : Fin 2) * 64 + 1 * (y 1).val = (y 1).val
    rw [e1]; omega

theorem cover1 (i : S1600000x64.Idx) : ∃ t : Fin cfg1.N, (cfg1.win 5).flush t = true ∧ i ∈ ((cfg1.win 5).blk t).view.set := by
  have hi0 := idx2_lt0 i
  have hi1 := idx2_lt1 i
  have hN : cfg1.N = 200 := N_1
  obtain ⟨t, ht⟩ : ∃ t : Fin cfg1.N, t.val = (i 0).val / 8000 := ⟨⟨(i 0).val / 8000, by rw [hN]; omega⟩, rfl⟩
  obtain ⟨⟨-, -, e0, e1⟩, -⟩ := idx_facts1 t
  refine ⟨t, flush1_5 t, ?_⟩
  show i ∈ ((View.whole main_v28).slice (win1_5.rect t)).set
  rw [View.set_slice_whole, Rect.mem_set_unit]
  intro a
  match a with
  | ⟨0, _⟩ =>
    show win1_5.index t (0 : Fin 2) * 8000 ≤ (i 0).val ∧ (i 0).val < win1_5.index t (0 : Fin 2) * 8000 + 8000
    rw [e0, ht]; omega
  | ⟨1, _⟩ =>
    show win1_5.index t (1 : Fin 2) * 64 ≤ (i 1).val ∧ (i 1).val < win1_5.index t (1 : Fin 2) * 64 + 64
    rw [e1]; omega

theorem out_arr1 (Y0 : S1600000x64.Idx → EReal) (Y1 Y2 : S1x64.Idx → EReal) (Y3 : S64x64.Idx → EReal) (Y4 : S1x64.Idx → EReal)
    (h0 : Y0 = V c (Pipeline.arrRef spec1 0)) (h1 : Y1 = V c (Pipeline.arrRef spec1 1)) (h2 : Y2 = V c (Pipeline.arrRef spec1 2))
    (h3 : Y3 = V c (Pipeline.arrRef spec1 3)) (h4 : Y4 = V c (Pipeline.arrRef spec1 4)) (r : Fin 1600000) (j : Fin 64) :
    ((dat1 (F := Ideal) V c).arrAt 5 cfg1.N : S1600000x64.Idx → EReal) (ix2 r j)
      = (∑ k : Fin 64, max (Y0 (ix2 r k) * Y1 (ix2 0 k) + Y2 (ix2 0 k)) 0 * Y3 (ix2 k j)) + Y4 (ix2 0 j) := by
  subst h0 h1 h2 h3 h4
  exact congrFun ((dat1 (F := Ideal) V c).arrAt_eq_of_cover 5 (G1 _ _ _ _ _) (fun t _ => flushed_eq1 V c t) cover1) (ix2 r j)

end Cert.KernelIdeal.Val

end
-- ==== Proof.LibGatherScatter.lean ====
import Idealize.ShloMosaic.PureOps.Ideal
import Idealize.ShloMosaic.Lib.ValueIdx
import Idealize.ShloMosaic.Lib.StableHlo.Predicate
import proofs.«429527_j52415780880560_1_alg».proof.Proof.SpecBase

noncomputable section

open scoped BigOperators

namespace Cert.LibGS

open Idealize.ShloMosaic Idealize.ShloMosaic.ValueIdx Cert.Spec

section GatherRows

variable {N n C : Nat} (d : GatherDims (Sh N C) (Sh n 1) (Sh n C))

theorem ix2_val_zero {a b : Nat} (e : Fin a) (c : Fin b) (X : Fin 2) (h : X = 0) : (ix2 e c X).val = e.val := by
  subst h; rfl

theorem ix2_val_one {a b : Nat} (e : Fin a) (c : Fin b) (X : Fin 2) (h : X = 1) : (ix2 e c X).val = c.val := by
  subst h; rfl

theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

theorem ix1_eq_ofFin {n : Nat} (e : Fin n) : ix1 e = Shape.Idx.ofFin e := by
  funext a
  match a with
  | ⟨0, _⟩ => exact Fin.ext rfl

theorem ixP_eq_ix2 {n : Nat} (e : Fin n) : StableHlo.Predicate.ixP e = ix2 e (0 : Fin 1) := by
  funext a
  match a with
  | ⟨0, _⟩ => rfl
  | ⟨1, _⟩ => rfl

theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

section ScatterVec
variable {N n : Nat} (d : ScatterDims ⟨1, ![N]⟩ (Sh n 1) ⟨1, ![n]⟩)

theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.KI.HostA.lean ====
import proofs.«429527_j52415780880560_1_alg».proof.Proof.Gen.KernelIdeal.Launch
import proofs.«429527_j52415780880560_1_alg».proof.Proof.Spec
import proofs.«429527_j52415780880560_1_alg».proof.Proof.SpecGraph
import proofs.«429527_j52415780880560_1_alg».proof.Proof.LibGatherScatter
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx Idealize.SL.Sem

variable (W : Valuation τ sig (Elt Ideal))

abbrev A : Valuation τ sig (Elt Ideal) :=
  StableHlo.after (hostOps0_2 (F := Ideal)) (StableHlo.after (hostOps0_1 (F := Ideal)) (StableHlo.after (hostOps0 (F := Ideal)) W))

theorem cast_self {α : Sort _} (h : α = α) (a : α) : cast h a = a := eq_of_heq (cast_heq h a)

theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons.2 (Or.inl rfl)), ih (fun i hi => hf i (Finset.mem_cons.2 (Or.inr hi)))]
    rfl

theorem select_slt_eq_wrap (w : BitVec 32) :
    Scalar.select (IntOp.cmpi .slt w 0#32) (IntOp.addi w 100000#32) w = Cert.Spec.wrapWord w := by
  unfold Cert.Spec.wrapWord
  show (if BitVec.ofBool (w.slt 0#32) = 1#1 then w + 100000#32 else w) = _
  cases h : w.slt 0#32 <;> rfl

theorem toInt_add_rows (w : BitVec 32) (h0 : (-100000 : ℤ) ≤ w.toInt) (h1 : w.toInt < 0) :
    (w + 100000#32).toInt = w.toInt + 100000 := by
  rw [BitVec.toInt_add, show (100000#32 : BitVec 32).toInt = 100000 by decide]
  rw [Int.bmod_def]; split <;> omega

theorem wrap_range (w : BitVec 32) (h0 : (-100000 : ℤ) ≤ w.toInt) (h1 : w.toInt < 100000) :
    0 ≤ (Cert.Spec.wrapWord w).toInt ∧ (Cert.Spec.wrapWord w).toInt ≤ 99999 := by
  unfold Cert.Spec.wrapWord
  have hz : (0#32 : BitVec 32).toInt = 0 := by decide
  by_cases hs : w.slt 0#32 = true
  · rw [if_pos hs]
    have hneg : w.toInt < 0 := by
      have h2 : decide (w.toInt < (0#32 : BitVec 32).toInt) = true := hs
      rw [hz] at h2
      exact of_decide_eq_true h2
    rw [toInt_add_rows w h0 hneg]
    omega
  · rw [if_neg hs]
    have hnn : ¬ w.toInt < 0 := by
      intro hlt
      apply hs
      show decide (w.toInt < (0#32 : BitVec 32).toInt) = true
      rw [hz]
      exact decide_eq_true hlt
    omega

theorem sge_zero_of_nonneg (n : BitVec 32) (h : 0 ≤ n.toInt) : IntOp.cmpi .sge n 0#32 = 1#1 := by
  show BitVec.ofBool ((0#32 : BitVec 32).sle n) = 1#1
  refine (StableHlo.Predicate.ofBool_eq_one_iff _).2 ?_
  show decide ((0#32 : BitVec 32).toInt ≤ n.toInt) = true
  rw [show (0#32 : BitVec 32).toInt = 0 by decide]
  exact decide_eq_true h

theorem sle_of_le (n : BitVec 32) (h : n.toInt ≤ 99999) : IntOp.cmpi .sle n 99999#32 = 1#1 := by
  show BitVec.ofBool (n.sle 99999#32) = 1#1
  refine (StableHlo.Predicate.ofBool_eq_one_iff _).2 ?_
  show decide (n.toInt ≤ (99999#32 : BitVec 32).toInt) = true
  rw [show (99999#32 : BitVec 32).toInt = 99999 by decide]
  exact decide_eq_true h

def normF (S : S1600000.Idx → BitVec 32) : S1600000.Idx → BitVec 32 :=
  select (cmpi .slt S (broadcastInDim S1600000 ![] bcast_S_S1600000 (constantI S_ 32 0#32)))
    (addi S (broadcastInDim S1600000 ![] bcast_S_S1600000 (constantI S_ 32 100000#32))) S

def colF (S : S1600000.Idx → BitVec 32) : S1600000x1.Idx → BitVec 32 :=
  broadcastInDim S1600000x1 ![0] bcast_S1600000_S1600000x1_0 (normF S)

def okF (S : S1600000.Idx → BitVec 32) : S1600000.Idx → BitVec 1 :=
  Host.reduce IntOp.andi
    (andi
      (cmpi .sge (colF S) (broadcastInDim S1600000x1 ![] bcast_S_S1600000x1 (constantI S_ 32 0#32)))
      (cmpi .sle (colF S) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def rowsF (X : S100000x3.Idx → EReal) (S : S1600000.Idx → BitVec 32) : S1600000x3.Idx → EReal :=
  select (broadcastInDim S1600000x3 ![0] bcast_S1600000_S1600000x3_0 (okF S))
    (Host.gather gather_S100000x3_S1600000x1_S1600000x3_1_0_n_n_0_1_13 X (colF S))
    (broadcastInDim S1600000x3 ![] bcast_S_S1600000x3 (constant (F := Ideal) S_ .f32 0x7FC00000#32))

section AtAnEntry
variable (X : S100000x3.Idx → EReal) (S : S1600000.Idx → BitVec 32)

theorem normF_apply (e : Fin 1600000) : normF S (ix1 e) = Cert.Spec.wrapWord (S (ix1 e)) := by
  have h : normF S (ix1 e)
      = Scalar.select (IntOp.cmpi .slt (S (ix1 e)) 0#32) (IntOp.addi (S (ix1 e)) 100000#32) (S (ix1 e)) := rfl
  rw [h]
  exact select_slt_eq_wrap _

theorem colF_apply (e : Fin 1600000) (q : Fin 1) : colF S (ix2 e q) = normF S (ix1 e) := by
  unfold colF
  refine broadcastInDim_apply _ _ _ (ix2 e q) (ix1 e) (fun a => ?_)
  match a with
  | ⟨0, _⟩ =>
    show e.val = if (1600000 : Nat) = 1 then 0 else e.val
    rw [if_neg (by decide)]

theorem bcast_rows3_apply {α : Type} (v : S1600000.Idx → α) (e : Fin 1600000) (k : Fin 3) :
    broadcastInDim S1600000x3 ![0] bcast_S1600000_S1600000x3_0 v (ix2 e k) = v (ix1 e) := by
  refine broadcastInDim_apply _ _ _ (ix2 e k) (ix1 e) (fun a => ?_)
  match a with
  | ⟨0, _⟩ =>
    show e.val = if (1600000 : Nat) = 1 then 0 else e.val
    rw [if_neg (by decide)]

theorem okF_apply (e : Fin 1600000) (h0 : 0 ≤ (normF S (ix1 e)).toInt) (h1 : (normF S (ix1 e)).toInt ≤ 99999) :
    okF S (ix1 e) = 1#1 := by
  unfold okF
  rw [Host.reduce_eq_fold]
  refine fold_andi_one _ _ (fun i hi => ?_)
  have hi' : reducesTo_S1600000x1_S1600000_d1.drop i = ix1 e := (Finset.mem_filter.1 hi).2
  obtain ⟨p, q, rfl⟩ : ∃ (p : Fin 1600000) (q : Fin 1), i = ix2 p q := ⟨i 0, i 1, eq_ix2 i⟩
  have hv : ((reducesTo_S1600000x1_S1600000_d1.drop (ix2 p q)) 0 : Nat) = p.val :=
    Shape.ReducesTo.drop_apply_val reducesTo_S1600000x1_S1600000_d1 (ix2 p q) 0
  have hp : p = e := by
    refine Fin.ext ?_
    rw [← hv, hi']
  subst hp
  show IntOp.andi (IntOp.cmpi .sge (colF S (ix2 p q)) 0#32) (IntOp.cmpi .sle (colF S (ix2 p q)) 99999#32) = 1#1
  rw [colF_apply, sge_zero_of_nonneg _ h0, sle_of_le _ h1]
  rfl

theorem rowsF_apply (e : Fin 1600000) (k : Fin 3)
    (h0 : (-100000 : ℤ) ≤ (S (ix1 e)).toInt) (h1 : (S (ix1 e)).toInt < 100000) :
    rowsF X S (ix2 e k)
      = X (ix2 (Cert.Spec.rowOf 100000 (by decide) (Cert.Spec.wrapWord (S (ix1 e)))) k) := by
  have hn := wrap_range _ h0 h1
  rw [← normF_apply S e] at hn
  have hok : okF S (ix1 e) = 1#1 := okF_apply S e hn.1 hn.2
  show Scalar.select (broadcastInDim S1600000x3 ![0] bcast_S1600000_S1600000x3_0 (okF S) (ix2 e k))
      (Host.gather gather_S100000x3_S1600000x1_S1600000x3_1_0_n_n_0_1_13 X (colF S) (ix2 e k))
      (broadcastInDim S1600000x3 ![] bcast_S_S1600000x3 (constant (F := Ideal) S_ .f32 0x7FC00000#32) (ix2 e k)) = _
  rw [bcast_rows3_apply, hok, select_one]
  refine (Cert.LibGS.gather_rows_gen (N := 100000) (n := 1600000) (C := 3)
    gather_S100000x3_S1600000x1_S1600000x3_1_0_n_n_0_1_13 (by decide) rfl rfl rfl rfl rfl rfl
    X (colF S) e k).trans ?_
  rw [colF_apply, normF_apply]

end AtAnEntry

def startV : S1600000.Idx → BitVec 32 :=
  shapeCast S1600000 (extractStridedSlice S1x1600000 ![0, 0] (W (Proc.devRef .tc main_arg1) : S2x1600000.Idx → BitVec 32) slices_S2x1600000_S1x1600000_0_0) shapeCasts_S1x1600000_S1600000

theorem startV_apply (e : Fin 1600000) :
    startV W (ix1 e) = (W (Proc.devRef .tc main_arg1) : S2x1600000.Idx → BitVec 32) (ix2 0 e) := by
  unfold startV
  refine (shapeCast_1a_a_apply _ _ e).trans ?_
  exact slice2_axis0_apply 0 _ _ (0 : Fin 1) e (0 : Fin 2) rfl

theorem start_term : (StableHlo.after (hostOps0 (F := Ideal)) W (Proc.devRef .tc main_v1) : S1600000.Idx → BitVec 32) = startV W := by
  show StableHlo.after (hostOps0 (F := Ideal)) W (Proc.devRef .tc main_v1) = _
  after_results
  rfl

theorem table_term : StableHlo.after (hostOps0 (F := Ideal)) W (Proc.devRef .tc main_arg0) = W (Proc.devRef .tc main_arg0) := by
  after_results

theorem take_term (V : Valuation τ sig (Elt Ideal)) :
    (StableHlo.after (hostOps0_1 (F := Ideal)) V (Proc.devRef .tc main_v4) : S1600000x3.Idx → EReal)
      = rowsF (V (Proc.devRef .tc main_arg0) : S100000x3.Idx → EReal) (V (Proc.devRef .tc main_v1)) := by
  show StableHlo.after (hostOps0_1 (F := Ideal)) V (Proc.devRef .tc main_v4) = _
  after_results_simp
  simp only [StableHlo.TRef.ofBuf, StableHlo.TRef.toBuf, cast_self]
  rfl

theorem keep_term (V : Valuation τ sig (Elt Ideal)) :
    StableHlo.after (hostOps0_2 (F := Ideal)) V (Proc.devRef .tc main_v4) = V (Proc.devRef .tc main_v4) := by
  after_results

theorem rows_term : (A W (Proc.devRef .tc main_v4) : S1600000x3.Idx → EReal)
    = rowsF (W (Proc.devRef .tc main_arg0) : S100000x3.Idx → EReal) (startV W) := by
  show StableHlo.after (hostOps0_2 (F := Ideal)) (StableHlo.after (hostOps0_1 (F := Ideal)) (StableHlo.after (hostOps0 (F := Ideal)) W)) (Proc.devRef .tc main_v4) = _
  rw [keep_term, take_term, start_term, table_term]

theorem hostA_rows
    (hr : ∀ e : Fin 1600000, (-100000 : ℤ) ≤ ((W (Proc.devRef .tc main_arg1) : S2x1600000.Idx → BitVec 32) (ix2 0 e)).toInt
      ∧ ((W (Proc.devRef .tc main_arg1) : S2x1600000.Idx → BitVec 32) (ix2 0 e)).toInt < 100000)
    (e : Fin 1600000) (k : Fin 3) :
    (A W (Proc.devRef .tc main_v4) : S1600000x3.Idx → EReal) (ix2 e k)
      = Cert.Spec.gatherRows (fun r k => (W (Proc.devRef .tc main_arg0) : S100000x3.Idx → EReal) (ix2 r k))
          (fun e => (W (Proc.devRef .tc main_arg1) : S2x1600000.Idx → BitVec 32) (ix2 0 e)) e k := by
  have hs := startV_apply W e
  refine (congrFun (rows_term W) (ix2 e k)).trans ?_
  refine (rowsF_apply _ _ e k (by rw [hs]; exact (hr e).1) (by rw [hs]; exact (hr e).2)).trans ?_
  rw [hs]
  rfl

end Cert.KernelIdeal.Val

end
-- ==== Proof.KI.HostAs.lean ====
import proofs.«429527_j52415780880560_1_alg».proof.Proof.Gen.KernelIdeal.Launch
import proofs.«429527_j52415780880560_1_alg».proof.Proof.KI.HostA
import proofs.«429527_j52415780880560_1_alg».proof.Proof.Spec
import proofs.«429527_j52415780880560_1_alg».proof.Proof.SpecGraph
import proofs.«429527_j52415780880560_1_alg».proof.Proof.LibGatherScatter
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx Idealize.SL.Sem

variable (W : Valuation τ sig (Elt Ideal))

theorem hostA_ends (e : Fin 1600000) :
    (A W (Proc.devRef .tc main_v3) : S1600000.Idx → BitVec 32) (ix1 e)
      = (W (Proc.devRef .tc main_arg1) : S2x1600000.Idx → BitVec 32) (ix2 1 e) := by
  have h : (A W (Proc.devRef .tc main_v3) : S1600000.Idx → BitVec 32)
      = shapeCast S1600000 (extractStridedSlice S1x1600000 ![1, 0] (W (Proc.devRef .tc main_arg1) : S2x1600000.Idx → BitVec 32) slices_S2x1600000_S1x1600000_1_0) shapeCasts_S1x1600000_S1600000 := by
    show StableHlo.after (hostOps0_2 (F := Ideal)) (StableHlo.after (hostOps0_1 (F := Ideal)) (StableHlo.after (hostOps0 (F := Ideal)) W)) (Proc.devRef .tc main_v3) = _
    after_results
    rfl
  refine (congrFun h (ix1 e)).trans ?_
  refine (shapeCast_1a_a_apply _ _ e).trans ?_
  exact slice2_axis0_apply 1 _ _ (0 : Fin 1) e (1 : Fin 2) rfl

theorem hostA_wa (k : Fin 3) (j : Fin 64) :
    (A W (Proc.devRef .tc main_v5) : S3x64.Idx → EReal) (ix2 k j)
      = (W (Proc.devRef .tc main_arg5) : S67x64.Idx → EReal) (ix2 (Fin.cast (by decide) (Fin.castAdd 64 k)) j) := by
  have h : (A W (Proc.devRef .tc main_v5) : S3x64.Idx → EReal)
      = extractStridedSlice S3x64 ![0, 0] (W (Proc.devRef .tc main_arg5) : S67x64.Idx → EReal) slices_S67x64_S3x64_0_0 := by
    show StableHlo.after (hostOps0_2 (F := Ideal)) (StableHlo.after (hostOps0_1 (F := Ideal)) (StableHlo.after (hostOps0 (F := Ideal)) W)) (Proc.devRef .tc main_v5) = _
    after_results
  refine (congrFun h (ix2 k j)).trans ?_
  exact slice2_axis0_apply 0 _ _ k j _ (Nat.zero_add _).symm

theorem hostA_wb (k : Fin 64) (j : Fin 64) :
    (A W (Proc.devRef .tc main_v6) : S64x64.Idx → EReal) (ix2 k j)
      = (W (Proc.devRef .tc main_arg5) : S67x64.Idx → EReal) (ix2 (Fin.cast (by decide) (Fin.natAdd 3 k)) j) := by
  have h : (A W (Proc.devRef .tc main_v6) : S64x64.Idx → EReal)
      = extractStridedSlice S64x64 ![3, 0] (W (Proc.devRef .tc main_arg5) : S67x64.Idx → EReal) slices_S67x64_S64x64_3_0 := by
    show StableHlo.after (hostOps0_2 (F := Ideal)) (StableHlo.after (hostOps0_1 (F := Ideal)) (StableHlo.after (hostOps0 (F := Ideal)) W)) (Proc.devRef .tc main_v6) = _
    after_results
  refine (congrFun h (ix2 k j)).trans ?_
  exact slice2_axis0_apply 3 _ _ k j _ rfl

theorem hostA_wa2 (k : Fin 3) (j : Fin 64) :
    (A W (Proc.devRef .tc main_v7) : S3x64.Idx → EReal) (ix2 k j)
      = (W (Proc.devRef .tc main_arg11) : S67x64.Idx → EReal) (ix2 (Fin.cast (by decide) (Fin.castAdd 64 k)) j) := by
  have h : (A W (Proc.devRef .tc main_v7) : S3x64.Idx → EReal)
      = extractStridedSlice S3x64 ![0, 0] (W (Proc.devRef .tc main_arg11) : S67x64.Idx → EReal) slices_S67x64_S3x64_0_0 := by
    show StableHlo.after (hostOps0_2 (F := Ideal)) (StableHlo.after (hostOps0_1 (F := Ideal)) (StableHlo.after (hostOps0 (F := Ideal)) W)) (Proc.devRef .tc main_v7) = _
    after_results
  refine (congrFun h (ix2 k j)).trans ?_
  exact slice2_axis0_apply 0 _ _ k j _ (Nat.zero_add _).symm

theorem hostA_wb2 (k : Fin 64) (j : Fin 64) :
    (A W (Proc.devRef .tc main_v8) : S64x64.Idx → EReal) (ix2 k j)
      = (W (Proc.devRef .tc main_arg11) : S67x64.Idx → EReal) (ix2 (Fin.cast (by decide) (Fin.natAdd 3 k)) j) := by
  have h : (A W (Proc.devRef .tc main_v8) : S64x64.Idx → EReal)
      = extractStridedSlice S64x64 ![3, 0] (W (Proc.devRef .tc main_arg11) : S67x64.Idx → EReal) slices_S67x64_S64x64_3_0 := by
    show StableHlo.after (hostOps0_2 (F := Ideal)) (StableHlo.after (hostOps0_1 (F := Ideal)) (StableHlo.after (hostOps0 (F := Ideal)) W)) (Proc.devRef .tc main_v8) = _
    after_results
  refine (congrFun h (ix2 k j)).trans ?_
  exact slice2_axis0_apply 3 _ _ k j _ rfl

theorem hostA_bias (j : Fin 64) :
    (A W (Proc.devRef .tc main_v9) : S1x64.Idx → EReal) (ix2 0 j)
      = (W (Proc.devRef .tc main_arg6) : S64.Idx → EReal) (ix1 j) := by
  have h : (A W (Proc.devRef .tc main_v9) : S1x64.Idx → EReal)
      = shapeCast S1x64 (W (Proc.devRef .tc main_arg6) : S64.Idx → EReal) shapeCasts_S64_S1x64 := by
    show StableHlo.after (hostOps0_2 (F := Ideal)) (StableHlo.after (hostOps0_1 (F := Ideal)) (StableHlo.after (hostOps0 (F := Ideal)) W)) (Proc.devRef .tc main_v9) = _
    after_results
    rfl
  refine (congrFun h (ix2 0 j)).trans ?_
  exact shapeCast_a_1a_apply _ _ (0 : Fin 1) j

end Cert.KernelIdeal.Val

end
-- ==== Proof.KI.HostB.lean ====
import proofs.«429527_j52415780880560_1_alg».proof.Proof.Gen.KernelIdeal.Launch
import proofs.«429527_j52415780880560_1_alg».proof.Proof.Spec
import proofs.«429527_j52415780880560_1_alg».proof.Proof.SpecGraph
import proofs.«429527_j52415780880560_1_alg».proof.Proof.Consts
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Val

open Idealize.ShloMosaic Idealize.ShloMosaic.ValueIdx Idealize.ShloMosaic.TcCoe Idealize.ShloMosaic.StableHlo Cert.KernelIdeal Cert.KernelIdeal.Gen

variable (W : Valuation τ sig (Elt Ideal))

def meanVec (cw : BitVec 32) (T : FVec Ideal S1x64 .f32) : FVec Ideal S64 .f32 :=
  Host.divf (shapeCast S64 T shapeCasts_S1x64_S64) (broadcastInDim S64 ![] bcast_S_S64 (constant (F := Ideal) S_ .f32 cw))

def scaleVec (cw : BitVec 32) (S Q : FVec Ideal S1x64 .f32) (g : FVec Ideal S64 .f32) : FVec Ideal S64 .f32 :=
  mulf g (Host.rsqrt (addf (subf (meanVec cw Q) (mulf (meanVec cw S) (meanVec cw S)))
    (broadcastInDim S64 ![] bcast_S_S64 (constant (F := Ideal) S_ .f32 0x3727C5AC#32))))

def shiftVec (cw : BitVec 32) (S Q : FVec Ideal S1x64 .f32) (g be : FVec Ideal S64 .f32) : FVec Ideal S64 .f32 :=
  subf be (mulf (meanVec cw S) (scaleVec cw S Q g))

theorem meanVec_apply (cw : BitVec 32) (c : ℝ) (hc : c ≠ 0) (hw : Ideal.ofBits .f32 cw = (c : EReal))
    (T : FVec Ideal S1x64 .f32) (j : Fin 64) : meanVec cw T (ix1 j) = T (ix2 0 j) / (c : EReal) := by
  show Ideal.div (shapeCast S64 T shapeCasts_S1x64_S64 (ix1 j)) (Ideal.ofBits .f32 cw) = _
  rw [shapeCast_1a_a_apply, hw, Cert.Consts.div_real _ _ hc]

theorem scaleVec_apply (cw : BitVec 32) (c : ℝ) (hc : c ≠ 0) (hw : Ideal.ofBits .f32 cw = (c : EReal))
    (S Q : FVec Ideal S1x64 .f32) (g : FVec Ideal S64 .f32) (j : Fin 64) :
    scaleVec cw S Q g (ix1 j)
      = Cert.Spec.scaleK Ideal.rsqrt (c : EReal) Cert.Consts.epsE (fun j => S (ix2 0 j)) (fun j => Q (ix2 0 j)) (fun j => g (ix1 j)) j := by
  show g (ix1 j) * Ideal.rsqrt ((meanVec cw Q (ix1 j) - meanVec cw S (ix1 j) * meanVec cw S (ix1 j)) + Ideal.ofBits .f32 0x3727C5AC#32) = _
  rw [meanVec_apply cw c hc hw, meanVec_apply cw c hc hw]
  rfl

theorem shiftVec_apply (cw : BitVec 32) (c : ℝ) (hc : c ≠ 0) (hw : Ideal.ofBits .f32 cw = (c : EReal))
    (S Q : FVec Ideal S1x64 .f32) (g be : FVec Ideal S64 .f32) (j : Fin 64) :
    shiftVec cw S Q g be (ix1 j)
      = Cert.Spec.shiftK Ideal.rsqrt (c : EReal) Cert.Consts.epsE (fun j => S (ix2 0 j)) (fun j => Q (ix2 0 j)) (fun j => g (ix1 j))
          (fun j => be (ix1 j)) j := by
  show be (ix1 j) - meanVec cw S (ix1 j) * scaleVec cw S Q g (ix1 j) = _
  rw [meanVec_apply cw c hc hw, scaleVec_apply cw c hc hw]
  rfl

theorem hostB_scale (j : Fin 64) :
    (StableHlo.after (hostOps1 (F := Ideal)) W (Proc.devRef .tc main_v25) : S1x64.Idx → EReal) (ix2 0 j)
      = Cert.Spec.scaleK Ideal.rsqrt ((1600000 : ℝ) : EReal) Cert.Consts.epsE
          (fun j => (W (Proc.devRef .tc main_v10_1) : S1x64.Idx → EReal) (ix2 0 j))
          (fun j => (W (Proc.devRef .tc main_v10_2) : S1x64.Idx → EReal) (ix2 0 j))
          (fun j => (W (Proc.devRef .tc main_arg7) : S64.Idx → EReal) (ix1 j)) j := by
  have e : (StableHlo.after (hostOps1 (F := Ideal)) W (Proc.devRef .tc main_v25) : S1x64.Idx → EReal)
      = shapeCast S1x64 (scaleVec 0x49C35000#32 (W (Proc.devRef .tc main_v10_1)) (W (Proc.devRef .tc main_v10_2)) (W (Proc.devRef .tc main_arg7)))
          shapeCasts_S64_S1x64 := by
    after_results_simp
    rfl
  rw [e]
  refine (shapeCast_a_1a_apply _ _ 0 j).trans ?_
  exact scaleVec_apply 0x49C35000#32 1600000 (by norm_num) Cert.Consts.ofBits_1600000 _ _ _ j

theorem hostB_shift (j : Fin 64) :
    (StableHlo.after (hostOps1 (F := Ideal)) W (Proc.devRef .tc main_v26) : S1x64.Idx → EReal) (ix2 0 j)
      = Cert.Spec.shiftK Ideal.rsqrt ((1600000 : ℝ) : EReal) Cert.Consts.epsE
          (fun j => (W (Proc.devRef .tc main_v10_1) : S1x64.Idx → EReal) (ix2 0 j))
          (fun j => (W (Proc.devRef .tc main_v10_2) : S1x64.Idx → EReal) (ix2 0 j))
          (fun j => (W (Proc.devRef .tc main_arg7) : S64.Idx → EReal) (ix1 j))
          (fun j => (W (Proc.devRef .tc main_arg8) : S64.Idx → EReal) (ix1 j)) j := by
  have e : (StableHlo.after (hostOps1 (F := Ideal)) W (Proc.devRef .tc main_v26) : S1x64.Idx → EReal)
      = shapeCast S1x64 (shiftVec 0x49C35000#32 (W (Proc.devRef .tc main_v10_1)) (W (Proc.devRef .tc main_v10_2)) (W (Proc.devRef .tc main_arg7))
          (W (Proc.devRef .tc main_arg8))) shapeCasts_S64_S1x64 := by
    after_results_simp
    rfl
  rw [e]
  refine (shapeCast_a_1a_apply _ _ 0 j).trans ?_
  exact shiftVec_apply 0x49C35000#32 1600000 (by norm_num) Cert.Consts.ofBits_1600000 _ _ _ _ j

theorem hostB_bias (j : Fin 64) :
    (StableHlo.after (hostOps1 (F := Ideal)) W (Proc.devRef .tc main_v27) : S1x64.Idx → EReal) (ix2 0 j)
      = (W (Proc.devRef .tc main_arg10) : S64.Idx → EReal) (ix1 j) := by
  have e : (StableHlo.after (hostOps1 (F := Ideal)) W (Proc.devRef .tc main_v27) : S1x64.Idx → EReal)
      = shapeCast S1x64 (W (Proc.devRef .tc main_arg10) : S64.Idx → EReal) shapeCasts_S64_S1x64 := by
    after_results_simp
    rfl
  rw [e]
  exact shapeCast_a_1a_apply _ _ 0 j

end Cert.KernelIdeal.Val

end
-- ==== Proof.SegMeanScatter.lean ====
import proofs.«429527_j52415780880560_1_alg».proof.Proof.LibGatherScatter
import proofs.«429527_j52415780880560_1_alg».proof.Proof.SpecGraph
import proofs.«429527_j52415780880560_1_alg».proof.Proof.Consts

noncomputable section

open scoped BigOperators

namespace Cert.LibGS2

open Idealize.ShloMosaic Idealize.ShloMosaic.ValueIdx Cert.Spec Cert.LibGS

theorem filter_words {n N : ℕ} (idx : IVec (Sh n 1) 32) (w : Fin n → BitVec 32)
    (hidx : ∀ e, idx (ix2 e 0) = w e) (i : Fin N) :
    Finset.univ.filter (fun e : Fin n => (idx (ix2 e 0)).toInt = (i.val : ℤ))
      = Finset.univ.filter (fun e : Fin n => (w e).toInt = (i.val : ℤ)) :=
  Finset.filter_congr fun e _ => by rw [hidx e]

theorem segMean_of_scatters {n N : ℕ}
    (d1 : ScatterDims (Sh N 64) (Sh n 1) (Sh n 64)) (huw1 : d1.updateWindowDims = [1])
    (hiw1 : d1.insertedWindowDims = [0]) (hsd1 : d1.scatterDimsToOperandDims = [0]) (hivd1 : d1.indexVectorDim = 1)
    (d2 : ScatterDims ⟨1, ![N]⟩ (Sh n 1) ⟨1, ![n]⟩) (hiw2 : d2.insertedWindowDims = [0])
    (hsd2 : d2.scatterDimsToOperandDims = [0]) (hivd2 : d2.indexVectorDim = 1)
    (z1 : RArr N 64) (hz1 : ∀ i, z1 i = 0) (z2 : (⟨1, ![N]⟩ : Shape).Idx → EReal) (hz2 : ∀ i, z2 i = 0)
    (idx1 idx2 : IVec (Sh n 1) 32) (w : Fin n → BitVec 32)
    (hidx1 : ∀ e, idx1 (ix2 e 0) = w e) (hidx2 : ∀ e, idx2 (ix2 e 0) = w e)
    (h : RArr n 64) (ones : (⟨1, ![n]⟩ : Shape).Idx → EReal) (hones : ∀ e, ones e = 1)
    (one : EReal) (hone : one = 1) (i : Fin N) (c : Fin 64) :
    Ideal.div (Ideal.hostScatterAdd d1 z1 idx1 h (ix2 i c)) (max (Ideal.hostScatterAdd d2 z2 idx2 ones (ix1 i)) one)
      = Cert.Spec.segMean (fun e k => h (ix2 e k)) (fun e => (w e).toInt) i c := by
  rw [scatterAdd_rows_gen d1 huw1 hiw1 hsd1 hivd1 z1 idx1 h i c,
    scatterAdd_vec_gen d2 hiw2 hsd2 hivd2 z2 idx2 ones i, hz1, hz2, zero_add, zero_add, hone,
    Cert.Consts.div_max1, filter_words idx1 w hidx1 i, filter_words idx2 w hidx2 i]
  unfold Cert.Spec.segMean
  congr 2
  exact Finset.sum_congr rfl fun e _ => hones (ix1 e)

end Cert.LibGS2

end
-- ==== Proof.KI.HostC.lean ====
import proofs.«429527_j52415780880560_1_alg».proof.Proof.Gen.KernelIdeal.Launch
import proofs.«429527_j52415780880560_1_alg».proof.Proof.SpecGraph
import proofs.«429527_j52415780880560_1_alg».proof.Proof.Consts
import proofs.«429527_j52415780880560_1_alg».proof.Proof.LibGatherScatter
import proofs.«429527_j52415780880560_1_alg».proof.Proof.SegMeanScatter
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.Val.HostC

open Cert.KernelIdeal Cert.KernelIdeal.Gen
open Idealize.ShloMosaic Idealize.ShloMosaic.TcCoe Idealize.ShloMosaic.ValueIdx

theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

def wordCol (w : IVec S1600000 32) : IVec S1600000x1 32 :=
  broadcastInDim S1600000x1 ![0] bcast_S1600000_S1600000x1_0 w

theorem wordCol_apply (w : IVec S1600000 32) (e : Fin 1600000) : wordCol w (ix2 e (0 : Fin 1)) = w (ix1 e) :=
  broadcastInDim_apply (s := S1600000) (t := S1600000x1) ![0] bcast_S1600000_S1600000x1_0 w (ix2 e (0 : Fin 1)) (ix1 e)
    (fun a => match a with | ⟨0, _⟩ => rfl)

theorem nodeCols_apply (v : FVec Ideal S100000 .f32) (i : Fin 100000) (c : Fin 64) :
    broadcastInDim S100000x64 ![0, 1] bcast_S100000x1_S100000x64_0_1
      (broadcastInDim S100000x1 ![0] bcast_S100000_S100000x1_0 v) (ix2 i c) = v (ix1 i) :=
  (broadcastInDim_apply (s := S100000x1) (t := S100000x64) ![0, 1] bcast_S100000x1_S100000x64_0_1
      (broadcastInDim S100000x1 ![0] bcast_S100000_S100000x1_0 v) (ix2 i c) (ix2 i (0 : Fin 1))
      (fun a => match a with | ⟨0, _⟩ => rfl | ⟨1, _⟩ => rfl)).trans
    (broadcastInDim_apply (s := S100000) (t := S100000x1) ![0] bcast_S100000_S100000x1_0 v (ix2 i (0 : Fin 1)) (ix1 i)
      (fun a => match a with | ⟨0, _⟩ => rfl))

theorem scatterAdd_ideal {s si u : Shape} {k : Nat} {φ : FTy} (d : ScatterDims s si u) (x : FVec Ideal s φ) (idx : IVec si k)
    (upd : FVec Ideal u φ) : Host.scatterAdd (F := Ideal) d x idx upd = Ideal.hostScatterAdd d x idx upd := rfl

theorem rows_uw : (scatter_S100000x64_S1600000x1_S1600000x64_1_0_0_1).updateWindowDims = [1] := rfl
theorem rows_iw : (scatter_S100000x64_S1600000x1_S1600000x64_1_0_0_1).insertedWindowDims = [0] := rfl
theorem rows_sd : (scatter_S100000x64_S1600000x1_S1600000x64_1_0_0_1).scatterDimsToOperandDims = [0] := rfl
theorem rows_iv : (scatter_S100000x64_S1600000x1_S1600000x64_1_0_0_1).indexVectorDim = 1 := rfl

theorem vec_iw : (scatter_S100000_S1600000x1_S1600000_n_0_0_1).insertedWindowDims = [0] := rfl
theorem vec_sd : (scatter_S100000_S1600000x1_S1600000_n_0_0_1).scatterDimsToOperandDims = [0] := rfl
theorem vec_iv : (scatter_S100000_S1600000x1_S1600000_n_0_0_1).indexVectorDim = 1 := rfl

def rowSums (h : FVec Ideal S1600000x64 .f32) (w : IVec S1600000 32) : FVec Ideal S100000x64 .f32 :=
  Host.scatterAdd (F := Ideal) (φ := .f32) scatter_S100000x64_S1600000x1_S1600000x64_1_0_0_1
    (broadcastInDim S100000x64 ![] bcast_S_S100000x64 (constant (F := Ideal) S_ .f32 0x00000000#32))
    (wordCol w) h

def counts (w : IVec S1600000 32) : FVec Ideal S100000 .f32 :=
  Host.scatterAdd (F := Ideal) (φ := .f32) scatter_S100000_S1600000x1_S1600000_n_0_0_1
    (broadcastInDim S100000 ![] bcast_S_S100000 (constant (F := Ideal) S_ .f32 0x00000000#32))
    (wordCol w)
    (broadcastInDim S1600000 ![] bcast_S_S1600000 (constant (F := Ideal) S_ .f32 0x3F800000#32))

def aggOps (h : FVec Ideal S1600000x64 .f32) (w : IVec S1600000 32) : FVec Ideal S100000x64 .f32 :=
  Host.divf (F := Ideal) (φ := .f32) (rowSums h w)
    (broadcastInDim S100000x64 ![0, 1] bcast_S100000x1_S100000x64_0_1
      (broadcastInDim S100000x1 ![0] bcast_S100000_S100000x1_0
        (maximumf (F := Ideal) (φ := .f32) (counts w)
          (broadcastInDim S100000 ![] bcast_S_S100000 (constant (F := Ideal) S_ .f32 0x3F800000#32)))))

theorem aggOps_apply (h : FVec Ideal S1600000x64 .f32) (w : IVec S1600000 32) (i : Fin 100000) (c : Fin 64) :
    aggOps h w (ix2 i c)
      = Cert.Spec.segMean (fun e k => h (ix2 e k)) (fun e => (w (ix1 e)).toInt) i c := by
  delta aggOps rowSums counts
  rw [hostDivf_apply, nodeCols_apply, maximumf_apply, scatterAdd_ideal, scatterAdd_ideal]
  exact Cert.LibGS2.segMean_of_scatters
    scatter_S100000x64_S1600000x1_S1600000x64_1_0_0_1 rows_uw rows_iw rows_sd rows_iv
    scatter_S100000_S1600000x1_S1600000_n_0_0_1 vec_iw vec_sd vec_iv
    (broadcastInDim S100000x64 ![] bcast_S_S100000x64 (constant (F := Ideal) S_ .f32 0x00000000#32))
    (fun j => (splat_apply bcast_S_S100000x64 0x00000000#32 j).trans Ideal.ofBits_zero_f32)
    (broadcastInDim S100000 ![] bcast_S_S100000 (constant (F := Ideal) S_ .f32 0x00000000#32))
    (fun j => (splat_apply bcast_S_S100000 0x00000000#32 j).trans Ideal.ofBits_zero_f32)
    (wordCol w) (wordCol w) (fun e => w (ix1 e)) (wordCol_apply w) (wordCol_apply w)
    h
    (broadcastInDim S1600000 ![] bcast_S_S1600000 (constant (F := Ideal) S_ .f32 0x3F800000#32))
    (fun e => (splat_apply bcast_S_S1600000 0x3F800000#32 e).trans Ideal.ofBits_one_f32)
    (broadcastInDim S100000 ![] bcast_S_S100000 (constant (F := Ideal) S_ .f32 0x3F800000#32) (ix1 i))
    ((splat_apply bcast_S_S100000 0x3F800000#32 (ix1 i)).trans Ideal.ofBits_one_f32)
    i c

variable (W : Valuation τ sig (Elt Ideal))

set_option maxHeartbeats 1000000 in

theorem agg_term :
    (StableHlo.after (hostOps2 (F := Ideal)) W (Proc.devRef .tc main_v40) : S100000x64.Idx → EReal)
      = aggOps (W (Proc.devRef .tc main_v28)) (W (Proc.devRef .tc main_v3)) := by
  show StableHlo.after (hostOps2 (F := Ideal)) W (Proc.devRef .tc main_v40) = _
  after_results
  delta aggOps rowSums counts wordCol
  with_reducible rfl

theorem bias_term :
    (StableHlo.after (hostOps2 (F := Ideal)) W (Proc.devRef .tc main_v41) : S1x64.Idx → EReal)
      = shapeCast S1x64 (W (Proc.devRef .tc main_arg12) : S64.Idx → EReal) shapeCasts_S64_S1x64 := by
  show StableHlo.after (hostOps2 (F := Ideal)) W (Proc.devRef .tc main_v41) = _
  after_results
  rfl

theorem sum_real {ι : Type} (s : Finset ι) (f : ι → EReal) (hf : ∀ e ∈ s, ∃ y : ℝ, f e = (y : EReal)) :
    ∃ y : ℝ, ∑ e ∈ s, f e = (y : EReal) := by
  classical
  induction s using Finset.induction_on with
  | empty => exact ⟨0, by rw [Finset.sum_empty, EReal.coe_zero]⟩
  | insert a s ha ih =>
    obtain ⟨y, hy⟩ := ih (fun e he => hf e (Finset.mem_insert_of_mem he))
    obtain ⟨z, hz⟩ := hf a (Finset.mem_insert_self a s)
    exact ⟨z + y, by rw [Finset.sum_insert ha, hy, hz, EReal.coe_add]⟩

end Cert.KernelIdeal.Val.HostC

namespace Cert.KernelIdeal.Val

open Cert.KernelIdeal Cert.KernelIdeal.Gen
open Idealize.ShloMosaic Idealize.ShloMosaic.TcCoe Idealize.ShloMosaic.ValueIdx

variable (W : Valuation τ sig (Elt Ideal))

theorem hostC_agg (i : Fin 100000) (c : Fin 64) :
    (StableHlo.after (hostOps2 (F := Ideal)) W (Proc.devRef .tc main_v40) : S100000x64.Idx → EReal) (ix2 i c)
      = Cert.Spec.segMean (fun e k => (W (Proc.devRef .tc main_v28) : S1600000x64.Idx → EReal) (ix2 e k))
          (fun e => ((W (Proc.devRef .tc main_v3) : S1600000.Idx → BitVec 32) (ix1 e)).toInt) i c :=
  (congrFun (HostC.agg_term W) (ix2 i c)).trans (HostC.aggOps_apply _ _ i c)

theorem hostC_bias (j : Fin 64) :
    (StableHlo.after (hostOps2 (F := Ideal)) W (Proc.devRef .tc main_v41) : S1x64.Idx → EReal) (ix2 0 j)
      = (W (Proc.devRef .tc main_arg12) : S64.Idx → EReal) (ix1 j) := by
  refine (congrFun (HostC.bias_term W) (ix2 0 j)).trans ?_
  refine (shapeCast_addUnit_apply ![64] (W (Proc.devRef .tc main_arg12) : S64.Idx → EReal) shapeCasts_S64_S1x64
    (ix2 (0 : Fin 1) j)).trans ?_
  exact congrArg _ (funext fun a => match a with | ⟨0, _⟩ => rfl)

theorem segMean_real {n N : ℕ} (h : Fin n → Fin 64 → EReal) (hh : ∀ e k, ∃ y : ℝ, h e k = (y : EReal)) (col : Fin n → ℤ)
    (i : Fin N) (c : Fin 64) : ∃ y : ℝ, Cert.Spec.segMean h col i c = (y : EReal) := by
  obtain ⟨a, ha⟩ := HostC.sum_real (Finset.univ.filter (fun e : Fin n => col e = (i.val : ℤ))) (fun e => h e c)
    (fun e _ => hh e c)
  obtain ⟨b, hb⟩ := HostC.sum_real (Finset.univ.filter (fun e : Fin n => col e = (i.val : ℤ))) (fun _ => (1 : EReal))
    (fun _ _ => ⟨1, EReal.coe_one.symm⟩)
  refine ⟨a / max b 1, ?_⟩
  unfold Cert.Spec.segMean
  rw [ha, hb, EReal.coe_div, EReal.coe_strictMono.monotone.map_max, EReal.coe_one]

end Cert.KernelIdeal.Val

end
-- ==== Proof.KI.KBridge.lean ====
import proofs.«429527_j52415780880560_1_alg».proof.Proof.KI.Run
import proofs.«429527_j52415780880560_1_alg».proof.Proof.KI.ValFirst0
import proofs.«429527_j52415780880560_1_alg».proof.Proof.KI.ValSecond1
import proofs.«429527_j52415780880560_1_alg».proof.Proof.KI.HostA
import proofs.«429527_j52415780880560_1_alg».proof.Proof.KI.HostAs
import proofs.«429527_j52415780880560_1_alg».proof.Proof.KI.HostB
import proofs.«429527_j52415780880560_1_alg».proof.Proof.KI.HostC
import proofs.«429527_j52415780880560_1_alg».proof.Proof.Gen.KernelIdeal.Regions
import proofs.«429527_j52415780880560_1_alg».proof.Proof.Spec
import proofs.«429527_j52415780880560_1_alg».proof.Proof.SpecGraph
import proofs.«429527_j52415780880560_1_alg».proof.Proof.Consts
import Idealize.ShloMosaic.Lib.ValueIdx

set_option maxRecDepth 16384

noncomputable section

namespace Cert.KernelIdeal.Val

open Idealize.ShloMosaic Idealize.ShloMosaic.ValueIdx Idealize.ShloMosaic.TcCoe
open Idealize.SL Idealize.SL.Sem
open Cert.KernelIdeal Cert.KernelIdeal.Gen Cert.KernelIdeal.Rg
open Idealize.ShloMosaic.Pipeline (Dat)
open scoped BigOperators

abbrev arr2 {a b : Nat} (f : Fin a → Fin b → EReal) : (⟨2, ![a, b]⟩ : Shape).Idx → EReal := fun i => f (i 0) (i 1)

section Bridge

variable (m : (ℓ : Loc nD τ sig) → Buf (Elt Ideal) ℓ) (c : Dev nD)

theorem W3_keep (b : Ref sig .tc) (h0 : b ∉ hostOps0_W) (h1 : b ∉ hostOps0_1_W) (h2 : b ∉ hostOps0_2_W) :
    W3 m c (Proc.devRef .tc b) = m ((c.tc : Thread nD τ).loc b) :=
  (StableHlo.after_of_writes_sub hostOps0_2 _ hostOps0_2_writes h2).trans <|
    (StableHlo.after_of_writes_sub hostOps0_1 _ hostOps0_1_writes h1).trans <|
      StableHlo.after_of_writes_sub hostOps0 _ hostOps0_writes h0

theorem W5_keep (b : Ref sig .tc) (hw : ∀ w, Pipeline.arrRef spec0 w ≠ b) (h : b ∉ hostOps1_W) :
    W5 m c (Proc.devRef .tc b) = W3 m c (Proc.devRef .tc b) :=
  (StableHlo.after_of_writes_sub hostOps1 _ hostOps1_writes h).trans (W4_of_ne m c b hw)

abbrev s1A : Fin 1600000 → Fin 3 → EReal :=
  Cert.Spec.gatherRows (fun r k => (m ((c.tc : Thread nD τ).loc main_arg0) : S100000x3.Idx → EReal) (ix2 r k))
    (fun e => (m ((c.tc : Thread nD τ).loc main_arg1) : S2x1600000.Idx → BitVec 32) (ix2 0 e))

abbrev s1B : Fin 1600000 → Fin 64 → EReal := fun e k => (m ((c.tc : Thread nD τ).loc main_arg2) : S1600000x64.Idx → EReal) (ix2 e k)

abbrev s1Wa : Fin 3 → Fin 64 → EReal :=
  fun k j => (m ((c.tc : Thread nD τ).loc main_arg5) : S67x64.Idx → EReal) (ix2 (Fin.cast (by norm_num) (Fin.castAdd 64 k)) j)

abbrev s1Wb : Fin 64 → Fin 64 → EReal :=
  fun k j => (m ((c.tc : Thread nD τ).loc main_arg5) : S67x64.Idx → EReal) (ix2 (Fin.cast (by norm_num) (Fin.natAdd 3 k)) j)

abbrev s1b : Fin 64 → EReal := fun j => (m ((c.tc : Thread nD τ).loc main_arg6) : S64.Idx → EReal) (ix1 j)
abbrev s1g : Fin 64 → EReal := fun j => (m ((c.tc : Thread nD τ).loc main_arg7) : S64.Idx → EReal) (ix1 j)
abbrev s1be : Fin 64 → EReal := fun j => (m ((c.tc : Thread nD τ).loc main_arg8) : S64.Idx → EReal) (ix1 j)
abbrev s1W' : Fin 64 → Fin 64 → EReal := fun k j => (m ((c.tc : Thread nD τ).loc main_arg9) : S64x64.Idx → EReal) (ix2 k j)
abbrev s1b' : Fin 64 → EReal := fun j => (m ((c.tc : Thread nD τ).loc main_arg10) : S64.Idx → EReal) (ix1 j)

abbrev s1P : Fin 1600000 → Fin 64 → EReal := Cert.Spec.preK (s1A m c) (s1B m c) (s1Wa m c) (s1Wb m c) (s1b m c)

section Rows
variable (hr : ∀ e : Fin 1600000, (-100000 : ℤ) ≤ ((m ((c.tc : Thread nD τ).loc main_arg1) : S2x1600000.Idx → BitVec 32) (ix2 0 e)).toInt
  ∧ ((m ((c.tc : Thread nD τ).loc main_arg1) : S2x1600000.Idx → BitVec 32) (ix2 0 e)).toInt < 100000)
include hr

theorem entry0_rows : (arr2 (s1A m c) : S1600000x3.Idx → EReal) = E0 m c (Pipeline.arrRef spec0 0) := by
  funext i
  obtain ⟨e, k, rfl⟩ : ∃ e k, i = ix2 e k := ⟨i 0, i 1, eq_ix2 i⟩
  exact (hostA_rows (W0 m c) hr e k).symm
end Rows

theorem entry0_edge : (arr2 (s1B m c) : S1600000x64.Idx → EReal) = E0 m c (Pipeline.arrRef spec0 1) := by
  funext i
  obtain ⟨e, k, rfl⟩ : ∃ e k, i = ix2 e k := ⟨i 0, i 1, eq_ix2 i⟩
  exact (congrFun (W3_keep m c main_arg2 (by decide) (by decide) (by decide)) (ix2 e k)).symm

theorem entry0_wa : (arr2 (s1Wa m c) : S3x64.Idx → EReal) = E0 m c (Pipeline.arrRef spec0 2) := by
  funext i
  obtain ⟨k, j, rfl⟩ : ∃ k j, i = ix2 k j := ⟨i 0, i 1, eq_ix2 i⟩
  exact (hostA_wa (W0 m c) k j).symm
theorem entry0_wb : (arr2 (s1Wb m c) : S64x64.Idx → EReal) = E0 m c (Pipeline.arrRef spec0 3) := by
  funext i
  obtain ⟨k, j, rfl⟩ : ∃ k j, i = ix2 k j := ⟨i 0, i 1, eq_ix2 i⟩
  exact (hostA_wb (W0 m c) k j).symm

theorem entry0_bias : (arr2 (fun (_ : Fin 1) j => s1b m c j) : S1x64.Idx → EReal) = E0 m c (Pipeline.arrRef spec0 4) := by
  funext i
  obtain ⟨z, j, rfl⟩ : ∃ z j, i = ix2 z j := ⟨i 0, i 1, eq_ix2 i⟩
  obtain rfl : z = 0 := Subsingleton.elim _ _
  exact (hostA_bias (W0 m c) j).symm

section Rows
variable (hr : ∀ e : Fin 1600000, (-100000 : ℤ) ≤ ((m ((c.tc : Thread nD τ).loc main_arg1) : S2x1600000.Idx → BitVec 32) (ix2 0 e)).toInt
  ∧ ((m ((c.tc : Thread nD τ).loc main_arg1) : S2x1600000.Idx → BitVec 32) (ix2 0 e)).toInt < 100000)
include hr

theorem P0_eq (e : Fin 1600000) (k : Fin 64) : P0 (E0 m) c e k = s1P m c e k :=
  P0_of_eq (E0 m) c _ _ _ _ _ (entry0_rows m c hr) (entry0_edge m c) (entry0_wa m c) (entry0_wb m c) (entry0_bias m c) e k

theorem sum0_eq (j : Fin 64) :
    (W4 m c (Proc.devRef .tc main_v10_1) : S1x64.Idx → EReal) (ix2 0 j) = Cert.Spec.colSum (s1P m c) j := by
  have h1 : (W4 m c (Proc.devRef .tc main_v10_1) : S1x64.Idx → EReal) (ix2 0 j) = ∑ r : Fin 1600000, P0 (E0 m) c r j :=
    (congrFun (W4_arr m c 6) (ix2 0 j)).trans (sum_arr0 (E0 m) c j)
  have h2 : ∑ r : Fin 1600000, P0 (E0 m) c r j = ∑ r : Fin 1600000, s1P m c r j :=
    Finset.sum_congr rfl fun r _ => P0_eq m c hr r j
  exact h1.trans h2
theorem sq0_eq (j : Fin 64) :
    (W4 m c (Proc.devRef .tc main_v10_2) : S1x64.Idx → EReal) (ix2 0 j) = Cert.Spec.colSumSq (s1P m c) j := by
  have h1 : (W4 m c (Proc.devRef .tc main_v10_2) : S1x64.Idx → EReal) (ix2 0 j)
      = ∑ r : Fin 1600000, P0 (E0 m) c r j * P0 (E0 m) c r j :=
    (congrFun (W4_arr m c 7) (ix2 0 j)).trans (sq_arr0 (E0 m) c j)
  have h2 : ∑ r : Fin 1600000, P0 (E0 m) c r j * P0 (E0 m) c r j = ∑ r : Fin 1600000, s1P m c r j * s1P m c r j :=
    Finset.sum_congr rfl fun r _ => by rw [P0_eq m c hr r j]
  exact h1.trans h2
end Rows

theorem gamma1 : (fun j : Fin 64 => (W4 m c (Proc.devRef .tc main_arg7) : S64.Idx → EReal) (ix1 j)) = s1g m c :=
  funext fun j => congrFun ((W4_of_ne m c main_arg7 (by decide)).trans (W3_keep m c main_arg7 (by decide) (by decide) (by decide))) (ix1 j)
theorem beta1 : (fun j : Fin 64 => (W4 m c (Proc.devRef .tc main_arg8) : S64.Idx → EReal) (ix1 j)) = s1be m c :=
  funext fun j => congrFun ((W4_of_ne m c main_arg8 (by decide)).trans (W3_keep m c main_arg8 (by decide) (by decide) (by decide))) (ix1 j)

section Rows
variable (hr : ∀ e : Fin 1600000, (-100000 : ℤ) ≤ ((m ((c.tc : Thread nD τ).loc main_arg1) : S2x1600000.Idx → BitVec 32) (ix2 0 e)).toInt
  ∧ ((m ((c.tc : Thread nD τ).loc main_arg1) : S2x1600000.Idx → BitVec 32) (ix2 0 e)).toInt < 100000)
include hr

theorem entry1_pre : (arr2 (s1P m c) : S1600000x64.Idx → EReal) = E1 m c (Pipeline.arrRef spec1 0) := by
  have h : E1 m c (Pipeline.arrRef spec1 0) = (dat0 (F := Ideal) (E0 m) c).arrAt 5 cfg0.N :=
    (StableHlo.after_of_writes_sub hostOps1 _ hostOps1_writes (by decide)).trans (W4_arr m c 5)
  funext i
  obtain ⟨e, k, rfl⟩ : ∃ e k, i = ix2 e k := ⟨i 0, i 1, eq_ix2 i⟩
  exact ((congrFun h (ix2 e k)).trans ((pre_arr0 (E0 m) c e k).trans (P0_eq m c hr e k))).symm

theorem entry1_scale : (arr2 (fun (_ : Fin 1) k => Cert.Spec.scaleK Ideal.rsqrt ((1600000 : ℝ) : EReal) Cert.Consts.epsE (Cert.Spec.colSum (s1P m c)) (Cert.Spec.colSumSq (s1P m c)) (s1g m c) k) : S1x64.Idx → EReal) = E1 m c (Pipeline.arrRef spec1 1) := by
  funext i
  obtain ⟨z, k, rfl⟩ : ∃ z k, i = ix2 z k := ⟨i 0, i 1, eq_ix2 i⟩
  obtain rfl : z = 0 := Subsingleton.elim _ _
  refine Eq.trans ?_ (hostB_scale (W4 m c) k).symm
  rw [show (fun j : Fin 64 => (W4 m c (Proc.devRef .tc main_v10_1) : S1x64.Idx → EReal) (ix2 0 j)) = Cert.Spec.colSum (s1P m c) from funext (sum0_eq m c hr),
    show (fun j : Fin 64 => (W4 m c (Proc.devRef .tc main_v10_2) : S1x64.Idx → EReal) (ix2 0 j)) = Cert.Spec.colSumSq (s1P m c) from funext (sq0_eq m c hr),
    gamma1 m c]

theorem entry1_shift : (arr2 (fun (_ : Fin 1) k => Cert.Spec.shiftK Ideal.rsqrt ((1600000 : ℝ) : EReal) Cert.Consts.epsE (Cert.Spec.colSum (s1P m c)) (Cert.Spec.colSumSq (s1P m c)) (s1g m c) (s1be m c) k) : S1x64.Idx → EReal) = E1 m c (Pipeline.arrRef spec1 2) := by
  funext i
  obtain ⟨z, k, rfl⟩ : ∃ z k, i = ix2 z k := ⟨i 0, i 1, eq_ix2 i⟩
  obtain rfl : z = 0 := Subsingleton.elim _ _
  refine Eq.trans ?_ (hostB_shift (W4 m c) k).symm
  rw [show (fun j : Fin 64 => (W4 m c (Proc.devRef .tc main_v10_1) : S1x64.Idx → EReal) (ix2 0 j)) = Cert.Spec.colSum (s1P m c) from funext (sum0_eq m c hr),
    show (fun j : Fin 64 => (W4 m c (Proc.devRef .tc main_v10_2) : S1x64.Idx → EReal) (ix2 0 j)) = Cert.Spec.colSumSq (s1P m c) from funext (sq0_eq m c hr),
    gamma1 m c, beta1 m c]
end Rows

theorem entry1_w : (arr2 (s1W' m c) : S64x64.Idx → EReal) = E1 m c (Pipeline.arrRef spec1 3) := by
  funext i
  obtain ⟨k, j, rfl⟩ : ∃ k j, i = ix2 k j := ⟨i 0, i 1, eq_ix2 i⟩
  exact (congrFun ((W5_keep m c main_arg9 (by decide) (by decide)).trans (W3_keep m c main_arg9 (by decide) (by decide) (by decide))) (ix2 k j)).symm

theorem entry1_bias : (arr2 (fun (_ : Fin 1) j => s1b' m c j) : S1x64.Idx → EReal) = E1 m c (Pipeline.arrRef spec1 4) := by
  funext i
  obtain ⟨z, j, rfl⟩ : ∃ z j, i = ix2 z j := ⟨i 0, i 1, eq_ix2 i⟩
  obtain rfl : z = 0 := Subsingleton.elim _ _
  exact ((hostB_bias (W4 m c) j).trans
    (congrFun ((W4_of_ne m c main_arg10 (by decide)).trans (W3_keep m c main_arg10 (by decide) (by decide) (by decide))) (ix1 j))).symm

theorem kernel_stage1 (hr : ∀ e : Fin 1600000, (-100000 : ℤ) ≤ ((m ((c.tc : Thread nD τ).loc main_arg1) : S2x1600000.Idx → BitVec 32) (ix2 0 e)).toInt
  ∧ ((m ((c.tc : Thread nD τ).loc main_arg1) : S2x1600000.Idx → BitVec 32) (ix2 0 e)).toInt < 100000) (e : Fin 1600000) (j : Fin 64) :
    ((dat1 (F := Ideal) (E1 m) c).arrAt 5 cfg1.N) (ix2 e j)
      = Cert.Spec.stageK Ideal.rsqrt ((1600000 : ℝ) : EReal) Cert.Consts.epsE
          (Cert.Spec.gatherRows (fun r k => (m ((c.tc : Thread nD τ).loc main_arg0)) (ix2 r k)) (fun e => (m ((c.tc : Thread nD τ).loc main_arg1)) (ix2 0 e)))
          (fun e k => (m ((c.tc : Thread nD τ).loc main_arg2)) (ix2 e k))
          (fun k j => (m ((c.tc : Thread nD τ).loc main_arg5)) (ix2 (Fin.cast (by norm_num) (Fin.castAdd 64 k)) j))
          (fun k j => (m ((c.tc : Thread nD τ).loc main_arg5)) (ix2 (Fin.cast (by norm_num) (Fin.natAdd 3 k)) j))
          (fun j => (m ((c.tc : Thread nD τ).loc main_arg6)) (ix1 j)) (fun j => (m ((c.tc : Thread nD τ).loc main_arg7)) (ix1 j)) (fun j => (m ((c.tc : Thread nD τ).loc main_arg8)) (ix1 j))
          (fun k j => (m ((c.tc : Thread nD τ).loc main_arg9)) (ix2 k j)) (fun j => (m ((c.tc : Thread nD τ).loc main_arg10)) (ix1 j)) e j :=
  (out_arr1 (E1 m) c _ _ _ _ _ (entry1_pre m c hr) (entry1_scale m c hr) (entry1_shift m c hr) (entry1_w m c) (entry1_bias m c) e j).trans rfl

theorem kernel_agg (i : Fin 100000) (k : Fin 64) :
    (E2 m c main_v40) (ix2 i k)
      = Cert.Spec.segMean (fun e k => ((dat1 (F := Ideal) (E1 m) c).arrAt 5 cfg1.N) (ix2 e k))
          (fun e => ((m ((c.tc : Thread nD τ).loc main_arg1)) (ix2 1 e)).toInt) i k := by
  refine (hostC_agg (W6 m c) i k).trans ?_
  rw [show (fun (e : Fin 1600000) (k : Fin 64) => (W6 m c (Proc.devRef .tc main_v28) : S1600000x64.Idx → EReal) (ix2 e k))
        = fun e k => ((dat1 (F := Ideal) (E1 m) c).arrAt 5 cfg1.N : S1600000x64.Idx → EReal) (ix2 e k) from
      funext fun e => funext fun k => congrFun (W6_arr m c 5) (ix2 e k),
    show (fun e : Fin 1600000 => ((W6 m c (Proc.devRef .tc main_v3) : S1600000.Idx → BitVec 32) (ix1 e)).toInt)
        = fun e => ((m ((c.tc : Thread nD τ).loc main_arg1) : S2x1600000.Idx → BitVec 32) (ix2 1 e)).toInt from
      funext fun e => congrArg BitVec.toInt ((congrFun ((W6_of_ne m c main_v3 (by decide)).trans
        (W5_keep m c main_v3 (by decide) (by decide))) (ix1 e)).trans (hostA_ends (W0 m c) e))]

end Bridge

end Cert.KernelIdeal.Val

end
-- ==== Proof.KI.HostD.lean ====
import proofs.«429527_j52415780880560_1_alg».proof.Proof.Gen.KernelIdeal.Launch
import proofs.«429527_j52415780880560_1_alg».proof.Proof.Spec
import proofs.«429527_j52415780880560_1_alg».proof.Proof.SpecGraph
import proofs.«429527_j52415780880560_1_alg».proof.Proof.Consts
import proofs.«429527_j52415780880560_1_alg».proof.Proof.KI.HostB
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Val

open Idealize.ShloMosaic Idealize.ShloMosaic.ValueIdx Idealize.ShloMosaic.TcCoe Idealize.ShloMosaic.StableHlo Cert.KernelIdeal Cert.KernelIdeal.Gen

variable (W : Valuation τ sig (Elt Ideal))

theorem hostD_scale (j : Fin 64) :
    (StableHlo.after (hostOps3 (F := Ideal)) W (Proc.devRef .tc main_v57) : S1x64.Idx → EReal) (ix2 0 j)
      = Cert.Spec.scaleK Ideal.rsqrt ((100000 : ℝ) : EReal) Cert.Consts.epsE
          (fun j => (W (Proc.devRef .tc main_v42_1) : S1x64.Idx → EReal) (ix2 0 j))
          (fun j => (W (Proc.devRef .tc main_v42_2) : S1x64.Idx → EReal) (ix2 0 j))
          (fun j => (W (Proc.devRef .tc main_arg13) : S64.Idx → EReal) (ix1 j)) j := by
  have e : (StableHlo.after (hostOps3 (F := Ideal)) W (Proc.devRef .tc main_v57) : S1x64.Idx → EReal)
      = shapeCast S1x64 (scaleVec 0x47C35000#32 (W (Proc.devRef .tc main_v42_1)) (W (Proc.devRef .tc main_v42_2)) (W (Proc.devRef .tc main_arg13)))
          shapeCasts_S64_S1x64 := by
    after_results_simp
    rfl
  rw [e]
  refine (shapeCast_a_1a_apply _ _ 0 j).trans ?_
  exact scaleVec_apply 0x47C35000#32 100000 (by norm_num) Cert.Consts.ofBits_100000 _ _ _ j

theorem hostD_shift (j : Fin 64) :
    (StableHlo.after (hostOps3 (F := Ideal)) W (Proc.devRef .tc main_v58) : S1x64.Idx → EReal) (ix2 0 j)
      = Cert.Spec.shiftK Ideal.rsqrt ((100000 : ℝ) : EReal) Cert.Consts.epsE
          (fun j => (W (Proc.devRef .tc main_v42_1) : S1x64.Idx → EReal) (ix2 0 j))
          (fun j => (W (Proc.devRef .tc main_v42_2) : S1x64.Idx → EReal) (ix2 0 j))
          (fun j => (W (Proc.devRef .tc main_arg13) : S64.Idx → EReal) (ix1 j))
          (fun j => (W (Proc.devRef .tc main_arg14) : S64.Idx → EReal) (ix1 j)) j := by
  have e : (StableHlo.after (hostOps3 (F := Ideal)) W (Proc.devRef .tc main_v58) : S1x64.Idx → EReal)
      = shapeCast S1x64 (shiftVec 0x47C35000#32 (W (Proc.devRef .tc main_v42_1)) (W (Proc.devRef .tc main_v42_2)) (W (Proc.devRef .tc main_arg13))
          (W (Proc.devRef .tc main_arg14))) shapeCasts_S64_S1x64 := by
    after_results_simp
    rfl
  rw [e]
  refine (shapeCast_a_1a_apply _ _ 0 j).trans ?_
  exact shiftVec_apply 0x47C35000#32 100000 (by norm_num) Cert.Consts.ofBits_100000 _ _ _ _ j

theorem hostD_bias (j : Fin 64) :
    (StableHlo.after (hostOps3 (F := Ideal)) W (Proc.devRef .tc main_v59) : S1x64.Idx → EReal) (ix2 0 j)
      = (W (Proc.devRef .tc main_arg16) : S64.Idx → EReal) (ix1 j) := by
  have e : (StableHlo.after (hostOps3 (F := Ideal)) W (Proc.devRef .tc main_v59) : S1x64.Idx → EReal)
      = shapeCast S1x64 (W (Proc.devRef .tc main_arg16) : S64.Idx → EReal) shapeCasts_S64_S1x64 := by
    after_results_simp
    rfl
  rw [e]
  exact shapeCast_a_1a_apply _ _ 0 j

end Cert.KernelIdeal.Val

end
-- ==== Proof.KI.ValSecond3.lean ====
import proofs.«429527_j52415780880560_1_alg».proof.Proof.KI.Second3
import proofs.«429527_j52415780880560_1_alg».proof.Proof.KI.PaySecond
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

def G3 (a0 : S100000x64.Idx → EReal) (a1 a2 : S1x64.Idx → EReal) (a3 : S64x64.Idx → EReal) (a4 : S1x64.Idx → EReal) :
    S100000x64.Idx → EReal := fun i =>
  (∑ k : Fin 64, max (a0 (ix2 (i 0 : Fin 100000) k) * a1 (ix2 0 k) + a2 (ix2 0 k)) 0 * a3 (ix2 k (i 1 : Fin 64))) + a4 (ix2 0 (i 1 : Fin 64))

theorem idx_facts3 : ∀ t : Fin cfg3.N,
    (win3_0.index t (0 : Fin 2) = t.val ∧ win3_0.index t (1 : Fin 2) = 0
    ∧ win3_5.index t (0 : Fin 2) = t.val ∧ win3_5.index t (1 : Fin 2) = 0)
    ∧ (∀ a, win3_1.index t a = 0) ∧ (∀ a, win3_2.index t a = 0) ∧ (∀ a, win3_3.index t a = 0) ∧ ∀ a, win3_4.index t a = 0 :=
  (by decide +kernel : ∀ t : Fin grid3.N, _)

theorem iblk3_0_apply (t : Fin cfg3.N) (r : Fin 10000) (k : Fin 64) (i : S100000x64.Idx)
    (h0 : (i 0).val = 10000 * t.val + r.val) (h1 : (i 1).val = k.val) :
    (iblk3 V c 0 t : Vec Ideal S10000x64 .f32) (ix2 r k) = (V c (Pipeline.arrRef spec3 0) : S100000x64.Idx → EReal) i := by
  obtain ⟨⟨e0, e1, -⟩, -⟩ := idx_facts3 t
  unfold iblk3
  rw [View.read_apply]
  show (V c (Pipeline.arrRef spec3 0) : S100000x64.Idx → EReal) _ = _
  refine congrArg _ (funext fun a => Fin.ext ?_)
  match a with
  | ⟨0, _⟩ => show win3_0.index t (0 : Fin 2) * 10000 + 1 * r.val = (i 0).val; rw [e0, h0]; omega
  | ⟨1, _⟩ => show win3_0.index t (1 : Fin 2) * 64 + 1 * k.val = (i 1).val; rw [e1, h1]; omega

-- A block at index zero on every axis that is as large as its array is the array.
theorem iblk3_whole (t : Fin cfg3.N) :
    (∀ y, iblk3 V c 1 t y = V c (Pipeline.arrRef spec3 1) y) ∧ (∀ y, iblk3 V c 2 t y = V c (Pipeline.arrRef spec3 2) y)
      ∧ (∀ y, iblk3 V c 3 t y = V c (Pipeline.arrRef spec3 3) y) ∧ ∀ y, iblk3 V c 4 t y = V c (Pipeline.arrRef spec3 4) y := by
  obtain ⟨-, e1, e2, e3, e4⟩ := idx_facts3 t
  refine ⟨?_, ?_, ?_, ?_⟩ <;> intro y <;> refine (View.read_apply ..).trans (congrArg (V c _) (funext fun a => Fin.ext ?_))
  exacts [(cfg3.win 1).rect_emb_val_of_index_zero t a (e1 a) y, (cfg3.win 2).rect_emb_val_of_index_zero t a (e2 a) y,
    (cfg3.win 3).rect_emb_val_of_index_zero t a (e3 a) y, (cfg3.win 4).rect_emb_val_of_index_zero t a (e4 a) y]

theorem point_value3 (t : Fin cfg3.N) (r : Fin 10000) (j : Fin 64) (i : S100000x64.Idx)
    (h0 : (i 0).val = 10000 * t.val + r.val) (h1 : (i 1).val = j.val) :
    k3_pay1 (F := Ideal) (iblk3 V c 0 t) (iblk3 V c 1 t) (iblk3 V c 2 t) (iblk3 V c 3 t) (iblk3 V c 4 t) (ix2 r j)
      = G3 (V c (Pipeline.arrRef spec3 0)) (V c (Pipeline.arrRef spec3 1)) (V c (Pipeline.arrRef spec3 2)) (V c (Pipeline.arrRef spec3 3)) (V c (Pipeline.arrRef spec3 4)) i := by
  obtain ⟨q1, q2, q3, q4⟩ := iblk3_whole V c t
  refine (pay_second_10000 (iblk3 V c 0 t) (iblk3 V c 1 t) (iblk3 V c 2 t) (iblk3 V c 3 t) (iblk3 V c 4 t) r j).trans ?_
  have hj : (i 1 : Fin 64) = j := Fin.ext h1
  unfold G3
  rw [hj, q4]
  refine congrArg (· + _) (Finset.sum_congr rfl fun k _ => ?_)
  rw [iblk3_0_apply V c t r k (ix2 (i 0 : Fin 100000) k) h0 rfl, q1, q2, q3]

theorem flushed_eq3 (t : Fin cfg3.N) :
    (dat3 (F := Ideal) V c).flushed 5 t = ((cfg3.win 5).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 (F := Ideal) V c).after 5 t) = _
  dsimp only [dat3]
  funext y
  rw [View.read_apply]
  obtain ⟨⟨-, -, e0, e1⟩, -⟩ := idx_facts3 t
  refine (congrArg _ (eq_ix2 _)).trans ?_
  refine point_value3 V c t _ _ _ ?_ ?_
  · show win3_5.index t (0 : Fin 2) * 10000 + 1 * (y 0).val = 10000 * t.val + (y 0).val
    rw [e0]; omega
  · show win3_5.index t (1 : Fin 2) * 64 + 1 * (y 1).val = (y 1).val
    rw [e1]; omega

theorem cover3 (i : S100000x64.Idx) : ∃ t : Fin cfg3.N, (cfg3.win 5).flush t = true ∧ i ∈ ((cfg3.win 5).blk t).view.set := by
  have hi0 := idx2_lt0 i
  have hi1 := idx2_lt1 i
  have hN : cfg3.N = 10 := N_3
  obtain ⟨t, ht⟩ : ∃ t : Fin cfg3.N, t.val = (i 0).val / 10000 := ⟨⟨(i 0).val / 10000, by rw [hN]; omega⟩, rfl⟩
  obtain ⟨⟨-, -, e0, e1⟩, -⟩ := idx_facts3 t
  refine ⟨t, flush3_5 t, ?_⟩
  show i ∈ ((View.whole main_v60).slice (win3_5.rect t)).set
  rw [View.set_slice_whole, Rect.mem_set_unit]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 64 ≤ (i 1).val ∧ (i 1).val < win3_5.index t (1 : Fin 2) * 64 + 64
    rw [e1]; omega

theorem out_arr3 (Y0 : S100000x64.Idx → EReal) (Y1 Y2 : S1x64.Idx → EReal) (Y3 : S64x64.Idx → EReal) (Y4 : S1x64.Idx → EReal)
    (h0 : Y0 = V c (Pipeline.arrRef spec3 0)) (h1 : Y1 = V c (Pipeline.arrRef spec3 1)) (h2 : Y2 = V c (Pipeline.arrRef spec3 2))
    (h3 : Y3 = V c (Pipeline.arrRef spec3 3)) (h4 : Y4 = V c (Pipeline.arrRef spec3 4)) (r : Fin 100000) (j : Fin 64) :
    ((dat3 (F := Ideal) V c).arrAt 5 cfg3.N : S100000x64.Idx → EReal) (ix2 r j)
      = (∑ k : Fin 64, max (Y0 (ix2 r k) * Y1 (ix2 0 k) + Y2 (ix2 0 k)) 0 * Y3 (ix2 k j)) + Y4 (ix2 0 j) := by
  subst h0 h1 h2 h3 h4
  exact congrFun ((dat3 (F := Ideal) V c).arrAt_eq_of_cover 5 (G3 _ _ _ _ _) (fun t _ => flushed_eq3 V c t) cover3) (ix2 r j)

end Cert.KernelIdeal.Val

end
-- ==== Proof.KI.ValFirst2.lean ====
import proofs.«429527_j52415780880560_1_alg».proof.Proof.KI.First2
import proofs.«429527_j52415780880560_1_alg».proof.Proof.KI.PayFirst
import proofs.«429527_j52415780880560_1_alg».proof.Proof.Algebra

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

def P2at (a0 : S100000x3.Idx → EReal) (a1 : S100000x64.Idx → EReal) (a2 : S3x64.Idx → EReal) (a3 : S64x64.Idx → EReal)
    (a4 : S1x64.Idx → EReal) (r : Fin 100000) (j : Fin 64) : EReal :=
  ((∑ k : Fin 3, a0 (ix2 r k) * a2 (ix2 k j)) + ∑ k : Fin 64, a1 (ix2 r k) * a3 (ix2 k j)) + a4 (ix2 0 j)

def P2 (r : Fin 100000) (j : Fin 64) : EReal :=
  P2at (V c (Pipeline.arrRef spec2 0)) (V c (Pipeline.arrRef spec2 1)) (V c (Pipeline.arrRef spec2 2))
    (V c (Pipeline.arrRef spec2 3)) (V c (Pipeline.arrRef spec2 4)) r j

theorem idx_rows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem P2_of_eq (X0 : S100000x3.Idx → EReal) (X1 : S100000x64.Idx → EReal) (X2 : S3x64.Idx → EReal) (X3 : S64x64.Idx → EReal)
    (X4 : S1x64.Idx → EReal) (h0 : X0 = V c (Pipeline.arrRef spec2 0)) (h1 : X1 = V c (Pipeline.arrRef spec2 1))
    (h2 : X2 = V c (Pipeline.arrRef spec2 2)) (h3 : X3 = V c (Pipeline.arrRef spec2 3)) (h4 : X4 = V c (Pipeline.arrRef spec2 4))
    (r : Fin 100000) (j : Fin 64) : P2 V c r j = P2at X0 X1 X2 X3 X4 r j := by
  subst h0 h1 h2 h3 h4
  rfl

theorem emb0_2 (t : Fin cfg2.N) (p : Fin 10000) (k : Fin 3) (r : Fin 100000) (hr : r.val = t.val * 10000 + p.val) :
    ((cfg2.win 0).blk t).view.emb (ix2 p k) = ix2 r k := by
  obtain ⟨e0, e1, -⟩ := idx_rows2 t
  exact Shape.idx_ext₂ (by show win2_0.index t 0 * 10000 + 1 * p.val = r.val; omega)
    (by show win2_0.index t 1 * 3 + 1 * k.val = k.val; omega)

theorem emb1_2 (t : Fin cfg2.N) (p : Fin 10000) (k : Fin 64) (r : Fin 100000) (hr : r.val = t.val * 10000 + p.val) :
    ((cfg2.win 1).blk t).view.emb (ix2 p k) = ix2 r k := by
  obtain ⟨-, -, e0, e1, -⟩ := idx_rows2 t
  exact Shape.idx_ext₂ (by show win2_1.index t 0 * 10000 + 1 * p.val = r.val; omega)
    (by show win2_1.index t 1 * 64 + 1 * k.val = k.val; omega)

theorem emb2_2 (t : Fin cfg2.N) (y : S3x64.Idx) : ((cfg2.win 2).blk t).view.emb y = y := by
  obtain ⟨-, -, -, -, -, -, e0, e1, -⟩ := idx_rows2 t
  exact Shape.idx_ext₂ (by show win2_2.index t 0 * 3 + 1 * (y 0).val = (y 0).val; omega)
    (by show win2_2.index t 1 * 64 + 1 * (y 1).val = (y 1).val; omega)

theorem emb3_2 (t : Fin cfg2.N) (y : S64x64.Idx) : ((cfg2.win 3).blk t).view.emb y = y := by
  obtain ⟨-, -, -, -, -, -, -, -, e0, e1, -⟩ := idx_rows2 t
  exact Shape.idx_ext₂ (by show win2_3.index t 0 * 64 + 1 * (y 0).val = (y 0).val; omega)
    (by show win2_3.index t 1 * 64 + 1 * (y 1).val = (y 1).val; omega)

theorem emb4_2 (t : Fin cfg2.N) (y : S1x64.Idx) : ((cfg2.win 4).blk t).view.emb y = y := by
  obtain ⟨-, -, -, -, -, -, -, -, -, -, e0, e1⟩ := idx_rows2 t
  exact Shape.idx_ext₂ (by show win2_4.index t 0 * 1 + 1 * (y 0).val = (y 0).val; omega)
    (by show win2_4.index t 1 * 64 + 1 * (y 1).val = (y 1).val; omega)

theorem preAt2_apply (t : Fin cfg2.N) (p : Fin 10000) (j : Fin 64) (r : Fin 100000) (hr : r.val = t.val * 10000 + p.val) :
    preAt2 V c t (ix2 p j) = P2 V c r j := by
  unfold preAt2
  simp only [ld2]
  refine (pay_pre_10000 _ _ _ _ _ p j).trans ?_
  unfold P2 P2at iblk2
  simp only [View.read_apply, emb0_2 t p _ r hr, emb1_2 t p _ r hr, emb2_2 t, emb3_2 t, emb4_2 t]
  rfl

def preArr2 : S100000x64.Idx → EReal := fun i => P2 V c (i 0) (i 1)

theorem emb5_2 (t : Fin cfg2.N) (p : Fin 10000) (q : Fin 64) (r : Fin 100000) (hr : r.val = t.val * 10000 + p.val) :
    ((cfg2.win 5).blk t).view.emb (ix2 p q) = ix2 r q := by
  obtain ⟨-, -, -, -, e0, e1, -⟩ := idx_rows2 t
  exact Shape.idx_ext₂ (by show win2_5.index t 0 * 10000 + 1 * p.val = r.val; omega)
    (by show win2_5.index t 1 * 64 + 1 * q.val = q.val; omega)

theorem flushed5_eq2 (t : Fin cfg2.N) :
    (dat2 (F := Ideal) V c).flushed 5 t = ((cfg2.win 5).blk t).view.read (Elt Ideal) (preArr2 V c) := by
  show (cfg2.win 5).cut (grid2.coords t) ((dat2 V c).after 5 t) = _
  rw [after2_5, View.canon_unit_zero zero2]
  funext y
  obtain ⟨p, q, rfl⟩ : ∃ (p : Fin 10000) (q : Fin 64), y = ix2 p q := ⟨y 0, y 1, eq_ix2 (n0 := 10000) (n1 := 64) y⟩
  have hp : t.val * 10000 + p.val < 100000 := by have := lt_of_lt_of_eq t.isLt N_2; have := p.isLt; omega
  rw [View.read_apply, emb5_2 t p q ⟨_, hp⟩ rfl]
  exact preAt2_apply V c t p q ⟨_, hp⟩ rfl

theorem pre_arr2 (r : Fin 100000) (j : Fin 64) :
    ((dat2 (F := Ideal) V c).arrAt 5 cfg2.N : S100000x64.Idx → EReal) (ix2 r j) = P2 V c r j := by
  have hr := r.isLt
  let t : Fin cfg2.N := ⟨r.val / 10000, lt_of_lt_of_eq (by omega) N_2.symm⟩
  have h := (dat2 (F := Ideal) V c).arrAt_apply_of_mem 5 (preArr2 V c) (fun t _ => flushed5_eq2 V c t) cfg2.N t
    (((cfg2.win 5).blk t).view.emb (ix2 ⟨r.val % 10000, Nat.mod_lt _ (by omega)⟩ j)) t.isLt (flush2_5 t) (View.emb_mem_set _ _)
  rw [emb5_2 t _ j r (by show r.val = r.val / 10000 * 10000 + r.val % 10000; omega)] at h
  exact h

def rowP2 (g : EReal → EReal) (j : Fin 64) (i : ℕ) : EReal := if h : i < 100000 then g (P2 V c ⟨i, h⟩ j) else 0

-- A total from zero that at each point takes on g of the block's column j over its rows ends at g summed over all rows: the blocks tile them.
theorem tot2_last (g : EReal → EReal) (step : Fin cfg2.N → Vec Ideal S1x64 .f32 → Vec Ideal S1x64 .f32)
    (z : Vec Ideal S1x64 .f32) (acc : ℕ → Vec Ideal S1x64 .f32) (j : Fin 64)
    (hstep : ∀ t a, step t a (ix2 0 j) = a (ix2 0 j) + ∑ p : Fin 10000, g (preAt2 V c t (ix2 p j)))
    (hz : z (ix2 0 j) = 0) (h0 : ∀ h, acc 0 = step ⟨0, h⟩ z) (hs : ∀ n h, acc (n + 1) = step ⟨n + 1, h⟩ (acc n)) :
    acc 9 (ix2 0 j) = ∑ r : Fin 100000, g (P2 V c r j) := by
  have hb : ∀ t a, step t a (ix2 0 j) = a (ix2 0 j) + ∑ y ∈ Finset.range 10000, rowP2 V c g j (t.val * 10000 + y) := fun t a => by
    rw [hstep, Finset.sum_range]
    refine congrArg _ (Finset.sum_congr rfl fun p _ => ?_)
    have ht : t.val < 10 := lt_of_lt_of_eq t.isLt N_2
    have hp : t.val * 10000 + p.val < 100000 := by have := p.isLt; omega
    rw [preAt2_apply V c t p j ⟨_, hp⟩ rfl, rowP2, dif_pos hp]
  have h := Cert.Alg.blocks_total 10 10000 (rowP2 V c g j) (fun n => acc n (ix2 0 j))
    ((congrFun (h0 (lt_of_lt_of_eq (by omega) N_2.symm)) _).trans ((hb _ _).trans (by rw [hz])))
    (fun k hk => (congrFun (hs k (lt_of_lt_of_eq hk N_2.symm)) _).trans (hb _ _)) 9 (by omega)
  exact (h.trans (Finset.sum_range _)).trans (Finset.sum_congr rfl fun r _ => dif_pos r.isLt)

theorem accS2_last (j : Fin 64) : accS2 V c 9 (ix2 0 j) = ∑ r : Fin 100000, P2 V c r j :=
  tot2_last V c id (sumStep2 V c) (k2_pay2 (F := Ideal)) (accS2 V c) j
    (fun t a => tot_apply _ _ _ a (preAt2 V c t) j)
    (pay_zero j) (fun h => by rw [accS2, dif_pos h]) (fun n h => by rw [accS2, dif_pos h])

theorem accQ2_last (j : Fin 64) : accQ2 V c 9 (ix2 0 j) = ∑ r : Fin 100000, P2 V c r j * P2 V c r j :=
  tot2_last V c (fun x => x * x) (sqStep2 V c) (k2_pay3 (F := Ideal)) (accQ2 V c) j
    (fun t a => tot_apply _ (.inl rfl) rfl a (mulf (preAt2 V c t) (preAt2 V c t)) j)
    (pay_zero j) (fun h => by rw [accQ2, dif_pos h]) (fun n h => by rw [accQ2, dif_pos h])

theorem idx_tot2 : ∀ t : Fin cfg2.N, win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem emb6_2 (t : Fin cfg2.N) (y : S1x64.Idx) : ((cfg2.win 6).blk t).view.emb y = y := by
  obtain ⟨e0, e1, -⟩ := idx_tot2 t
  exact Shape.idx_ext₂ (by show win2_6.index t 0 * 1 + 1 * (y 0).val = (y 0).val; omega)
    (by show win2_6.index t 1 * 64 + 1 * (y 1).val = (y 1).val; omega)

theorem emb7_2 (t : Fin cfg2.N) (y : S1x64.Idx) : ((cfg2.win 7).blk t).view.emb y = y := by
  obtain ⟨-, -, e0, e1⟩ := idx_tot2 t
  exact Shape.idx_ext₂ (by show win2_7.index t 0 * 1 + 1 * (y 0).val = (y 0).val; omega)
    (by show win2_7.index t 1 * 64 + 1 * (y 1).val = (y 1).val; omega)

theorem flushed6_eq2 (t : Fin cfg2.N) (hf : (cfg2.win 6).flush t = true) :
    (dat2 (F := Ideal) V c).flushed 6 t = ((cfg2.win 6).blk t).view.read (Elt Ideal) (accS2 V c 9) := by
  have h199 : t.val = 9 := by have := (flush2_6 t).mp hf; have := lt_of_lt_of_eq t.isLt N_2; omega
  show (cfg2.win 6).cut (grid2.coords t) ((dat2 V c).after 6 t) = _
  rw [after2_6, h199]
  funext y
  rw [View.read_apply, emb6_2]
  rfl

theorem flushed7_eq2 (t : Fin cfg2.N) (hf : (cfg2.win 7).flush t = true) :
    (dat2 (F := Ideal) V c).flushed 7 t = ((cfg2.win 7).blk t).view.read (Elt Ideal) (accQ2 V c 9) := by
  have h199 : t.val = 9 := by have := (flush2_7 t).mp hf; have := lt_of_lt_of_eq t.isLt N_2; omega
  show (cfg2.win 7).cut (grid2.coords t) ((dat2 V c).after 7 t) = _
  rw [after2_7, h199]
  funext y
  rw [View.read_apply, emb7_2]
  rfl

theorem sum_arr2 (j : Fin 64) :
    ((dat2 (F := Ideal) V c).arrAt 6 cfg2.N : S1x64.Idx → EReal) (ix2 0 j) = ∑ r : Fin 100000, P2 V c r j := by
  let t : Fin cfg2.N := ⟨9, lt_of_lt_of_eq (by omega) N_2.symm⟩
  have h := (dat2 (F := Ideal) V c).arrAt_apply_of_mem 6 (accS2 V c 9) (flushed6_eq2 V c) cfg2.N t
    (((cfg2.win 6).blk t).view.emb (ix2 0 j)) t.isLt ((flush2_6 t).mpr rfl) (View.emb_mem_set _ _)
  rw [emb6_2] at h
  exact h.trans (accS2_last V c j)

theorem sq_arr2 (j : Fin 64) :
    ((dat2 (F := Ideal) V c).arrAt 7 cfg2.N : S1x64.Idx → EReal) (ix2 0 j) = ∑ r : Fin 100000, P2 V c r j * P2 V c r j := by
  let t : Fin cfg2.N := ⟨9, lt_of_lt_of_eq (by omega) N_2.symm⟩
  have h := (dat2 (F := Ideal) V c).arrAt_apply_of_mem 7 (accQ2 V c 9) (flushed7_eq2 V c) cfg2.N t
    (((cfg2.win 7).blk t).view.emb (ix2 0 j)) t.isLt ((flush2_7 t).mpr rfl) (View.emb_mem_set _ _)
  rw [emb7_2] at h
  exact h.trans (accQ2_last V c j)

end Cert.KernelIdeal.Val

end
-- ==== Proof.KI.KBridge2.lean ====
import proofs.«429527_j52415780880560_1_alg».proof.Proof.KI.Run
import proofs.«429527_j52415780880560_1_alg».proof.Proof.Gen.KernelIdeal.Regions
import proofs.«429527_j52415780880560_1_alg».proof.Proof.Spec
import proofs.«429527_j52415780880560_1_alg».proof.Proof.SpecGraph
import proofs.«429527_j52415780880560_1_alg».proof.Proof.Consts
import proofs.«429527_j52415780880560_1_alg».proof.Proof.KI.HostD
import proofs.«429527_j52415780880560_1_alg».proof.Proof.KI.ValSecond3
import proofs.«429527_j52415780880560_1_alg».proof.Proof.KI.ValFirst2
import proofs.«429527_j52415780880560_1_alg».proof.Proof.KI.HostAs
import proofs.«429527_j52415780880560_1_alg».proof.Proof.KI.HostC
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (c : Dev nD)

abbrev nA : Fin 100000 → Fin 3 → EReal := fun r k => (m ((c.tc : Thread nD τ).loc main_arg0) : S100000x3.Idx → EReal) (ix2 r k)

abbrev nB : Fin 100000 → Fin 64 → EReal := fun i k => (E2 m c main_v40 : S100000x64.Idx → EReal) (ix2 i k)

abbrev nWa : Fin 3 → Fin 64 → EReal :=
  fun k j => (m ((c.tc : Thread nD τ).loc main_arg11) : S67x64.Idx → EReal) (ix2 (Fin.cast (by norm_num) (Fin.castAdd 64 k)) j)

abbrev nWb : Fin 64 → Fin 64 → EReal :=
  fun k j => (m ((c.tc : Thread nD τ).loc main_arg11) : S67x64.Idx → EReal) (ix2 (Fin.cast (by norm_num) (Fin.natAdd 3 k)) j)

abbrev nb : Fin 64 → EReal := fun j => (m ((c.tc : Thread nD τ).loc main_arg12) : S64.Idx → EReal) (ix1 j)
abbrev ng : Fin 64 → EReal := fun j => (m ((c.tc : Thread nD τ).loc main_arg13) : S64.Idx → EReal) (ix1 j)
abbrev nbe : Fin 64 → EReal := fun j => (m ((c.tc : Thread nD τ).loc main_arg14) : S64.Idx → EReal) (ix1 j)
abbrev nW' : Fin 64 → Fin 64 → EReal := fun k j => (m ((c.tc : Thread nD τ).loc main_arg15) : S64x64.Idx → EReal) (ix2 k j)
abbrev nb' : Fin 64 → EReal := fun j => (m ((c.tc : Thread nD τ).loc main_arg16) : S64.Idx → EReal) (ix1 j)

def nP : Fin 100000 → Fin 64 → EReal := Cert.Spec.preK (nA m c) (nB m c) (nWa m c) (nWb m c) (nb m c)

theorem W7_launch (b : Ref sig .tc)
    (h0 : ∀ w, Pipeline.arrRef spec0 w = b → (cfg0.win w).isOut = false)
    (h1 : ∀ w, Pipeline.arrRef spec1 w = b → (cfg1.win w).isOut = false)
    (g0 : b ∉ hostOps0_W) (g01 : b ∉ hostOps0_1_W) (g02 : b ∉ hostOps0_2_W) (g1 : b ∉ hostOps1_W) (g2 : b ∉ hostOps2_W) :
    W7 m c (Proc.devRef .tc b) = m ((c : Thread nD τ).loc b) :=
  (StableHlo.after_of_writes_sub hostOps2 _ hostOps2_writes g2).trans <|
  (Run.W6_keep m c b h1).trans <| (StableHlo.after_of_writes_sub hostOps1 _ hostOps1_writes g1).trans <|
  (Run.W4_keep m c b h0).trans <| (StableHlo.after_of_writes_sub hostOps0_2 _ hostOps0_2_writes g02).trans <|
  (StableHlo.after_of_writes_sub hostOps0_1 _ hostOps0_1_writes g01).trans <|
  (StableHlo.after_of_writes_sub hostOps0 _ hostOps0_writes g0).trans rfl

theorem W6_launch (b : Ref sig .tc)
    (h0 : ∀ w, Pipeline.arrRef spec0 w = b → (cfg0.win w).isOut = false)
    (h1 : ∀ w, Pipeline.arrRef spec1 w = b → (cfg1.win w).isOut = false)
    (g0 : b ∉ hostOps0_W) (g01 : b ∉ hostOps0_1_W) (g02 : b ∉ hostOps0_2_W) (g1 : b ∉ hostOps1_W) :
    W6 m c (Proc.devRef .tc b) = m ((c : Thread nD τ).loc b) :=
  (Run.W6_keep m c b h1).trans <| (StableHlo.after_of_writes_sub hostOps1 _ hostOps1_writes g1).trans <|
  (Run.W4_keep m c b h0).trans <| (StableHlo.after_of_writes_sub hostOps0_2 _ hostOps0_2_writes g02).trans <|
  (StableHlo.after_of_writes_sub hostOps0_1 _ hostOps0_1_writes g01).trans <|
  (StableHlo.after_of_writes_sub hostOps0 _ hostOps0_writes g0).trans rfl

theorem W8_launch (b : Ref sig .tc)
    (h0 : ∀ w, Pipeline.arrRef spec0 w = b → (cfg0.win w).isOut = false)
    (h1 : ∀ w, Pipeline.arrRef spec1 w = b → (cfg1.win w).isOut = false)
    (h2 : ∀ w, Pipeline.arrRef spec2 w = b → (cfg2.win w).isOut = false)
    (g0 : b ∉ hostOps0_W) (g01 : b ∉ hostOps0_1_W) (g02 : b ∉ hostOps0_2_W) (g1 : b ∉ hostOps1_W) (g2 : b ∉ hostOps2_W) :
    W8 m c (Proc.devRef .tc b) = m ((c : Thread nD τ).loc b) :=
  (Run.W8_keep m c b h2).trans (W7_launch m c b h0 h1 g0 g01 g02 g1 g2)

theorem W9_launch (b : Ref sig .tc)
    (h0 : ∀ w, Pipeline.arrRef spec0 w = b → (cfg0.win w).isOut = false)
    (h1 : ∀ w, Pipeline.arrRef spec1 w = b → (cfg1.win w).isOut = false)
    (h2 : ∀ w, Pipeline.arrRef spec2 w = b → (cfg2.win w).isOut = false)
    (g0 : b ∉ hostOps0_W) (g01 : b ∉ hostOps0_1_W) (g02 : b ∉ hostOps0_2_W) (g1 : b ∉ hostOps1_W) (g2 : b ∉ hostOps2_W)
    (g3 : b ∉ hostOps3_W) :
    W9 m c (Proc.devRef .tc b) = m ((c : Thread nD τ).loc b) :=
  (StableHlo.after_of_writes_sub hostOps3 _ hostOps3_writes g3).trans (W8_launch m c b h0 h1 h2 g0 g01 g02 g1 g2)

theorem W7_of_W3 (b : Ref sig .tc)
    (h0 : ∀ w, Pipeline.arrRef spec0 w = b → (cfg0.win w).isOut = false)
    (h1 : ∀ w, Pipeline.arrRef spec1 w = b → (cfg1.win w).isOut = false)
    (g1 : b ∉ hostOps1_W) (g2 : b ∉ hostOps2_W) :
    W7 m c (Proc.devRef .tc b) = W3 m c (Proc.devRef .tc b) :=
  (StableHlo.after_of_writes_sub hostOps2 _ hostOps2_writes g2).trans <|
  (Run.W6_keep m c b h1).trans <| (StableHlo.after_of_writes_sub hostOps1 _ hostOps1_writes g1).trans <|
  Run.W4_keep m c b h0

theorem in2_coords : (E2 m c main_arg0 : S100000x3.Idx → EReal) = m ((c.tc : Thread nD τ).loc main_arg0) :=
  W7_launch m c main_arg0 (by decide) (by decide) (by decide) (by decide) (by decide) (by decide) (by decide)

theorem in2_wa (k : Fin 3) (j : Fin 64) : (E2 m c main_v7 : S3x64.Idx → EReal) (ix2 k j) = nWa m c k j := by
  have e : (E2 m c main_v7 : S3x64.Idx → EReal) = W3 m c (Proc.devRef .tc main_v7) :=
    W7_of_W3 m c main_v7 (by decide) (by decide) (by decide) (by decide)
  rw [e]
  exact hostA_wa2 (W0 m c) k j

theorem in2_wb (k : Fin 64) (j : Fin 64) : (E2 m c main_v8 : S64x64.Idx → EReal) (ix2 k j) = nWb m c k j := by
  have e : (E2 m c main_v8 : S64x64.Idx → EReal) = W3 m c (Proc.devRef .tc main_v8) :=
    W7_of_W3 m c main_v8 (by decide) (by decide) (by decide) (by decide)
  rw [e]
  exact hostA_wb2 (W0 m c) k j

theorem in2_bias (j : Fin 64) : (E2 m c main_v41 : S1x64.Idx → EReal) (ix2 0 j) = nb m c j := by
  refine (hostC_bias (W6 m c) j).trans ?_
  exact congrFun (W6_launch m c main_arg12 (by decide) (by decide) (by decide) (by decide) (by decide) (by decide)) (ix1 j)

theorem P2_eq (r : Fin 100000) (j : Fin 64) : P2 (E2 m) c r j = nP m c r j := by
  rw [P2_of_eq (E2 m) c (m ((c.tc : Thread nD τ).loc main_arg0)) (E2 m c main_v40) (E2 m c main_v7) (E2 m c main_v8) (E2 m c main_v41)
    (in2_coords m c).symm rfl rfl rfl rfl r j]
  show ((∑ k : Fin 3, nA m c r k * (E2 m c main_v7 : S3x64.Idx → EReal) (ix2 k j))
      + ∑ k : Fin 64, nB m c r k * (E2 m c main_v8 : S64x64.Idx → EReal) (ix2 k j)) + (E2 m c main_v41 : S1x64.Idx → EReal) (ix2 0 j)
    = ((∑ k : Fin 3, nA m c r k * nWa m c k j) + ∑ k : Fin 64, nB m c r k * nWb m c k j) + nb m c j
  exact congrArg₂ (· + ·)
    (congrArg₂ (· + ·) (Finset.sum_congr rfl fun k _ => congrArg (nA m c r k * ·) (in2_wa m c k j))
      (Finset.sum_congr rfl fun k _ => congrArg (nB m c r k * ·) (in2_wb m c k j)))
    (in2_bias m c j)

theorem in3_pre (r : Fin 100000) (k : Fin 64) : (E3 m c main_v42_0 : S100000x64.Idx → EReal) (ix2 r k) = nP m c r k := by
  have e : (E3 m c main_v42_0 : S100000x64.Idx → EReal) = (dat2 (F := Ideal) (E2 m) c).arrAt 5 cfg2.N :=
    (StableHlo.after_of_writes_sub hostOps3 _ hostOps3_writes (by decide)).trans (W8_arr m c 5)
  exact (congrFun e (ix2 r k)).trans ((pre_arr2 (E2 m) c r k).trans (P2_eq m c r k))

theorem tot_sum (j : Fin 64) :
    (W8 m c (Proc.devRef .tc main_v42_1) : S1x64.Idx → EReal) (ix2 0 j) = Cert.Spec.colSum (nP m c) j := by
  have e : (W8 m c (Proc.devRef .tc main_v42_1) : S1x64.Idx → EReal) = (dat2 (F := Ideal) (E2 m) c).arrAt 6 cfg2.N := W8_arr m c 6
  have h : (∑ r : Fin 100000, P2 (E2 m) c r j) = ∑ r : Fin 100000, nP m c r j :=
    Finset.sum_congr rfl fun r _ => P2_eq m c r j
  exact (congrFun e (ix2 0 j)).trans ((sum_arr2 (E2 m) c j).trans h)

theorem tot_sq (j : Fin 64) :
    (W8 m c (Proc.devRef .tc main_v42_2) : S1x64.Idx → EReal) (ix2 0 j) = Cert.Spec.colSumSq (nP m c) j := by
  have e : (W8 m c (Proc.devRef .tc main_v42_2) : S1x64.Idx → EReal) = (dat2 (F := Ideal) (E2 m) c).arrAt 7 cfg2.N := W8_arr m c 7
  have h : (∑ r : Fin 100000, P2 (E2 m) c r j * P2 (E2 m) c r j) = ∑ r : Fin 100000, nP m c r j * nP m c r j :=
    Finset.sum_congr rfl fun r _ => congrArg₂ (· * ·) (P2_eq m c r j) (P2_eq m c r j)
  exact (congrFun e (ix2 0 j)).trans ((sq_arr2 (E2 m) c j).trans h)

theorem w8_g : (fun j : Fin 64 => (W8 m c (Proc.devRef .tc main_arg13) : S64.Idx → EReal) (ix1 j)) = ng m c :=
  funext fun j => congrFun (W8_launch m c main_arg13 (by decide) (by decide) (by decide) (by decide) (by decide) (by decide) (by decide) (by decide)) (ix1 j)

theorem w8_be : (fun j : Fin 64 => (W8 m c (Proc.devRef .tc main_arg14) : S64.Idx → EReal) (ix1 j)) = nbe m c :=
  funext fun j => congrFun (W8_launch m c main_arg14 (by decide) (by decide) (by decide) (by decide) (by decide) (by decide) (by decide) (by decide)) (ix1 j)

theorem in3_scale (k : Fin 64) :
    (E3 m c main_v57 : S1x64.Idx → EReal) (ix2 0 k)
      = Cert.Spec.scaleK Ideal.rsqrt ((100000 : ℝ) : EReal) Cert.Consts.epsE (Cert.Spec.colSum (nP m c)) (Cert.Spec.colSumSq (nP m c))
          (ng m c) k := by
  refine (hostD_scale (W8 m c) k).trans ?_
  rw [funext (tot_sum m c), funext (tot_sq m c), w8_g m c]

theorem in3_shift (k : Fin 64) :
    (E3 m c main_v58 : S1x64.Idx → EReal) (ix2 0 k)
      = Cert.Spec.shiftK Ideal.rsqrt ((100000 : ℝ) : EReal) Cert.Consts.epsE (Cert.Spec.colSum (nP m c)) (Cert.Spec.colSumSq (nP m c))
          (ng m c) (nbe m c) k := by
  refine (hostD_shift (W8 m c) k).trans ?_
  rw [funext (tot_sum m c), funext (tot_sq m c), w8_g m c, w8_be m c]

theorem in3_w (k j : Fin 64) : (E3 m c main_arg15 : S64x64.Idx → EReal) (ix2 k j) = nW' m c k j :=
  congrFun (W9_launch m c main_arg15 (by decide) (by decide) (by decide) (by decide) (by decide) (by decide) (by decide) (by decide) (by decide)) (ix2 k j)

theorem in3_bias (j : Fin 64) : (E3 m c main_v59 : S1x64.Idx → EReal) (ix2 0 j) = nb' m c j := by
  refine (hostD_bias (W8 m c) j).trans ?_
  exact congrFun (W8_launch m c main_arg16 (by decide) (by decide) (by decide) (by decide) (by decide) (by decide) (by decide) (by decide)) (ix1 j)

theorem kernel_stage2 (r : Fin 100000) (j : Fin 64) :
    ((dat3 (F := Ideal) (E3 m) c).arrAt 5 cfg3.N : S100000x64.Idx → EReal) (ix2 r j)
      = Cert.Spec.stageK Idealize.ShloMosaic.Ideal.rsqrt ((100000 : ℝ) : EReal) Cert.Consts.epsE
          (fun r k => (m ((c.tc : Thread nD τ).loc main_arg0) : S100000x3.Idx → EReal) (ix2 r k))
          (fun i k => (E2 m c main_v40 : S100000x64.Idx → EReal) (ix2 i k))
          (fun k j => (m ((c.tc : Thread nD τ).loc main_arg11) : S67x64.Idx → EReal) (ix2 (Fin.cast (by norm_num) (Fin.castAdd 64 k)) j))
          (fun k j => (m ((c.tc : Thread nD τ).loc main_arg11) : S67x64.Idx → EReal) (ix2 (Fin.cast (by norm_num) (Fin.natAdd 3 k)) j))
          (fun j => (m ((c.tc : Thread nD τ).loc main_arg12) : S64.Idx → EReal) (ix1 j))
          (fun j => (m ((c.tc : Thread nD τ).loc main_arg13) : S64.Idx → EReal) (ix1 j))
          (fun j => (m ((c.tc : Thread nD τ).loc main_arg14) : S64.Idx → EReal) (ix1 j))
          (fun k j => (m ((c.tc : Thread nD τ).loc main_arg15) : S64x64.Idx → EReal) (ix2 k j))
          (fun j => (m ((c.tc : Thread nD τ).loc main_arg16) : S64.Idx → EReal) (ix1 j)) r j := by
  show _ = Cert.Spec.stageK Ideal.rsqrt ((100000 : ℝ) : EReal) Cert.Consts.epsE (nA m c) (nB m c) (nWa m c) (nWb m c) (nb m c) (ng m c)
    (nbe m c) (nW' m c) (nb' m c) r j
  obtain ⟨Y0, h0⟩ : ∃ Y : S100000x64.Idx → EReal, Y = E3 m c (Pipeline.arrRef spec3 0) := ⟨_, rfl⟩
  obtain ⟨Y1, h1⟩ : ∃ Y : S1x64.Idx → EReal, Y = E3 m c (Pipeline.arrRef spec3 1) := ⟨_, rfl⟩
  obtain ⟨Y2, h2⟩ : ∃ Y : S1x64.Idx → EReal, Y = E3 m c (Pipeline.arrRef spec3 2) := ⟨_, rfl⟩
  obtain ⟨Y3, h3⟩ : ∃ Y : S64x64.Idx → EReal, Y = E3 m c (Pipeline.arrRef spec3 3) := ⟨_, rfl⟩
  obtain ⟨Y4, h4⟩ : ∃ Y : S1x64.Idx → EReal, Y = E3 m c (Pipeline.arrRef spec3 4) := ⟨_, rfl⟩
  have e0 : ∀ k : Fin 64, Y0 (ix2 r k) = nP m c r k := fun k => (congrFun h0 (ix2 r k)).trans (in3_pre m c r k)
  have e1 : ∀ k : Fin 64, Y1 (ix2 0 k)
      = Cert.Spec.scaleK Ideal.rsqrt ((100000 : ℝ) : EReal) Cert.Consts.epsE (Cert.Spec.colSum (nP m c)) (Cert.Spec.colSumSq (nP m c))
          (ng m c) k := fun k => (congrFun h1 (ix2 0 k)).trans (in3_scale m c k)
  have e2 : ∀ k : Fin 64, Y2 (ix2 0 k)
      = Cert.Spec.shiftK Ideal.rsqrt ((100000 : ℝ) : EReal) Cert.Consts.epsE (Cert.Spec.colSum (nP m c)) (Cert.Spec.colSumSq (nP m c))
          (ng m c) (nbe m c) k := fun k => (congrFun h2 (ix2 0 k)).trans (in3_shift m c k)
  have e3 : ∀ k : Fin 64, Y3 (ix2 k j) = nW' m c k j := fun k => (congrFun h3 (ix2 k j)).trans (in3_w m c k j)
  have e4 : Y4 (ix2 0 j) = nb' m c j := (congrFun h4 (ix2 0 j)).trans (in3_bias m c j)
  refine (out_arr3 (E3 m) c Y0 Y1 Y2 Y3 Y4 h0 h1 h2 h3 h4 r j).trans ?_
  show (∑ k : Fin 64, max (Y0 (ix2 r k) * Y1 (ix2 0 k) + Y2 (ix2 0 k)) 0 * Y3 (ix2 k j)) + Y4 (ix2 0 j)
    = (∑ k : Fin 64, max (nP m c r k
          * Cert.Spec.scaleK Ideal.rsqrt ((100000 : ℝ) : EReal) Cert.Consts.epsE (Cert.Spec.colSum (nP m c)) (Cert.Spec.colSumSq (nP m c)) (ng m c) k
        + Cert.Spec.shiftK Ideal.rsqrt ((100000 : ℝ) : EReal) Cert.Consts.epsE (Cert.Spec.colSum (nP m c)) (Cert.Spec.colSumSq (nP m c)) (ng m c)
            (nbe m c) k) 0 * nW' m c k j) + nb' m c j
  exact congrArg₂ (· + ·)
    (Finset.sum_congr rfl fun k _ => congrArg₂ (· * ·)
      (congrArg (max · 0) (congrArg₂ (· + ·) (congrArg₂ (· * ·) (e0 k) (e1 k)) (e2 k))) (e3 k))
    e4

end Cert.KernelIdeal.Val

end
-- ==== Proof.RefStage1.lean ====
import proofs.«429527_j52415780880560_1_alg».proof.Proof.RefRun
import proofs.«429527_j52415780880560_1_alg».proof.Proof.Spec
import proofs.«429527_j52415780880560_1_alg».proof.Proof.SpecGraph
import proofs.«429527_j52415780880560_1_alg».proof.Proof.LibGatherScatter
import proofs.«429527_j52415780880560_1_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefValue.Stage1

open Cert.ReferenceIdeal Cert.ReferenceIdeal.Gen Cert.ReferenceIdeal.Read Idealize.ShloMosaic Idealize.ShloMosaic.ValueIdx Cert.Spec

variable (x0 : (⟨S100000x3, .f32⟩ : BufTy).Contents (Elt Ideal)) (x1 : (⟨S2x1600000, .i32⟩ : BufTy).Contents (Elt Ideal))
  (x2 : (⟨S1600000x64, .f32⟩ : BufTy).Contents (Elt Ideal)) (x5 : (⟨S67x64, .f32⟩ : BufTy).Contents (Elt Ideal))
  (x6 x7 x8 : (⟨S64, .f32⟩ : BufTy).Contents (Elt Ideal)) (x9 : (⟨S64x64, .f32⟩ : BufTy).Contents (Elt Ideal))
  (x10 : (⟨S64, .f32⟩ : BufTy).Contents (Elt Ideal))

theorem select_wrap (w : BitVec 32) :
    Scalar.select (IntOp.cmpi .slt w 0#32) (IntOp.addi w 100000#32) w = wrapWord w := by
  unfold Scalar.select IntOp.cmpi IntOp.addi wrapWord
  cases h : w.slt 0#32 <;> simp [h]

theorem word_at (e : Fin 1600000) : val_main_v8 (F := Ideal) x1 (ix1 e) = wrapWord (x1 (ix2 0 e)) := by
  have h1 : val_main_v1 (F := Ideal) x1 (ix1 e) = x1 (ix2 0 e) := by
    rw [val_main_v1_apply, val_main_v0_apply]
    refine congrArg x1 (funext fun a => Fin.ext ?_)
    match a with
    | ⟨0, _⟩ => rfl
    | ⟨1, _⟩ => exact Nat.mod_eq_of_lt e.isLt
  rw [val_main_v8_apply, val_main_v5_apply, val_main_v7_apply, h1, val_main_v4_apply, val_main_v6_apply,
    val_main_c_apply, val_main_c_0_apply]
  exact select_wrap _

theorem wordcol_at (e : Fin 1600000) : val_main_v9 (F := Ideal) x1 (ix2 e (0 : Fin 1)) = wrapWord (x1 (ix2 0 e)) := by
  rw [val_main_v9_apply, ← word_at x1 e]
  refine congrArg (val_main_v8 (F := Ideal) x1) (funext fun a => Fin.ext ?_)
  match a with
  | ⟨0, _⟩ => rfl

theorem gathered_at (e : Fin 1600000) (c : Fin 3) :
    val_main_v10 (F := Ideal) x0 x1 (ix2 e c)
      = gatherRows (fun r k => x0 (ix2 r k)) (fun e => x1 (ix2 0 e)) e c := by
  unfold val_main_v10
  rw [Cert.LibGS.gather_rows_gen gather_S100000x3_S1600000x1_S1600000x3_1_0_n_n_0_1_13 (by decide) rfl rfl rfl rfl rfl rfl
    x0 (val_main_v9 (F := Ideal) x1) e c, wordcol_at]
  rfl

theorem joined_left (e : Fin 1600000) (a : Fin 3) :
    val_main_v11 (F := Ideal) x0 x1 x2 (ix2 e (Fin.cast (by norm_num : 3 + 64 = 67) (Fin.castAdd 64 a)))
      = val_main_v10 (F := Ideal) x0 x1 (ix2 e a) := by
  unfold val_main_v11
  generalize val_main_v10 (F := Ideal) x0 x1 = y
  refine concatenate_pair_apply_left (t := S1600000x67) (s₁ := S1600000x3) (s₂ := S1600000x64) (1 : Fin 2) y x2 concatenates_S1600000x3_S1600000x64_S1600000x67_d1 _ rfl (ix2 e a) fun b => ?_
  match b with
  | ⟨0, _⟩ => rfl
  | ⟨1, _⟩ => rfl

theorem joined_right (e : Fin 1600000) (b : Fin 64) :
    val_main_v11 (F := Ideal) x0 x1 x2 (ix2 e (Fin.cast (by norm_num : 3 + 64 = 67) (Fin.natAdd 3 b)))
      = x2 (ix2 e b) := by
  unfold val_main_v11
  generalize val_main_v10 (F := Ideal) x0 x1 = y
  refine concatenate_pair_apply_right (t := S1600000x67) (s₁ := S1600000x3) (s₂ := S1600000x64) (1 : Fin 2) y x2 concatenates_S1600000x3_S1600000x64_S1600000x67_d1 _ rfl rfl (ix2 e b) (fun c hc => ?_) ?_
  · match c with
    | ⟨0, _⟩ => rfl
    | ⟨1, _⟩ => exact absurd rfl hc
  · show b.val + 3 = 3 + b.val
    omega

theorem joined_at (e : Fin 1600000) (k : Fin (3 + 64)) :
    val_main_v11 (F := Ideal) x0 x1 x2 (ix2 e (Fin.cast (by norm_num : 3 + 64 = 67) k))
      = cat (gatherRows (fun r k => x0 (ix2 r k)) (fun e => x1 (ix2 0 e))) (fun e k => x2 (ix2 e k)) e k := by
  unfold cat
  refine Fin.addCases (fun a => ?_) (fun b => ?_) k
  · rw [Fin.addCases_left, joined_left, gathered_at]
  · rw [Fin.addCases_right, joined_right]

theorem bias6_at (e : Fin 1600000) (j : Fin 64) : val_main_v14 (F := Ideal) x6 (ix2 e j) = x6 (ix1 j) := by
  rw [val_main_v14_apply, val_main_v13_apply]
  refine congrArg x6 (funext fun a => Fin.ext ?_)
  match a with
  | ⟨0, _⟩ => rfl

theorem pre_at (e : Fin 1600000) (j : Fin 64) :
    val_main_v15 (F := Ideal) x0 x1 x2 x5 x6 (ix2 e j)
      = preR (gatherRows (fun r k => x0 (ix2 r k)) (fun e => x1 (ix2 0 e))) (fun e k => x2 (ix2 e k))
          (fun k j => x5 (ix2 (Fin.cast (by norm_num) k) j)) (fun j => x6 (ix1 j)) e j := by
  unfold preR
  rw [val_main_v15_apply, val_main_v12_apply, bias6_at, Ideal.addf_def,
    ← Equiv.sum_comp (finCongr (by norm_num : 3 + 64 = 67))]
  refine congrArg (· + x6 (ix1 j)) (Finset.sum_congr rfl fun k _ => ?_)
  rw [← joined_at x0 x1 x2 e k]
  exact congr (congrArg _ (congrArg _ (funext fun a => Fin.ext (by match a with | ⟨0, _⟩ => rfl | ⟨1, _⟩ => rfl))))
    (congrArg x5 (funext fun a => Fin.ext (by match a with | ⟨0, _⟩ => rfl | ⟨1, _⟩ => rfl)))

abbrev preTab : Fin 1600000 → Fin 64 → EReal :=
  preR (gatherRows (fun r k => x0 (ix2 r k)) (fun e => x1 (ix2 0 e))) (fun e k => x2 (ix2 e k))
    (fun k j => x5 (ix2 (Fin.cast (by norm_num) k) j)) (fun j => x6 (ix1 j))

theorem colsum_at (j : Fin 64) :
    val_main_v16 (F := Ideal) x0 x1 x2 x5 x6 (ix1 j) = colSum (preTab x0 x1 x2 x5 x6) j := by
  rw [val_main_v16_apply]
  show Ideal.ofBits .f32 0x00000000#32 + _ = _
  rw [Ideal.ofBits_zero_f32, zero_add]
  unfold colSum
  refine Finset.sum_congr rfl fun k _ => ?_
  have h : idx_main_v16 (ix1 j) k = ix2 k j :=
    funext fun a => Fin.ext (by match a with | ⟨0, _⟩ => rfl | ⟨1, _⟩ => rfl)
  exact (congrArg (val_main_v15 (F := Ideal) x0 x1 x2 x5 x6) h).trans (pre_at x0 x1 x2 x5 x6 k j)

theorem mean_at (j : Fin 64) :
    val_main_v18 (F := Ideal) x0 x1 x2 x5 x6 (ix1 j)
      = colSum (preTab x0 x1 x2 x5 x6) j / ((1600000 : ℝ) : EReal) := by
  rw [val_main_v18_apply, colsum_at, val_main_v17_apply, val_main_cst_1_apply, Ideal.hostDivf_def]
  show Ideal.div _ (Ideal.ofBits .f32 0x49C35000#32) = _
  rw [Cert.Consts.ofBits_1600000, Cert.Consts.div_real _ _ (by norm_num)]

theorem meanrow_at (e : Fin 1600000) (j : Fin 64) :
    val_main_v20 (F := Ideal) x0 x1 x2 x5 x6 (ix2 e j) = val_main_v18 (F := Ideal) x0 x1 x2 x5 x6 (ix1 j) := by
  rw [val_main_v20_apply, val_main_v19_apply]
  refine congrArg _ (funext fun a => Fin.ext ?_)
  match a with
  | ⟨0, _⟩ => rfl

theorem meanrow'_at (e : Fin 1600000) (j : Fin 64) :
    val_main_v27 (F := Ideal) x0 x1 x2 x5 x6 (ix2 e j) = val_main_v18 (F := Ideal) x0 x1 x2 x5 x6 (ix1 j) := by
  rw [val_main_v27_apply, val_main_v26_apply]
  refine congrArg _ (funext fun a => Fin.ext ?_)
  match a with
  | ⟨0, _⟩ => rfl

theorem dev_at (e : Fin 1600000) (j : Fin 64) :
    val_main_v21 (F := Ideal) x0 x1 x2 x5 x6 (ix2 e j)
      = preTab x0 x1 x2 x5 x6 e j - colSum (preTab x0 x1 x2 x5 x6) j / ((1600000 : ℝ) : EReal) := by
  rw [val_main_v21_apply, pre_at, meanrow_at, mean_at, Ideal.subf_def]

theorem dev'_at (e : Fin 1600000) (j : Fin 64) :
    val_main_v28 (F := Ideal) x0 x1 x2 x5 x6 (ix2 e j)
      = preTab x0 x1 x2 x5 x6 e j - colSum (preTab x0 x1 x2 x5 x6) j / ((1600000 : ℝ) : EReal) := by
  rw [val_main_v28_apply, pre_at, meanrow'_at, mean_at, Ideal.subf_def]

theorem devsq_sum_at (j : Fin 64) :
    val_main_v23 (F := Ideal) x0 x1 x2 x5 x6 (ix1 j)
      = ∑ i : Fin 1600000,
          (preTab x0 x1 x2 x5 x6 i j - colSum (preTab x0 x1 x2 x5 x6) j / ((1600000 : ℝ) : EReal))
            * (preTab x0 x1 x2 x5 x6 i j - colSum (preTab x0 x1 x2 x5 x6) j / ((1600000 : ℝ) : EReal)) := by
  rw [val_main_v23_apply]
  show Ideal.ofBits .f32 0x00000000#32 + _ = _
  rw [Ideal.ofBits_zero_f32, zero_add]
  refine Finset.sum_congr rfl fun k _ => ?_
  rw [← dev_at, ← Ideal.mulf_def, ← val_main_v22_apply]
  refine congrArg _ (funext fun a => Fin.ext ?_)
  match a with
  | ⟨0, _⟩ => rfl
  | ⟨1, _⟩ => rfl

theorem rstd_at (j : Fin 64) :
    val_main_v31 (F := Ideal) x0 x1 x2 x5 x6 (ix1 j)
      = Ideal.rsqrt ((∑ i : Fin 1600000,
          (preTab x0 x1 x2 x5 x6 i j - colSum (preTab x0 x1 x2 x5 x6) j / ((1600000 : ℝ) : EReal))
            * (preTab x0 x1 x2 x5 x6 i j - colSum (preTab x0 x1 x2 x5 x6) j / ((1600000 : ℝ) : EReal)))
          / ((1600000 : ℝ) : EReal) + Cert.Consts.epsE) := by
  rw [val_main_v31_apply, Ideal.hostUnary_rsqrt_def, val_main_v30_apply, Ideal.addf_def, val_main_v25_apply,
    devsq_sum_at, val_main_v24_apply, val_main_cst_3_apply, Ideal.hostDivf_def, val_main_v29_apply,
    val_main_cst_4_apply]
  show Ideal.rsqrt (Ideal.div _ (Ideal.ofBits .f32 0x49C35000#32) + Cert.Consts.epsE) = _
  rw [Cert.Consts.ofBits_1600000, Cert.Consts.div_real _ _ (by norm_num)]

theorem rstdrow_at (e : Fin 1600000) (j : Fin 64) :
    val_main_v33 (F := Ideal) x0 x1 x2 x5 x6 (ix2 e j) = val_main_v31 (F := Ideal) x0 x1 x2 x5 x6 (ix1 j) := by
  rw [val_main_v33_apply, val_main_v32_apply]
  refine congrArg _ (funext fun a => Fin.ext ?_)
  match a with
  | ⟨0, _⟩ => rfl

theorem scale_at (e : Fin 1600000) (j : Fin 64) : val_main_v36 (F := Ideal) x7 (ix2 e j) = x7 (ix1 j) := by
  rw [val_main_v36_apply, val_main_v35_apply]
  refine congrArg x7 (funext fun a => Fin.ext ?_)
  match a with
  | ⟨0, _⟩ => rfl

theorem shift_at (e : Fin 1600000) (j : Fin 64) : val_main_v39 (F := Ideal) x8 (ix2 e j) = x8 (ix1 j) := by
  rw [val_main_v39_apply, val_main_v38_apply]
  refine congrArg x8 (funext fun a => Fin.ext ?_)
  match a with
  | ⟨0, _⟩ => rfl

theorem norm_at (e : Fin 1600000) (j : Fin 64) :
    val_main_v40 (F := Ideal) x0 x1 x2 x5 x6 x7 x8 (ix2 e j)
      = bnR Ideal.rsqrt ((1600000 : ℝ) : EReal) Cert.Consts.epsE (preTab x0 x1 x2 x5 x6)
          (fun j => x7 (ix1 j)) (fun j => x8 (ix1 j)) e j := by
  unfold bnR
  rw [val_main_v40_apply, val_main_v37_apply, val_main_v34_apply, dev'_at, rstdrow_at, rstd_at, scale_at, shift_at,
    Ideal.addf_def, Ideal.mulf_def, Ideal.mulf_def]

theorem relu_at (e : Fin 1600000) (k : Fin 64) :
    val_main_v41 (F := Ideal) x0 x1 x2 x5 x6 x7 x8 (ix2 e k)
      = max (bnR Ideal.rsqrt ((1600000 : ℝ) : EReal) Cert.Consts.epsE (preTab x0 x1 x2 x5 x6)
          (fun j => x7 (ix1 j)) (fun j => x8 (ix1 j)) e k) 0 := by
  rw [val_main_v41_apply, norm_at, val_main_call0_v0_apply, val_main_call0_cst_apply, Ideal.maximumf_def]
  show max _ (Ideal.ofBits .f32 0x00000000#32) = _
  rw [Ideal.ofBits_zero_f32]

theorem bias10_at (e : Fin 1600000) (j : Fin 64) : val_main_v44 (F := Ideal) x10 (ix2 e j) = x10 (ix1 j) := by
  rw [val_main_v44_apply, val_main_v43_apply]
  refine congrArg x10 (funext fun a => Fin.ext ?_)
  match a with
  | ⟨0, _⟩ => rfl

theorem out_at (e : Fin 1600000) (j : Fin 64) :
    val_main_v45 (F := Ideal) x0 x1 x2 x5 x6 x7 x8 x9 x10 (ix2 e j)
      = mlpR (bnR Ideal.rsqrt ((1600000 : ℝ) : EReal) Cert.Consts.epsE (preTab x0 x1 x2 x5 x6)
          (fun j => x7 (ix1 j)) (fun j => x8 (ix1 j))) (fun k j => x9 (ix2 k j)) (fun j => x10 (ix1 j)) e j := by
  unfold mlpR
  rw [val_main_v45_apply, val_main_v42_apply, bias10_at, Ideal.addf_def]
  refine congrArg (· + x10 (ix1 j)) (Finset.sum_congr rfl fun k _ => ?_)
  rw [← relu_at]
  exact congr (congrArg _ (congrArg _ (funext fun a => Fin.ext (by match a with | ⟨0, _⟩ => rfl | ⟨1, _⟩ => rfl))))
    (congrArg x9 (funext fun a => Fin.ext (by match a with | ⟨0, _⟩ => rfl | ⟨1, _⟩ => rfl)))

end Cert.ReferenceIdeal.RefValue.Stage1

namespace Cert.ReferenceIdeal.RefValue

open Cert.ReferenceIdeal Cert.ReferenceIdeal.Gen Idealize.ShloMosaic Idealize.ShloMosaic.ValueIdx

theorem ref_stage1 (x0 : (⟨S100000x3, .f32⟩ : BufTy).Contents (Elt Ideal)) (x1 : (⟨S2x1600000, .i32⟩ : BufTy).Contents (Elt Ideal))
    (x2 : (⟨S1600000x64, .f32⟩ : BufTy).Contents (Elt Ideal)) (x5 : (⟨S67x64, .f32⟩ : BufTy).Contents (Elt Ideal))
    (x6 x7 x8 : (⟨S64, .f32⟩ : BufTy).Contents (Elt Ideal)) (x9 : (⟨S64x64, .f32⟩ : BufTy).Contents (Elt Ideal))
    (x10 : (⟨S64, .f32⟩ : BufTy).Contents (Elt Ideal)) (e : Fin 1600000) (j : Fin 64) :
    Cert.ReferenceIdeal.Read.val_main_v45 (F := Ideal) x0 x1 x2 x5 x6 x7 x8 x9 x10 (ix2 e j)
      = Cert.Spec.stageR Ideal.rsqrt ((1600000 : ℝ) : EReal) Cert.Consts.epsE
          (Cert.Spec.gatherRows (fun r k => x0 (ix2 r k)) (fun e => x1 (ix2 0 e))) (fun e k => x2 (ix2 e k))
          (fun k j => x5 (ix2 (Fin.cast (by norm_num) k) j)) (fun j => x6 (ix1 j)) (fun j => x7 (ix1 j))
          (fun j => x8 (ix1 j)) (fun k j => x9 (ix2 k j)) (fun j => x10 (ix1 j)) e j := by
  unfold Cert.Spec.stageR
  exact Stage1.out_at x0 x1 x2 x5 x6 x7 x8 x9 x10 e j

end Cert.ReferenceIdeal.RefValue

end
-- ==== Proof.RefStage2.lean ====
import proofs.«429527_j52415780880560_1_alg».proof.Proof.RefRun
import proofs.«429527_j52415780880560_1_alg».proof.Proof.SpecGraph
import proofs.«429527_j52415780880560_1_alg».proof.Proof.LibGatherScatter
import proofs.«429527_j52415780880560_1_alg».proof.Proof.Consts

noncomputable section

open scoped BigOperators

namespace Cert.ReferenceIdeal.RefValue2

open Cert.ReferenceIdeal Cert.ReferenceIdeal.Gen Idealize.ShloMosaic Idealize.ShloMosaic.ValueIdx

section Agg

variable (x0 : (⟨S100000x3, .f32⟩ : BufTy).Contents (Elt Ideal)) (x1 : (⟨S2x1600000, .i32⟩ : BufTy).Contents (Elt Ideal))
  (x2 : (⟨S1600000x64, .f32⟩ : BufTy).Contents (Elt Ideal)) (x5 : (⟨S67x64, .f32⟩ : BufTy).Contents (Elt Ideal))
  (x6 x7 x8 : (⟨S64, .f32⟩ : BufTy).Contents (Elt Ideal)) (x9 : (⟨S64x64, .f32⟩ : BufTy).Contents (Elt Ideal))
  (x10 : (⟨S64, .f32⟩ : BufTy).Contents (Elt Ideal))

theorem endcol47 (e : Fin 1600000) :
    Read.val_main_v47 (F := Ideal) x1 (ix2 e (0 : Fin 1)) = x1 (ix2 (1 : Fin 2) e) := by
  rw [Read.val_main_v47_apply, Read.val_main_v3_apply, Read.val_main_v2_apply]
  refine congrArg x1 (funext fun a => Fin.ext ?_)
  match a with
  | ⟨0, _⟩ => rfl
  | ⟨1, _⟩ => exact Nat.mod_eq_of_lt e.isLt

theorem endcol51 (e : Fin 1600000) :
    Read.val_main_v51 (F := Ideal) x1 (ix2 e (0 : Fin 1)) = x1 (ix2 (1 : Fin 2) e) := by
  rw [Read.val_main_v51_apply, Read.val_main_v3_apply, Read.val_main_v2_apply]
  refine congrArg x1 (funext fun a => Fin.ext ?_)
  match a with
  | ⟨0, _⟩ => rfl
  | ⟨1, _⟩ => exact Nat.mod_eq_of_lt e.isLt

theorem segSum_apply (i : Fin 100000) (c : Fin 64) :
    Read.val_main_v48 (F := Ideal) x0 x1 x2 x5 x6 x7 x8 x9 x10 (ix2 i c)
      = ∑ e ∈ Finset.univ.filter (fun e : Fin 1600000 => (x1 (ix2 (1 : Fin 2) e)).toInt = (i.val : ℤ)),
          Read.val_main_v45 (F := Ideal) x0 x1 x2 x5 x6 x7 x8 x9 x10 (ix2 e c) := by
  unfold Read.val_main_v48
  generalize Read.val_main_v45 (F := Ideal) x0 x1 x2 x5 x6 x7 x8 x9 x10 = h45
  rw [Host.scatterAdd, Ideal.hostScatterAdd_def]
  refine (Cert.LibGS.scatterAdd_rows_gen scatter_S100000x64_S1600000x1_S1600000x64_1_0_0_1 rfl rfl rfl rfl
    (Read.val_main_v46 (F := Ideal)) (Read.val_main_v47 (F := Ideal) x1) h45 i c).trans ?_
  rw [Read.val_main_v46_apply, Read.val_main_cst_5_apply, Ideal.ofBits_def, Ideal.ofBits_zero_f32, zero_add]
  exact Finset.sum_congr
    (Finset.filter_congr fun e _ => (congrArg (fun w : BitVec 32 => w.toInt = (i.val : ℤ)) (endcol47 x1 e)).to_iff)
    (fun _ _ => rfl)

theorem segCount_apply (i : Fin 100000) :
    Read.val_main_v52 (F := Ideal) x1 (ix1 i)
      = ∑ e ∈ Finset.univ.filter (fun e : Fin 1600000 => (x1 (ix2 (1 : Fin 2) e)).toInt = (i.val : ℤ)), (1 : EReal) := by
  unfold Read.val_main_v52
  rw [Host.scatterAdd, Ideal.hostScatterAdd_def]
  refine (Cert.LibGS.scatterAdd_vec_gen scatter_S100000_S1600000x1_S1600000_n_0_0_1 rfl rfl rfl
    (Read.val_main_v50 (F := Ideal)) (Read.val_main_v51 (F := Ideal) x1) (Read.val_main_v49 (F := Ideal)) i).trans ?_
  rw [Read.val_main_v50_apply, Read.val_main_cst_7_apply, Ideal.ofBits_def, Ideal.ofBits_zero_f32, zero_add]
  refine Finset.sum_congr
    (Finset.filter_congr fun e _ => (congrArg (fun w : BitVec 32 => w.toInt = (i.val : ℤ)) (endcol51 x1 e)).to_iff)
    (fun e _ => ?_)
  rw [Read.val_main_v49_apply, Read.val_main_cst_6_apply, Ideal.ofBits_def, Cert.Consts.ofBits_one, EReal.coe_one]

theorem segDen_apply (i : Fin 100000) (c : Fin 64) :
    Read.val_main_v56 (F := Ideal) x1 (ix2 i c)
      = max (∑ e ∈ Finset.univ.filter (fun e : Fin 1600000 => (x1 (ix2 (1 : Fin 2) e)).toInt = (i.val : ℤ)), (1 : EReal)) 1 := by
  have hi : Read.idx_main_v55 (Read.idx_main_v56 (ix2 i c)) = ix1 i :=
    funext fun a => Fin.ext (by match a with | ⟨0, _⟩ => rfl)
  rw [Read.val_main_v56_apply, Read.val_main_v55_apply, Read.val_main_v54_apply, Ideal.maximumf_def, hi,
    Read.val_main_v53_apply, Read.val_main_cst_8_apply, Ideal.ofBits_def, Cert.Consts.ofBits_one, EReal.coe_one,
    segCount_apply]

theorem ref_agg (i : Fin 100000) (c : Fin 64) :
    Read.val_main_v57 (F := Ideal) x0 x1 x2 x5 x6 x7 x8 x9 x10 (ix2 i c)
      = Cert.Spec.segMean (fun e k => Read.val_main_v45 (F := Ideal) x0 x1 x2 x5 x6 x7 x8 x9 x10 (ix2 e k))
          (fun e => (x1 (ix2 (1 : Fin 2) e)).toInt) i c := by
  rw [Cert.Spec.segMean, Read.val_main_v57_apply, Ideal.hostDivf_def, segDen_apply, Cert.Consts.div_max1, segSum_apply]

end Agg

end Cert.ReferenceIdeal.RefValue2

end
-- ==== Proof.RefStage2b.lean ====
import proofs.«429527_j52415780880560_1_alg».proof.Proof.RefRun
import proofs.«429527_j52415780880560_1_alg».proof.Proof.Spec
import proofs.«429527_j52415780880560_1_alg».proof.Proof.SpecGraph
import proofs.«429527_j52415780880560_1_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefValue2.Stage2

open Cert.ReferenceIdeal Cert.ReferenceIdeal.Gen Cert.ReferenceIdeal.Read Idealize.ShloMosaic Idealize.ShloMosaic.ValueIdx Cert.Spec

variable (x0 : (⟨S100000x3, .f32⟩ : BufTy).Contents (Elt Ideal)) (x1 : (⟨S2x1600000, .i32⟩ : BufTy).Contents (Elt Ideal))
  (x2 : (⟨S1600000x64, .f32⟩ : BufTy).Contents (Elt Ideal)) (x5 : (⟨S67x64, .f32⟩ : BufTy).Contents (Elt Ideal))
  (x6 x7 x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S67x64, .f32⟩ : BufTy).Contents (Elt Ideal))
  (x12 x13 x14 : (⟨S64, .f32⟩ : BufTy).Contents (Elt Ideal)) (x15 : (⟨S64x64, .f32⟩ : BufTy).Contents (Elt Ideal))
  (x16 : (⟨S64, .f32⟩ : BufTy).Contents (Elt Ideal))

theorem joined_left (r : Fin 100000) (a : Fin 3) :
    val_main_v58 (F := Ideal) x0 x1 x2 x5 x6 x7 x8 x9 x10 (ix2 r (Fin.cast (by norm_num : 3 + 64 = 67) (Fin.castAdd 64 a)))
      = x0 (ix2 r a) := by
  unfold val_main_v58
  generalize val_main_v57 (F := Ideal) x0 x1 x2 x5 x6 x7 x8 x9 x10 = y
  refine concatenate_pair_apply_left (t := S100000x67) (s₁ := S100000x3) (s₂ := S100000x64) (1 : Fin 2) x0 y concatenates_S100000x3_S100000x64_S100000x67_d1 _ rfl (ix2 r a) fun b => ?_
  match b with
  | ⟨0, _⟩ => rfl
  | ⟨1, _⟩ => rfl

theorem joined_right (r : Fin 100000) (b : Fin 64) :
    val_main_v58 (F := Ideal) x0 x1 x2 x5 x6 x7 x8 x9 x10 (ix2 r (Fin.cast (by norm_num : 3 + 64 = 67) (Fin.natAdd 3 b)))
      = val_main_v57 (F := Ideal) x0 x1 x2 x5 x6 x7 x8 x9 x10 (ix2 r b) := by
  unfold val_main_v58
  generalize val_main_v57 (F := Ideal) x0 x1 x2 x5 x6 x7 x8 x9 x10 = y
  refine concatenate_pair_apply_right (t := S100000x67) (s₁ := S100000x3) (s₂ := S100000x64) (1 : Fin 2) x0 y concatenates_S100000x3_S100000x64_S100000x67_d1 _ rfl rfl (ix2 r b) (fun c hc => ?_) ?_
  · match c with
    | ⟨0, _⟩ => rfl
    | ⟨1, _⟩ => exact absurd rfl hc
  · show b.val + 3 = 3 + b.val
    omega

theorem joined_at (r : Fin 100000) (k : Fin (3 + 64)) :
    val_main_v58 (F := Ideal) x0 x1 x2 x5 x6 x7 x8 x9 x10 (ix2 r (Fin.cast (by norm_num : 3 + 64 = 67) k))
      = cat (fun r k => x0 (ix2 r k)) (fun i c => val_main_v57 (F := Ideal) x0 x1 x2 x5 x6 x7 x8 x9 x10 (ix2 i c)) r k := by
  unfold cat
  refine Fin.addCases (fun a => ?_) (fun b => ?_) k
  · rw [Fin.addCases_left, joined_left]
  · rw [Fin.addCases_right, joined_right]

theorem bias12_at (r : Fin 100000) (j : Fin 64) : val_main_v61 (F := Ideal) x12 (ix2 r j) = x12 (ix1 j) := by
  rw [val_main_v61_apply, val_main_v60_apply]
  refine congrArg x12 (funext fun a => Fin.ext ?_)
  match a with
  | ⟨0, _⟩ => rfl

theorem pre_at (r : Fin 100000) (j : Fin 64) :
    val_main_v62 (F := Ideal) x0 x1 x2 x5 x6 x7 x8 x9 x10 x11 x12 (ix2 r j)
      = preR (fun r k => x0 (ix2 r k)) (fun i c => val_main_v57 (F := Ideal) x0 x1 x2 x5 x6 x7 x8 x9 x10 (ix2 i c))
          (fun k j => x11 (ix2 (Fin.cast (by norm_num) k) j)) (fun j => x12 (ix1 j)) r j := by
  unfold preR
  rw [val_main_v62_apply, val_main_v59_apply, bias12_at, Ideal.addf_def,
    ← Equiv.sum_comp (finCongr (by norm_num : 3 + 64 = 67))]
  refine congrArg (· + x12 (ix1 j)) (Finset.sum_congr rfl fun k _ => ?_)
  rw [← joined_at x0 x1 x2 x5 x6 x7 x8 x9 x10 r k]
  exact congr (congrArg _ (congrArg _ (funext fun a => Fin.ext (by match a with | ⟨0, _⟩ => rfl | ⟨1, _⟩ => rfl))))
    (congrArg x11 (funext fun a => Fin.ext (by match a with | ⟨0, _⟩ => rfl | ⟨1, _⟩ => rfl)))

abbrev preTab : Fin 100000 → Fin 64 → EReal :=
  preR (fun r k => x0 (ix2 r k)) (fun i c => val_main_v57 (F := Ideal) x0 x1 x2 x5 x6 x7 x8 x9 x10 (ix2 i c))
    (fun k j => x11 (ix2 (Fin.cast (by norm_num) k) j)) (fun j => x12 (ix1 j))

theorem colsum_at (j : Fin 64) :
    val_main_v63 (F := Ideal) x0 x1 x2 x5 x6 x7 x8 x9 x10 x11 x12 (ix1 j) = colSum (preTab x0 x1 x2 x5 x6 x7 x8 x9 x10 x11 x12) j := by
  rw [val_main_v63_apply]
  show Ideal.ofBits .f32 0x00000000#32 + _ = _
  rw [Ideal.ofBits_zero_f32, zero_add]
  unfold colSum
  refine Finset.sum_congr rfl fun k _ => ?_
  have h : idx_main_v63 (ix1 j) k = ix2 k j :=
    funext fun a => Fin.ext (by match a with | ⟨0, _⟩ => rfl | ⟨1, _⟩ => rfl)
  exact (congrArg (val_main_v62 (F := Ideal) x0 x1 x2 x5 x6 x7 x8 x9 x10 x11 x12) h).trans (pre_at x0 x1 x2 x5 x6 x7 x8 x9 x10 x11 x12 k j)

theorem mean_at (j : Fin 64) :
    val_main_v65 (F := Ideal) x0 x1 x2 x5 x6 x7 x8 x9 x10 x11 x12 (ix1 j) = colSum (preTab x0 x1 x2 x5 x6 x7 x8 x9 x10 x11 x12) j / ((100000 : ℝ) : EReal) := by
  rw [val_main_v65_apply, colsum_at, val_main_v64_apply, val_main_cst_10_apply, Ideal.hostDivf_def]
  show Ideal.div _ (Ideal.ofBits .f32 0x47C35000#32) = _
  rw [Cert.Consts.ofBits_100000, Cert.Consts.div_real _ _ (by norm_num)]

theorem meanrow_at (r : Fin 100000) (j : Fin 64) :
    val_main_v67 (F := Ideal) x0 x1 x2 x5 x6 x7 x8 x9 x10 x11 x12 (ix2 r j) = val_main_v65 (F := Ideal) x0 x1 x2 x5 x6 x7 x8 x9 x10 x11 x12 (ix1 j) := by
  rw [val_main_v67_apply, val_main_v66_apply]
  refine congrArg _ (funext fun a => Fin.ext ?_)
  match a with
  | ⟨0, _⟩ => rfl

theorem meanrow'_at (r : Fin 100000) (j : Fin 64) :
    val_main_v74 (F := Ideal) x0 x1 x2 x5 x6 x7 x8 x9 x10 x11 x12 (ix2 r j) = val_main_v65 (F := Ideal) x0 x1 x2 x5 x6 x7 x8 x9 x10 x11 x12 (ix1 j) := by
  rw [val_main_v74_apply, val_main_v73_apply]
  refine congrArg _ (funext fun a => Fin.ext ?_)
  match a with
  | ⟨0, _⟩ => rfl

theorem dev_at (r : Fin 100000) (j : Fin 64) :
    val_main_v68 (F := Ideal) x0 x1 x2 x5 x6 x7 x8 x9 x10 x11 x12 (ix2 r j) = preTab x0 x1 x2 x5 x6 x7 x8 x9 x10 x11 x12 r j - colSum (preTab x0 x1 x2 x5 x6 x7 x8 x9 x10 x11 x12) j / ((100000 : ℝ) : EReal) := by
  rw [val_main_v68_apply, pre_at, meanrow_at, mean_at, Ideal.subf_def]

theorem dev'_at (r : Fin 100000) (j : Fin 64) :
    val_main_v75 (F := Ideal) x0 x1 x2 x5 x6 x7 x8 x9 x10 x11 x12 (ix2 r j) = preTab x0 x1 x2 x5 x6 x7 x8 x9 x10 x11 x12 r j - colSum (preTab x0 x1 x2 x5 x6 x7 x8 x9 x10 x11 x12) j / ((100000 : ℝ) : EReal) := by
  rw [val_main_v75_apply, pre_at, meanrow'_at, mean_at, Ideal.subf_def]

theorem devsq_sum_at (j : Fin 64) :
    val_main_v70 (F := Ideal) x0 x1 x2 x5 x6 x7 x8 x9 x10 x11 x12 (ix1 j)
      = ∑ i : Fin 100000, (preTab x0 x1 x2 x5 x6 x7 x8 x9 x10 x11 x12 i j - colSum (preTab x0 x1 x2 x5 x6 x7 x8 x9 x10 x11 x12) j / ((100000 : ℝ) : EReal)) * (preTab x0 x1 x2 x5 x6 x7 x8 x9 x10 x11 x12 i j - colSum (preTab x0 x1 x2 x5 x6 x7 x8 x9 x10 x11 x12) j / ((100000 : ℝ) : EReal)) := by
  rw [val_main_v70_apply]
  show Ideal.ofBits .f32 0x00000000#32 + _ = _
  rw [Ideal.ofBits_zero_f32, zero_add]
  refine Finset.sum_congr rfl fun k _ => ?_
  have h : idx_main_v70 (ix1 j) k = ix2 k j :=
    funext fun a => Fin.ext (by match a with | ⟨0, _⟩ => rfl | ⟨1, _⟩ => rfl)
  rw [h, val_main_v69_apply, dev_at, Ideal.mulf_def]

theorem rstd_at (j : Fin 64) :
    val_main_v78 (F := Ideal) x0 x1 x2 x5 x6 x7 x8 x9 x10 x11 x12 (ix1 j)
      = Ideal.rsqrt ((∑ i : Fin 100000, (preTab x0 x1 x2 x5 x6 x7 x8 x9 x10 x11 x12 i j - colSum (preTab x0 x1 x2 x5 x6 x7 x8 x9 x10 x11 x12) j / ((100000 : ℝ) : EReal)) * (preTab x0 x1 x2 x5 x6 x7 x8 x9 x10 x11 x12 i j - colSum (preTab x0 x1 x2 x5 x6 x7 x8 x9 x10 x11 x12) j / ((100000 : ℝ) : EReal))) / ((100000 : ℝ) : EReal) + Cert.Consts.epsE) := by
  rw [val_main_v78_apply, Ideal.hostUnary_rsqrt_def, val_main_v77_apply, Ideal.addf_def, val_main_v72_apply,
    devsq_sum_at, val_main_v71_apply, val_main_cst_12_apply, Ideal.hostDivf_def, val_main_v76_apply,
    val_main_cst_13_apply]
  show Ideal.rsqrt (Ideal.div _ (Ideal.ofBits .f32 0x47C35000#32) + Cert.Consts.epsE) = _
  rw [Cert.Consts.ofBits_100000, Cert.Consts.div_real _ _ (by norm_num)]

theorem rstdrow_at (r : Fin 100000) (j : Fin 64) :
    val_main_v80 (F := Ideal) x0 x1 x2 x5 x6 x7 x8 x9 x10 x11 x12 (ix2 r j) = val_main_v78 (F := Ideal) x0 x1 x2 x5 x6 x7 x8 x9 x10 x11 x12 (ix1 j) := by
  rw [val_main_v80_apply, val_main_v79_apply]
  refine congrArg _ (funext fun a => Fin.ext ?_)
  match a with
  | ⟨0, _⟩ => rfl

theorem scale_at (r : Fin 100000) (j : Fin 64) : val_main_v83 (F := Ideal) x13 (ix2 r j) = x13 (ix1 j) := by
  rw [val_main_v83_apply, val_main_v82_apply]
  refine congrArg x13 (funext fun a => Fin.ext ?_)
  match a with
  | ⟨0, _⟩ => rfl

theorem shift_at (r : Fin 100000) (j : Fin 64) : val_main_v86 (F := Ideal) x14 (ix2 r j) = x14 (ix1 j) := by
  rw [val_main_v86_apply, val_main_v85_apply]
  refine congrArg x14 (funext fun a => Fin.ext ?_)
  match a with
  | ⟨0, _⟩ => rfl

theorem norm_at (r : Fin 100000) (j : Fin 64) :
    val_main_v87 (F := Ideal) x0 x1 x2 x5 x6 x7 x8 x9 x10 x11 x12 x13 x14 (ix2 r j)
      = bnR Ideal.rsqrt ((100000 : ℝ) : EReal) Cert.Consts.epsE (preTab x0 x1 x2 x5 x6 x7 x8 x9 x10 x11 x12)
          (fun j => x13 (ix1 j)) (fun j => x14 (ix1 j)) r j := by
  unfold bnR
  rw [val_main_v87_apply, val_main_v84_apply, val_main_v81_apply, dev'_at, rstdrow_at, rstd_at, scale_at, shift_at,
    Ideal.addf_def, Ideal.mulf_def, Ideal.mulf_def]

theorem relu_at (r : Fin 100000) (k : Fin 64) :
    val_main_v88 (F := Ideal) x0 x1 x2 x5 x6 x7 x8 x9 x10 x11 x12 x13 x14 (ix2 r k)
      = max (bnR Ideal.rsqrt ((100000 : ℝ) : EReal) Cert.Consts.epsE (preTab x0 x1 x2 x5 x6 x7 x8 x9 x10 x11 x12)
          (fun j => x13 (ix1 j)) (fun j => x14 (ix1 j)) r k) 0 := by
  rw [val_main_v88_apply, norm_at, val_main_call1_v0_apply, val_main_call1_cst_apply, Ideal.maximumf_def]
  show max _ (Ideal.ofBits .f32 0x00000000#32) = _
  rw [Ideal.ofBits_zero_f32]

theorem bias16_at (r : Fin 100000) (j : Fin 64) : val_main_v91 (F := Ideal) x16 (ix2 r j) = x16 (ix1 j) := by
  rw [val_main_v91_apply, val_main_v90_apply]
  refine congrArg x16 (funext fun a => Fin.ext ?_)
  match a with
  | ⟨0, _⟩ => rfl

theorem out_at (r : Fin 100000) (j : Fin 64) :
    val_main_v92 (F := Ideal) x0 x1 x2 x5 x6 x7 x8 x9 x10 x11 x12 x13 x14 x15 x16 (ix2 r j)
      = mlpR (bnR Ideal.rsqrt ((100000 : ℝ) : EReal) Cert.Consts.epsE (preTab x0 x1 x2 x5 x6 x7 x8 x9 x10 x11 x12)
          (fun j => x13 (ix1 j)) (fun j => x14 (ix1 j))) (fun k j => x15 (ix2 k j)) (fun j => x16 (ix1 j)) r j := by
  unfold mlpR
  rw [val_main_v92_apply, val_main_v89_apply, bias16_at, Ideal.addf_def]
  refine congrArg (· + x16 (ix1 j)) (Finset.sum_congr rfl fun k _ => ?_)
  rw [← relu_at]
  exact congr (congrArg _ (congrArg _ (funext fun a => Fin.ext (by match a with | ⟨0, _⟩ => rfl | ⟨1, _⟩ => rfl))))
    (congrArg x15 (funext fun a => Fin.ext (by match a with | ⟨0, _⟩ => rfl | ⟨1, _⟩ => rfl)))

end Cert.ReferenceIdeal.RefValue2.Stage2

namespace Cert.ReferenceIdeal.RefValue2

open Cert.ReferenceIdeal Cert.ReferenceIdeal.Gen Idealize.ShloMosaic Idealize.ShloMosaic.ValueIdx

theorem ref_stage2 (x0 : (⟨S100000x3, .f32⟩ : BufTy).Contents (Elt Ideal)) (x1 : (⟨S2x1600000, .i32⟩ : BufTy).Contents (Elt Ideal))
    (x2 : (⟨S1600000x64, .f32⟩ : BufTy).Contents (Elt Ideal)) (x5 : (⟨S67x64, .f32⟩ : BufTy).Contents (Elt Ideal))
    (x6 x7 x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S67x64, .f32⟩ : BufTy).Contents (Elt Ideal))
    (x12 x13 x14 : (⟨S64, .f32⟩ : BufTy).Contents (Elt Ideal)) (x15 : (⟨S64x64, .f32⟩ : BufTy).Contents (Elt Ideal))
    (x16 : (⟨S64, .f32⟩ : BufTy).Contents (Elt Ideal)) (r : Fin 100000) (j : Fin 64) :
    Cert.ReferenceIdeal.Read.val_main_v92 (F := Ideal) x0 x1 x2 x5 x6 x7 x8 x9 x10 x11 x12 x13 x14 x15 x16 (ix2 r j)
      = Cert.Spec.stageR Idealize.ShloMosaic.Ideal.rsqrt ((100000 : ℝ) : EReal) Cert.Consts.epsE
          (fun r k => x0 (ix2 r k))
          (fun i c => Cert.ReferenceIdeal.Read.val_main_v57 (F := Ideal) x0 x1 x2 x5 x6 x7 x8 x9 x10 (ix2 i c))
          (fun k j => x11 (ix2 (Fin.cast (by norm_num) k) j)) (fun j => x12 (ix1 j)) (fun j => x13 (ix1 j))
          (fun j => x14 (ix1 j)) (fun k j => x15 (ix2 k j)) (fun j => x16 (ix1 j)) r j := by
  unfold Cert.Spec.stageR
  exact Stage2.out_at x0 x1 x2 x5 x6 x7 x8 x9 x10 x11 x12 x13 x14 x15 x16 r j

end Cert.ReferenceIdeal.RefValue2

end
-- ==== Proof.PreFacts.lean ====
import proofs.«429527_j52415780880560_1_alg».proof.Pre_finite_inputs
import proofs.«429527_j52415780880560_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Facts

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ y : ℝ, x = (y : EReal) := by
  change Ideal.cmp .olt (max x (-x)) (Ideal.ofBits .f32 0x7F800000#32) = 1#1 at h
  rw [inf_eq_top] at h
  induction x using EReal.rec with
  | bot => exact absurd h (by simp [Ideal.cmp])
  | coe r => exact ⟨r, rfl⟩
  | top => exact absurd h (by simp [Ideal.cmp])

theorem toInt_lo : (4294867296#32 : BitVec 32).toInt = -100000 := by decide

theorem toInt_hi : (100000#32 : BitVec 32).toInt = 100000 := by decide

theorem ge_of_sge (w : BitVec 32) (h : IntOp.cmpi .sge w 4294867296#32 = 1#1) : (-100000 : ℤ) ≤ w.toInt := by
  unfold IntOp.cmpi at h
  rw [StableHlo.Predicate.ofBool_eq_one_iff] at h
  simp only [BitVec.sle, decide_eq_true_eq, toInt_lo] at h
  exact h

theorem lt_of_slt (w : BitVec 32) (h : IntOp.cmpi .slt w 100000#32 = 1#1) : w.toInt < 100000 := by
  unfold IntOp.cmpi at h
  rw [StableHlo.Predicate.ofBool_eq_one_iff] at h
  simp only [BitVec.slt, decide_eq_true_eq, toInt_hi] at h
  exact h

theorem slice_row0 {α : Type} (x : S2x1600000.Idx → α) (hs : S2x1600000.Slices ![0, 0] S1x1600000) (e : Fin 1600000) :
    extractStridedSlice S1x1600000 ![0, 0] x hs (ix2 (0 : Fin 1) e) = x (ix2 (0 : Fin 2) e) := by
  unfold extractStridedSlice
  congr 1
  funext a
  match a with
  | ⟨0, _⟩ => exact Fin.ext (Nat.zero_add _)
  | ⟨1, _⟩ => exact Fin.ext (Nat.zero_add _)

variable [Cert.Pre_finite_inputs.Facts]

def AllFinite {s : Shape} {axes : List (Fin s.rank)} (hb : S_.BroadcastsInDim s (![] : Fin 0 → Fin s.rank))
    (hr : s.ReducesTo axes S_) (a : FVec Ideal s .f32) : Prop :=
  Host.reduce IntOp.andi
    (cmpf .olt (Host.absf a) (broadcastInDim s ![] hb (constant (F := Ideal) S_ .f32 0x7F800000#32)))
    (constantI S_ 1 1#1) hr h_S_ ix0 = 1#1

def RowAll (p : CmpIPredicate) (c : BitVec 32) (a : IVec S2x1600000 32) : Prop :=
  Host.reduce IntOp.andi
    (cmpi p (extractStridedSlice S1x1600000 ![0, 0] a slices_S2x1600000_S1x1600000_0_0)
      (broadcastInDim S1x1600000 ![] bcast_S_S1x1600000 (constantI S_ 32 c)))
    (constantI S_ 1 1#1) reducesTo_S1x1600000_S_d0_1 h_S_ ix0 = 1#1

theorem real_of_allFinite {s : Shape} {axes : List (Fin s.rank)} {hb : S_.BroadcastsInDim s (![] : Fin 0 → Fin s.rank)}
    {hr : s.ReducesTo axes S_} {a : FVec Ideal s .f32} (h : AllFinite hb hr a) (i : s.Idx) :
    ∃ y : ℝ, a i = (y : EReal) := by
  unfold AllFinite at h
  exact real_of_abs_lt_inf (a i) (Host.reduce_andi_all _ _ hr h_S_ ix0 h i)

theorem row_of_rowAll {p : CmpIPredicate} {c : BitVec 32} {a : IVec S2x1600000 32} (h : RowAll p c a) (e : Fin 1600000) :
    IntOp.cmpi p (a (ix2 (0 : Fin 2) e)) c = 1#1 := by
  unfold RowAll at h
  have k : IntOp.cmpi p
      (extractStridedSlice S1x1600000 ![0, 0] a slices_S2x1600000_S1x1600000_0_0 (ix2 (0 : Fin 1) e)) c = 1#1 :=
    Host.reduce_andi_all _ _ reducesTo_S1x1600000_S_d0_1 h_S_ ix0 h (ix2 (0 : Fin 1) e)
  rw [slice_row0] at k
  exact k

structure Conjuncts (a0 : FVec Ideal S100000x3 .f32) (a1 : IVec S2x1600000 32) (a2 : FVec Ideal S1600000x64 .f32)
    (a3 : FVec Ideal S1x16 .f32) (a5 : FVec Ideal S67x64 .f32) (a6 a7 a8 : FVec Ideal S64 .f32)
    (a9 : FVec Ideal S64x64 .f32) (a10 : FVec Ideal S64 .f32) (a11 : FVec Ideal S67x64 .f32)
    (a12 a13 a14 : FVec Ideal S64 .f32) (a15 : FVec Ideal S64x64 .f32) (a16 : FVec Ideal S64 .f32) : Prop where
  f0 : AllFinite bcast_S_S100000x3 reducesTo_S100000x3_S_d0_1 a0
  f2 : AllFinite bcast_S_S1600000x64 reducesTo_S1600000x64_S_d0_1 a2
  f3 : AllFinite bcast_S_S1x16 reducesTo_S1x16_S_d0_1 a3
  f5 : AllFinite bcast_S_S67x64 reducesTo_S67x64_S_d0_1 a5
  f6 : AllFinite bcast_S_S64 reducesTo_S64_S_d0 a6
  f7 : AllFinite bcast_S_S64 reducesTo_S64_S_d0 a7
  f8 : AllFinite bcast_S_S64 reducesTo_S64_S_d0 a8
  f9 : AllFinite bcast_S_S64x64 reducesTo_S64x64_S_d0_1 a9
  f10 : AllFinite bcast_S_S64 reducesTo_S64_S_d0 a10
  f11 : AllFinite bcast_S_S67x64 reducesTo_S67x64_S_d0_1 a11
  f12 : AllFinite bcast_S_S64 reducesTo_S64_S_d0 a12
  f13 : AllFinite bcast_S_S64 reducesTo_S64_S_d0 a13
  f14 : AllFinite bcast_S_S64 reducesTo_S64_S_d0 a14
  f15 : AllFinite bcast_S_S64x64 reducesTo_S64x64_S_d0_1 a15
  f16 : AllFinite bcast_S_S64 reducesTo_S64_S_d0 a16
  ge : RowAll .sge 4294867296#32 a1
  lt : RowAll .slt 100000#32 a1

variable {a0 : FVec Ideal S100000x3 .f32} {a1 : IVec S2x1600000 32} {a2 : FVec Ideal S1600000x64 .f32}
  {a3 : FVec Ideal S1x16 .f32} {a4 : IVec S100000 32} {a5 : FVec Ideal S67x64 .f32} {a6 a7 a8 : FVec Ideal S64 .f32}
  {a9 : FVec Ideal S64x64 .f32} {a10 : FVec Ideal S64 .f32} {a11 : FVec Ideal S67x64 .f32}
  {a12 a13 a14 : FVec Ideal S64 .f32} {a15 : FVec Ideal S64x64 .f32} {a16 : FVec Ideal S64 .f32}
variable (h : Cert.Pre_finite_inputs.fn (F := Ideal) a0 a1 a2 a3 a4 a5 a6 a7 a8 a9 a10 a11 a12 a13 a14 a15 a16 = fun _ => 1#1)
include h

theorem conjuncts : Conjuncts a0 a1 a2 a3 a5 a6 a7 a8 a9 a10 a11 a12 a13 a14 a15 a16 := by
  have e := congrFun h ix0
  dsimp only [fn, fn_part1, fn_part2, fn_part3, fn_part4] at e
  simp only [andi, IntOp.andi_eq_one] at e
  obtain ⟨⟨⟨⟨⟨⟨⟨⟨⟨⟨⟨⟨⟨⟨⟨⟨h0, h2⟩, h3⟩, h5⟩, h6⟩, h7⟩, h8⟩, h9⟩, h10⟩, h11⟩, h12⟩, h13⟩, h14⟩, h15⟩, h16⟩, hge⟩, hlt⟩ := e
  exact ⟨h0, h2, h3, h5, h6, h7, h8, h9, h10, h11, h12, h13, h14, h15, h16, hge, hlt⟩

theorem real0 : ∀ i, ∃ y : ℝ, a0 i = (y : EReal) := real_of_allFinite (conjuncts h).f0

theorem real2 : ∀ i, ∃ y : ℝ, a2 i = (y : EReal) := real_of_allFinite (conjuncts h).f2

theorem real3 : ∀ i, ∃ y : ℝ, a3 i = (y : EReal) := real_of_allFinite (conjuncts h).f3

theorem real5 : ∀ i, ∃ y : ℝ, a5 i = (y : EReal) := real_of_allFinite (conjuncts h).f5

theorem real6 : ∀ i, ∃ y : ℝ, a6 i = (y : EReal) := real_of_allFinite (conjuncts h).f6

theorem real7 : ∀ i, ∃ y : ℝ, a7 i = (y : EReal) := real_of_allFinite (conjuncts h).f7

theorem real8 : ∀ i, ∃ y : ℝ, a8 i = (y : EReal) := real_of_allFinite (conjuncts h).f8

theorem real9 : ∀ i, ∃ y : ℝ, a9 i = (y : EReal) := real_of_allFinite (conjuncts h).f9

theorem real10 : ∀ i, ∃ y : ℝ, a10 i = (y : EReal) := real_of_allFinite (conjuncts h).f10

theorem real11 : ∀ i, ∃ y : ℝ, a11 i = (y : EReal) := real_of_allFinite (conjuncts h).f11

theorem real12 : ∀ i, ∃ y : ℝ, a12 i = (y : EReal) := real_of_allFinite (conjuncts h).f12

theorem real13 : ∀ i, ∃ y : ℝ, a13 i = (y : EReal) := real_of_allFinite (conjuncts h).f13

theorem real14 : ∀ i, ∃ y : ℝ, a14 i = (y : EReal) := real_of_allFinite (conjuncts h).f14

theorem real15 : ∀ i, ∃ y : ℝ, a15 i = (y : EReal) := real_of_allFinite (conjuncts h).f15

theorem real16 : ∀ i, ∃ y : ℝ, a16 i = (y : EReal) := real_of_allFinite (conjuncts h).f16

theorem row_range : ∀ e : Fin 1600000,
    (-100000 : ℤ) ≤ (a1 (ix2 0 e)).toInt ∧ (a1 (ix2 0 e)).toInt < 100000 := fun e =>
  ⟨ge_of_sge _ (row_of_rowAll (conjuncts h).ge e), lt_of_slt _ (row_of_rowAll (conjuncts h).lt e)⟩

end Cert.PreFacts

end
-- ==== Proof.Bridge.lean ====
import proofs.«429527_j52415780880560_1_alg».proof.Defs
import proofs.«429527_j52415780880560_1_alg».proof.Proof.KI.Run
import proofs.«429527_j52415780880560_1_alg».proof.Proof.RefRun
import proofs.«429527_j52415780880560_1_alg».proof.Proof.Spec
import proofs.«429527_j52415780880560_1_alg».proof.Proof.SpecGraph
import proofs.«429527_j52415780880560_1_alg».proof.Proof.NetworkEq
import proofs.«429527_j52415780880560_1_alg».proof.Proof.Consts
import proofs.«429527_j52415780880560_1_alg».proof.Pre_finite_inputs
import proofs.«429527_j52415780880560_1_alg».proof.Proof.Gen.Pre_finite_inputs
import proofs.«429527_j52415780880560_1_alg».proof.Proof.KI.KBridge
import proofs.«429527_j52415780880560_1_alg».proof.Proof.KI.KBridge2
import proofs.«429527_j52415780880560_1_alg».proof.Proof.RefStage1
import proofs.«429527_j52415780880560_1_alg».proof.Proof.RefStage2
import proofs.«429527_j52415780880560_1_alg».proof.Proof.RefStage2b
import proofs.«429527_j52415780880560_1_alg».proof.Proof.PreFacts
import Idealize.ShloMosaic.Lib.ValueIdx

noncomputable section

namespace Cert.Proof.Net

open Idealize.ShloMosaic Idealize.ShloMosaic.ValueIdx Idealize.ShloMosaic.TcCoe Idealize.SL.Sem Cert.Spec Cert.KernelIdeal

variable (m : (ℓ : Loc nD τ sig) → Buf (Elt Ideal) ℓ) (c : Dev nD)

abbrev A (b : Ref sig .tc) : Buf (Elt Ideal) ((c.tc : Thread nD τ).loc b) := m ((c.tc : Thread nD τ).loc b)

theorem pre_at (hpre : Cert.Pre_KernelIdeal m) :
    Cert.Pre_finite_inputs.fn (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) = (fun _ => 1#1) := hpre c

set_option maxHeartbeats 2000000 in

theorem result_eq (hpre : Cert.Pre_KernelIdeal m) (r : Fin 100000) (j : Fin 64) :
    (Cert.ReferenceIdeal.Read.val_main_v92 (F := Ideal) (A m c main_arg0) (A m c main_arg1) (A m c main_arg2) (A m c main_arg5) (A m c main_arg6) (A m c main_arg7) (A m c main_arg8) (A m c main_arg9) (A m c main_arg10) (A m c main_arg11) (A m c main_arg12) (A m c main_arg13) (A m c main_arg14) (A m c main_arg15) (A m c main_arg16) : Cert.ReferenceIdeal.S100000x64.Idx → EReal) (ix2 r j)
      = ((Rg.dat3 (F := Ideal) (Rg.E3 m) c).arrAt 5 cfg3.N : S100000x64.Idx → EReal) (ix2 r j) := by
  have hp := pre_at m c hpre
  have hrange := Cert.PreFacts.row_range hp
  have key := Cert.Spec.network_eq Ideal.rsqrt Cert.Consts.rsqrt_real Cert.Consts.epsE Cert.Consts.epsE_pos
    (fun r k => (A m c main_arg0) (ix2 r k)) (fun r k => Cert.PreFacts.real0 hp (ix2 r k))
    (fun e => (A m c main_arg1) (ix2 0 e)) (fun e => ((A m c main_arg1) (ix2 1 e)).toInt)
    (fun e k => (A m c main_arg2) (ix2 e k)) (fun e k => Cert.PreFacts.real2 hp (ix2 e k))
    (fun k j => (A m c main_arg5) (ix2 (Fin.cast (by norm_num) k) j)) (fun k j => Cert.PreFacts.real5 hp (ix2 (Fin.cast (by norm_num) k) j))
    (fun j => (A m c main_arg6) (ix1 j)) (fun j => (A m c main_arg7) (ix1 j)) (fun j => (A m c main_arg8) (ix1 j))
    (fun j => Cert.PreFacts.real6 hp (ix1 j)) (fun j => Cert.PreFacts.real7 hp (ix1 j)) (fun j => Cert.PreFacts.real8 hp (ix1 j))
    (fun k j => (A m c main_arg9) (ix2 k j)) (fun k j => Cert.PreFacts.real9 hp (ix2 k j))
    (fun j => (A m c main_arg10) (ix1 j)) (fun j => Cert.PreFacts.real10 hp (ix1 j))
    (fun k j => (A m c main_arg11) (ix2 (Fin.cast (by norm_num) k) j)) (fun k j => Cert.PreFacts.real11 hp (ix2 (Fin.cast (by norm_num) k) j))
    (fun j => (A m c main_arg12) (ix1 j)) (fun j => (A m c main_arg13) (ix1 j)) (fun j => (A m c main_arg14) (ix1 j))
    (fun j => Cert.PreFacts.real12 hp (ix1 j)) (fun j => Cert.PreFacts.real13 hp (ix1 j)) (fun j => Cert.PreFacts.real14 hp (ix1 j))
    (fun k j => (A m c main_arg15) (ix2 k j)) (fun k j => Cert.PreFacts.real15 hp (ix2 k j))
    (fun j => (A m c main_arg16) (ix1 j)) (fun j => Cert.PreFacts.real16 hp (ix1 j))
    (fun e k => ((Rg.dat1 (F := Ideal) (Rg.E1 m) c).arrAt 5 cfg1.N : S1600000x64.Idx → EReal) (ix2 e k))
    (fun e k => (Cert.ReferenceIdeal.Read.val_main_v45 (F := Ideal) (A m c main_arg0) (A m c main_arg1) (A m c main_arg2) (A m c main_arg5) (A m c main_arg6) (A m c main_arg7) (A m c main_arg8) (A m c main_arg9) (A m c main_arg10) : Cert.ReferenceIdeal.S1600000x64.Idx → EReal) (ix2 e k))
    (funext fun e => funext fun k => Val.kernel_stage1 m c hrange e k)
    (funext fun e => funext fun k => Cert.ReferenceIdeal.RefValue.ref_stage1 (A m c main_arg0) (A m c main_arg1) (A m c main_arg2) (A m c main_arg5) (A m c main_arg6) (A m c main_arg7) (A m c main_arg8) (A m c main_arg9) (A m c main_arg10) e k)
    (fun i k => (Rg.E2 m c main_v40 : S100000x64.Idx → EReal) (ix2 i k))
    (fun i k => (Cert.ReferenceIdeal.Read.val_main_v57 (F := Ideal) (A m c main_arg0) (A m c main_arg1) (A m c main_arg2) (A m c main_arg5) (A m c main_arg6) (A m c main_arg7) (A m c main_arg8) (A m c main_arg9) (A m c main_arg10) : Cert.ReferenceIdeal.S100000x64.Idx → EReal) (ix2 i k))
    (funext fun i => funext fun k => Val.kernel_agg m c i k)
    (funext fun i => funext fun k => Cert.ReferenceIdeal.RefValue2.ref_agg (A m c main_arg0) (A m c main_arg1) (A m c main_arg2) (A m c main_arg5) (A m c main_arg6) (A m c main_arg7) (A m c main_arg8) (A m c main_arg9) (A m c main_arg10) i k)
    (fun r j => ((Rg.dat3 (F := Ideal) (Rg.E3 m) c).arrAt 5 cfg3.N : S100000x64.Idx → EReal) (ix2 r j))
    (fun r j => (Cert.ReferenceIdeal.Read.val_main_v92 (F := Ideal) (A m c main_arg0) (A m c main_arg1) (A m c main_arg2) (A m c main_arg5) (A m c main_arg6) (A m c main_arg7) (A m c main_arg8) (A m c main_arg9) (A m c main_arg10) (A m c main_arg11) (A m c main_arg12) (A m c main_arg13) (A m c main_arg14) (A m c main_arg15) (A m c main_arg16) : Cert.ReferenceIdeal.S100000x64.Idx → EReal) (ix2 r j))
    (funext fun r => funext fun j => Val.kernel_stage2 m c r j)
    (funext fun r => funext fun j => Cert.ReferenceIdeal.RefValue2.ref_stage2 (A m c main_arg0) (A m c main_arg1) (A m c main_arg2) (A m c main_arg5) (A m c main_arg6) (A m c main_arg7) (A m c main_arg8) (A m c main_arg9) (A m c main_arg10) (A m c main_arg11) (A m c main_arg12) (A m c main_arg13) (A m c main_arg14) (A m c main_arg15) (A m c main_arg16) r j)
  exact (congrFun (congrFun key r) j).symm

end Cert.Proof.Net

end
-- ==== Proof.lean ====
import proofs.«429527_j52415780880560_1_alg».proof.Defs
import proofs.«429527_j52415780880560_1_alg».proof.Proof.Gen.Kernel
import proofs.«429527_j52415780880560_1_alg».proof.Proof.Gen.KernelIdeal
import proofs.«429527_j52415780880560_1_alg».proof.Proof.Gen.ReferenceIdeal
import proofs.«429527_j52415780880560_1_alg».proof.Proof.Gen.Pre_finite_inputs
import proofs.«429527_j52415780880560_1_alg».proof.Proof.K.Run
import proofs.«429527_j52415780880560_1_alg».proof.Proof.KI.Run
import proofs.«429527_j52415780880560_1_alg».proof.Proof.RefRun
import proofs.«429527_j52415780880560_1_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Rg.frame_run m ρ

theorem frame_ki : Cert.frame_KernelIdeal := fun m ρ _ => Cert.KernelIdeal.Rg.frame_run m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => (Cert.KernelIdeal.Rg.dat3 (F := Ideal) (Cert.KernelIdeal.Rg.E3 m) c).arrAt 5 Cert.KernelIdeal.cfg3.N,
    Cert.KernelIdeal.Rg.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v92_eq, h0, h1, h2, h5, h6, h7, h8, h9, h10, h11, h12, h13, h14, h15, h16]
  funext i
  obtain ⟨r, j, rfl⟩ : ∃ (r : Fin 100000) (j : Fin 64), i = ix2 r j := ⟨i 0, i 1, eq_ix2 i⟩
  exact Cert.Proof.Net.result_eq m c hpre r j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
